-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v270) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S4x40000x2 : Shape := ⟨3, ![4, 40000, 2]⟩
abbrev S2x4x512x512 : Shape := ⟨4, ![2, 4, 512, 512]⟩
abbrev S2x4x512 : Shape := ⟨3, ![2, 4, 512]⟩
abbrev S2x1536x512 : Shape := ⟨3, ![2, 1536, 512]⟩
abbrev S2x1536 : Shape := ⟨2, ![2, 1536]⟩
abbrev S512x512 : Shape := ⟨2, ![512, 512]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S2x4x512x512 : S_.BroadcastsInDim S2x4x512x512 (![] : Fin 0 → Fin S2x4x512x512.rank)
  reducesTo_S2x4x512x512_S_d0_1_2_3 : S2x4x512x512.ReducesTo [0, 1, 2, 3] S_
  bcast_S_S2x4x512 : S_.BroadcastsInDim S2x4x512 (![] : Fin 0 → Fin S2x4x512.rank)
  reducesTo_S2x4x512_S_d0_1_2 : S2x4x512.ReducesTo [0, 1, 2] S_
  bcast_S_S2x1536x512 : S_.BroadcastsInDim S2x1536x512 (![] : Fin 0 → Fin S2x1536x512.rank)
  reducesTo_S2x1536x512_S_d0_1_2 : S2x1536x512.ReducesTo [0, 1, 2] S_
  bcast_S_S2x1536 : S_.BroadcastsInDim S2x1536 (![] : Fin 0 → Fin S2x1536.rank)
  reducesTo_S2x1536_S_d0_1 : S2x1536.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S4x40000x2 : S_.BroadcastsInDim S4x40000x2 (![] : Fin 0 → Fin S4x40000x2.rank)
  reducesTo_S4x40000x2_S_d0_1_2 : S4x40000x2.ReducesTo [0, 1, 2] S_

variable [Facts]

def fn_part3 {F : FTy → Type} [FloatOps F] (main_v47 : IVec S_ 1) (main_v49 : IVec S4x40000x2 1) (main_c_19 : IVec S_ 1) : IVec S_ 1 :=
  let main_v50 : IVec S_ 1 := (fun x v => Host.reduce IntOp.andi x v reducesTo_S4x40000x2_S_d0_1_2 h_S_) main_v49 main_c_19
  let main_v51 : IVec S_ 1 := andi main_v47 main_v50
  main_v51

def fn_part2 {F : FTy → Type} [FloatOps F] (main_arg1 : IVec S4x40000x2 32) (main_arg8 : FVec F S512x512 .f32) (main_arg9 : FVec F S512 .f32) (main_v33 : IVec S_ 1) : IVec S_ 1 :=
  let main_v34 : FVec F S512x512 .f32 := Host.absf main_arg8
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_c_16 : IVec S_ 32 := constantI S_ 32 0#32
  let main_v44 : IVec S4x40000x2 32 := broadcastInDim S4x40000x2 ![] bcast_S_S4x40000x2 main_c_16
  let main_v45 : IVec S4x40000x2 1 := cmpi .sge main_arg1 main_v44
  let main_c_17 : IVec S_ 1 := constantI S_ 1 1#1
  let main_v46 : IVec S_ 1 := (fun x v => Host.reduce IntOp.andi x v reducesTo_S4x40000x2_S_d0_1_2 h_S_) main_v45 main_c_17
  let main_v47 : IVec S_ 1 := andi main_v43 main_v46
  let main_c_18 : IVec S_ 32 := constantI S_ 32 10000#32
  let main_v48 : IVec S4x40000x2 32 := broadcastInDim S4x40000x2 ![] bcast_S_S4x40000x2 main_c_18
  let main_v49 : IVec S4x40000x2 1 := cmpi .slt main_arg1 main_v48
  let main_c_19 : IVec S_ 1 := constantI S_ 1 1#1
  fn_part3 (F := F) main_v47 main_v49 main_c_19

def fn_part1 {F : FTy → Type} [FloatOps F] (main_arg1 : IVec S4x40000x2 32) (main_arg5 : FVec F S2x1536x512 .f32) (main_arg6 : FVec F S2x1536 .f32) (main_arg7 : FVec F S2x1536 .f32) (main_arg8 : FVec F S512x512 .f32) (main_arg9 : FVec F S512 .f32) (main_v13 : IVec S_ 1) (main_v16 : IVec S2x1536x512 1) : IVec S_ 1 :=
  let main_c_5 : IVec S_ 1 := constantI S_ 1 1#1
  let main_v17 : IVec S_ 1 := (fun x v => Host.reduce IntOp.andi x v reducesTo_S2x1536x512_S_d0_1_2 h_S_) main_v16 main_c_5
  let main_v18 : IVec S_ 1 := andi main_v13 main_v17
  let main_v19 : FVec F S2x1536x512 .f32 := Host.absf main_arg5
  let main_cst_6 : FVec F S_ .f32 := constant S_ .f32 0x7F800000#32
  let main_v20 : FVec F S2x1536x512 .f32 := broadcastInDim S2x1536x512 ![] bcast_S_S2x1536x512 main_cst_6
  let main_v21 : IVec S2x1536x512 1 := cmpf .olt main_v19 main_v20
  let main_c_7 : IVec S_ 1 := constantI S_ 1 1#1
  let main_v22 : IVec S_ 1 := (fun x v => Host.reduce IntOp.andi x v reducesTo_S2x1536x512_S_d0_1_2 h_S_) main_v21 main_c_7
  let main_v23 : IVec S_ 1 := andi main_v18 main_v22
  let main_v24 : FVec F S2x1536 .f32 := Host.absf main_arg6
  let main_cst_8 : FVec F S_ .f32 := constant S_ .f32 0x7F800000#32
  let main_v25 : FVec F S2x1536 .f32 := broadcastInDim S2x1536 ![] bcast_S_S2x1536 main_cst_8
  let main_v26 : IVec S2x1536 1 := cmpf .olt main_v24 main_v25
  let main_c_9 : IVec S_ 1 := constantI S_ 1 1#1
  let main_v27 : IVec S_ 1 := (fun x v => Host.reduce IntOp.andi x v reducesTo_S2x1536_S_d0_1 h_S_) main_v26 main_c_9
  let main_v28 : IVec S_ 1 := andi main_v23 main_v27
  let main_v29 : FVec F S2x1536 .f32 := Host.absf main_arg7
  let main_cst_10 : FVec F S_ .f32 := constant S_ .f32 0x7F800000#32
  let main_v30 : FVec F S2x1536 .f32 := broadcastInDim S2x1536 ![] bcast_S_S2x1536 main_cst_10
  let main_v31 : IVec S2x1536 1 := cmpf .olt main_v29 main_v30
  let main_c_11 : IVec S_ 1 := constantI S_ 1 1#1
  let main_v32 : IVec S_ 1 := (fun x v => Host.reduce IntOp.andi x v reducesTo_S2x1536_S_d0_1 h_S_) main_v31 main_c_11
  let main_v33 : IVec S_ 1 := andi main_v28 main_v32
  fn_part2 (F := F) main_arg1 main_arg8 main_arg9 main_v33

def fn {F : FTy → Type} [FloatOps F] (main_arg0 : FVec F S10000x512 .f32) (main_arg1 : IVec S4x40000x2 32) (main_arg2 : FVec F S2x4x512x512 .f32) (main_arg3 : FVec F S2x4x512 .f32) (main_arg4 : FVec F S2x1536x512 .f32) (main_arg5 : FVec F S2x1536x512 .f32) (main_arg6 : FVec F S2x1536 .f32) (main_arg7 : FVec F S2x1536 .f32) (main_arg8 : FVec F S512x512 .f32) (main_arg9 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S2x4x512x512 .f32 := Host.absf main_arg2
  let main_cst_0 : FVec F S_ .f32 := constant S_ .f32 0x7F800000#32
  let main_v5 : FVec F S2x4x512x512 .f32 := broadcastInDim S2x4x512x512 ![] bcast_S_S2x4x512x512 main_cst_0
  let main_v6 : IVec S2x4x512x512 1 := cmpf .olt main_v4 main_v5
  let main_c_1 : IVec S_ 1 := constantI S_ 1 1#1
  let main_v7 : IVec S_ 1 := (fun x v => Host.reduce IntOp.andi x v reducesTo_S2x4x512x512_S_d0_1_2_3 h_S_) main_v6 main_c_1
  let main_v8 : IVec S_ 1 := andi main_v3 main_v7
  let main_v9 : FVec F S2x4x512 .f32 := Host.absf main_arg3
  let main_cst_2 : FVec F S_ .f32 := constant S_ .f32 0x7F800000#32
  let main_v10 : FVec F S2x4x512 .f32 := broadcastInDim S2x4x512 ![] bcast_S_S2x4x512 main_cst_2
  let main_v11 : IVec S2x4x512 1 := cmpf .olt main_v9 main_v10
  let main_c_3 : IVec S_ 1 := constantI S_ 1 1#1
  let main_v12 : IVec S_ 1 := (fun x v => Host.reduce IntOp.andi x v reducesTo_S2x4x512_S_d0_1_2 h_S_) main_v11 main_c_3
  let main_v13 : IVec S_ 1 := andi main_v8 main_v12
  let main_v14 : FVec F S2x1536x512 .f32 := Host.absf main_arg4
  let main_cst_4 : FVec F S_ .f32 := constant S_ .f32 0x7F800000#32
  let main_v15 : FVec F S2x1536x512 .f32 := broadcastInDim S2x1536x512 ![] bcast_S_S2x1536x512 main_cst_4
  let main_v16 : IVec S2x1536x512 1 := cmpf .olt main_v14 main_v15
  fn_part1 (F := F) main_arg1 main_arg5 main_arg6 main_arg7 main_arg8 main_arg9 main_v13 main_v16
-- ==== Kernel.lean ====
abbrev S10000x512 : Shape := ⟨2, ![10000, 512]⟩
abbrev S4x40000x2 : Shape := ⟨3, ![4, 40000, 2]⟩
abbrev S2x4x512x512 : Shape := ⟨4, ![2, 4, 512, 512]⟩
abbrev S2x4x512 : Shape := ⟨3, ![2, 4, 512]⟩
abbrev S2x1536x512 : Shape := ⟨3, ![2, 1536, 512]⟩
abbrev S2x1536 : Shape := ⟨2, ![2, 1536]⟩
abbrev S512x512 : Shape := ⟨2, ![512, 512]⟩
abbrev S512 : Shape := ⟨1, ![512]⟩
abbrev S4x40000x1 : Shape := ⟨3, ![4, 40000, 1]⟩
abbrev S4x40000 : Shape := ⟨2, ![4, 40000]⟩
abbrev S160000 : Shape := ⟨1, ![160000]⟩
abbrev S4 : Shape := ⟨1, ![4]⟩
abbrev S_ : Shape := ⟨0, ![]⟩
abbrev S10000x4 : Shape := ⟨2, ![10000, 4]⟩
abbrev S160000x1 : Shape := ⟨2, ![160000, 1]⟩
abbrev S160000x2 : Shape := ⟨2, ![160000, 2]⟩
abbrev S1x4x512x512 : Shape := ⟨4, ![1, 4, 512, 512]⟩
abbrev S4x512x512 : Shape := ⟨3, ![4, 512, 512]⟩
abbrev S512x4x512 : Shape := ⟨3, ![512, 4, 512]⟩
abbrev S512x2048 : Shape := ⟨2, ![512, 2048]⟩
abbrev S1x1536x512 : Shape := ⟨3, ![1, 1536, 512]⟩
abbrev S1536x512 : Shape := ⟨2, ![1536, 512]⟩
abbrev S512x1536 : Shape := ⟨2, ![512, 1536]⟩
abbrev S1x1536 : Shape := ⟨2, ![1, 1536]⟩
abbrev S1536 : Shape := ⟨1, ![1536]⟩
abbrev S1x4x512 : Shape := ⟨3, ![1, 4, 512]⟩
abbrev S4x512 : Shape := ⟨2, ![4, 512]⟩
abbrev S10000x2048 : Shape := ⟨2, ![10000, 2048]⟩
abbrev S1000x512 : Shape := ⟨2, ![1000, 512]⟩
abbrev S1000x2048 : Shape := ⟨2, ![1000, 2048]⟩
abbrev S40000x512 : Shape := ⟨2, ![40000, 512]⟩
abbrev S1 : Shape := ⟨1, ![1]⟩
abbrev S1x1 : Shape := ⟨2, ![1, 1]⟩
abbrev S160000x512 : Shape := ⟨2, ![160000, 512]⟩
abbrev S1000x1536 : Shape := ⟨2, ![1000, 1536]⟩
abbrev S1x512 : Shape := ⟨2, ![1, 512]⟩

abbrev nBuf : Space → Nat
  | .hbm => 218
  | .vmem => 66
  | .smem => 0
  | _ => 0

abbrev hbmTy0_0 (i : Nat) : BufTy := match i % 128 with
  | 0 => ⟨S10000x512, .f32⟩
  | 1 => ⟨S4x40000x2, .i32⟩
  | 2 => ⟨S2x4x512x512, .f32⟩
  | 3 => ⟨S2x4x512, .f32⟩
  | 4 => ⟨S2x1536x512, .f32⟩
  | 5 => ⟨S2x1536x512, .f32⟩
  | 6 => ⟨S2x1536, .f32⟩
  | 7 => ⟨S2x1536, .f32⟩
  | 8 => ⟨S512x512, .f32⟩
  | 9 => ⟨S512, .f32⟩
  | 10 => ⟨S4x40000x1, .i32⟩
  | 11 => ⟨S4x40000, .i32⟩
  | 12 => ⟨S4x40000x1, .i32⟩
  | 13 => ⟨S4x40000, .i32⟩
  | 14 => ⟨S160000, .i32⟩
  | 15 => ⟨S160000, .i32⟩
  | 16 => ⟨S4, .i32⟩
  | 17 => ⟨S4x40000, .i32⟩
  | 18 => ⟨S160000, .i32⟩
  | 19 => ⟨S_, .i32⟩
  | 20 => ⟨S160000, .i32⟩
  | 21 => ⟨S160000, .i32⟩
  | 22 => ⟨S160000, .i32⟩
  | 23 => ⟨S_, .f32⟩
  | 24 => ⟨S10000x4, .f32⟩
  | 25 => ⟨S_, .i32⟩
  | 26 => ⟨S160000, .i32⟩
  | 27 => ⟨S160000, .i1⟩
  | 28 => ⟨S_, .i32⟩
  | 29 => ⟨S160000, .i32⟩
  | 30 => ⟨S160000, .i32⟩
  | 31 => ⟨S160000, .i32⟩
  | 32 => ⟨S_, .i32⟩
  | 33 => ⟨S160000, .i32⟩
  | 34 => ⟨S160000, .i1⟩
  | 35 => ⟨S_, .i32⟩
  | 36 => ⟨S160000, .i32⟩
  | 37 => ⟨S160000, .i32⟩
  | 38 => ⟨S160000, .i32⟩
  | 39 => ⟨S160000x1, .i32⟩
  | 40 => ⟨S160000x1, .i32⟩
  | 41 => ⟨S160000x2, .i32⟩
  | 42 => ⟨S_, .f32⟩
  | 43 => ⟨S160000, .f32⟩
  | 44 => ⟨S10000x4, .f32⟩
  | 45 => ⟨S1x4x512x512, .f32⟩
  | 46 => ⟨S4x512x512, .f32⟩
  | 47 => ⟨S512x4x512, .f32⟩
  | 48 => ⟨S512x2048, .f32⟩
  | 49 => ⟨S512x2048, .bf16⟩
  | 50 => ⟨S1x1536x512, .f32⟩
  | 51 => ⟨S1536x512, .f32⟩
  | 52 => ⟨S512x1536, .f32⟩
  | 53 => ⟨S512x1536, .bf16⟩
  | 54 => ⟨S1x1536x512, .f32⟩
  | 55 => ⟨S1536x512, .f32⟩
  | 56 => ⟨S512x1536, .f32⟩
  | 57 => ⟨S512x1536, .bf16⟩
  | 58 => ⟨S1x1536, .f32⟩
  | 59 => ⟨S1536, .f32⟩
  | 60 => ⟨S1x1536, .f32⟩
  | 61 => ⟨S1x1536, .f32⟩
  | 62 => ⟨S1536, .f32⟩
  | 63 => ⟨S1x1536, .f32⟩
  | 64 => ⟨S1x4x512, .f32⟩
  | 65 => ⟨S4x512, .f32⟩
  | 66 => ⟨S10000x512, .f32⟩
  | 67 => ⟨S10000x2048, .f32⟩
  | 68 => ⟨S40000x512, .f32⟩
  | 69 => ⟨S_, .i32⟩
  | 70 => ⟨S160000, .i32⟩
  | 71 => ⟨S160000, .i1⟩
  | 72 => ⟨S_, .i32⟩
  | 73 => ⟨S160000, .i32⟩
  | 74 => ⟨S160000, .i32⟩
  | 75 => ⟨S160000, .i32⟩
  | 76 => ⟨S160000x1, .i32⟩
  | 77 => ⟨S1, .i32⟩
  | 78 => ⟨S_, .i32⟩
  | 79 => ⟨S160000x1, .i32⟩
  | 80 => ⟨S160000x1, .i1⟩
  | 81 => ⟨S1x1, .i32⟩
  | 82 => ⟨S160000x1, .i32⟩
  | 83 => ⟨S160000x1, .i1⟩
  | 84 => ⟨S160000x1, .i1⟩
  | 85 => ⟨S_, .i1⟩
  | 86 => ⟨S160000, .i1⟩
  | 87 => ⟨S160000x512, .f32⟩
  | 88 => ⟨S160000x512, .i1⟩
  | 89 => ⟨S_, .f32⟩
  | 90 => ⟨S160000x512, .f32⟩
  | 91 => ⟨S160000x512, .f32⟩
  | 92 => ⟨S_, .f32⟩
  | 93 => ⟨S10000x512, .f32⟩
  | 94 => ⟨S160000x1, .i32⟩
  | 95 => ⟨S10000x512, .f32⟩
  | 96 => ⟨S10000x512, .f32⟩
  | 97 => ⟨S10000x512, .f32⟩
  | 98 => ⟨S10000x2048, .f32⟩
  | 99 => ⟨S40000x512, .f32⟩
  | 100 => ⟨S_, .i32⟩
  | 101 => ⟨S160000, .i32⟩
  | 102 => ⟨S160000, .i1⟩
  | 103 => ⟨S_, .i32⟩
  | 104 => ⟨S160000, .i32⟩
  | 105 => ⟨S160000, .i32⟩
  | 106 => ⟨S160000, .i32⟩
  | 107 => ⟨S160000x1, .i32⟩
  | 108 => ⟨S1, .i32⟩
  | 109 => ⟨S_, .i32⟩
  | 110 => ⟨S160000x1, .i32⟩
  | 111 => ⟨S160000x1, .i1⟩
  | 112 => ⟨S1x1, .i32⟩
  | 113 => ⟨S160000x1, .i32⟩
  | 114 => ⟨S160000x1, .i1⟩
  | 115 => ⟨S160000x1, .i1⟩
  | 116 => ⟨S_, .i1⟩
  | 117 => ⟨S160000, .i1⟩
  | 118 => ⟨S160000x512, .f32⟩
  | 119 => ⟨S160000x512, .i1⟩
  | 120 => ⟨S_, .f32⟩
  | 121 => ⟨S160000x512, .f32⟩
  | 122 => ⟨S160000x512, .f32⟩
  | 123 => ⟨S_, .f32⟩
  | 124 => ⟨S10000x512, .f32⟩
  | 125 => ⟨S160000x1, .i32⟩
  | 126 => ⟨S10000x512, .f32⟩
  | 127 => ⟨S10000x512, .f32⟩
  | _ => ⟨S10000x512, .f32⟩

abbrev hbmTy0_1 (i : Nat) : BufTy := match i % 128 with
  | 0 => ⟨S10000x512, .f32⟩
  | 1 => ⟨S1x4x512x512, .f32⟩
  | 2 => ⟨S4x512x512, .f32⟩
  | 3 => ⟨S512x4x512, .f32⟩
  | 4 => ⟨S512x2048, .f32⟩
  | 5 => ⟨S512x2048, .bf16⟩
  | 6 => ⟨S1x1536x512, .f32⟩
  | 7 => ⟨S1536x512, .f32⟩
  | 8 => ⟨S512x1536, .f32⟩
  | 9 => ⟨S512x1536, .bf16⟩
  | 10 => ⟨S1x1536x512, .f32⟩
  | 11 => ⟨S1536x512, .f32⟩
  | 12 => ⟨S512x1536, .f32⟩
  | 13 => ⟨S512x1536, .bf16⟩
  | 14 => ⟨S1x1536, .f32⟩
  | 15 => ⟨S1536, .f32⟩
  | 16 => ⟨S1x1536, .f32⟩
  | 17 => ⟨S1x1536, .f32⟩
  | 18 => ⟨S1536, .f32⟩
  | 19 => ⟨S1x1536, .f32⟩
  | 20 => ⟨S1x4x512, .f32⟩
  | 21 => ⟨S4x512, .f32⟩
  | 22 => ⟨S10000x512, .f32⟩
  | 23 => ⟨S10000x2048, .f32⟩
  | 24 => ⟨S40000x512, .f32⟩
  | 25 => ⟨S_, .i32⟩
  | 26 => ⟨S160000, .i32⟩
  | 27 => ⟨S160000, .i1⟩
  | 28 => ⟨S_, .i32⟩
  | 29 => ⟨S160000, .i32⟩
  | 30 => ⟨S160000, .i32⟩
  | 31 => ⟨S160000, .i32⟩
  | 32 => ⟨S160000x1, .i32⟩
  | 33 => ⟨S1, .i32⟩
  | 34 => ⟨S_, .i32⟩
  | 35 => ⟨S160000x1, .i32⟩
  | 36 => ⟨S160000x1, .i1⟩
  | 37 => ⟨S1x1, .i32⟩
  | 38 => ⟨S160000x1, .i32⟩
  | 39 => ⟨S160000x1, .i1⟩
  | 40 => ⟨S160000x1, .i1⟩
  | 41 => ⟨S_, .i1⟩
  | 42 => ⟨S160000, .i1⟩
  | 43 => ⟨S160000x512, .f32⟩
  | 44 => ⟨S160000x512, .i1⟩
  | 45 => ⟨S_, .f32⟩
  | 46 => ⟨S160000x512, .f32⟩
  | 47 => ⟨S160000x512, .f32⟩
  | 48 => ⟨S_, .f32⟩
  | 49 => ⟨S10000x512, .f32⟩
  | 50 => ⟨S160000x1, .i32⟩
  | 51 => ⟨S10000x512, .f32⟩
  | 52 => ⟨S10000x512, .f32⟩
  | 53 => ⟨S10000x512, .f32⟩
  | 54 => ⟨S10000x2048, .f32⟩
  | 55 => ⟨S40000x512, .f32⟩
  | 56 => ⟨S_, .i32⟩
  | 57 => ⟨S160000, .i32⟩
  | 58 => ⟨S160000, .i1⟩
  | 59 => ⟨S_, .i32⟩
  | 60 => ⟨S160000, .i32⟩
  | 61 => ⟨S160000, .i32⟩
  | 62 => ⟨S160000, .i32⟩
  | 63 => ⟨S160000x1, .i32⟩
  | 64 => ⟨S1, .i32⟩
  | 65 => ⟨S_, .i32⟩
  | 66 => ⟨S160000x1, .i32⟩
  | 67 => ⟨S160000x1, .i1⟩
  | 68 => ⟨S1x1, .i32⟩
  | 69 => ⟨S160000x1, .i32⟩
  | 70 => ⟨S160000x1, .i1⟩
  | 71 => ⟨S160000x1, .i1⟩
  | 72 => ⟨S_, .i1⟩
  | 73 => ⟨S160000, .i1⟩
  | 74 => ⟨S160000x512, .f32⟩
  | 75 => ⟨S160000x512, .i1⟩
  | 76 => ⟨S_, .f32⟩
  | 77 => ⟨S160000x512, .f32⟩
  | 78 => ⟨S160000x512, .f32⟩
  | 79 => ⟨S_, .f32⟩
  | 80 => ⟨S10000x512, .f32⟩
  | 81 => ⟨S160000x1, .i32⟩
  | 82 => ⟨S10000x512, .f32⟩
  | 83 => ⟨S10000x512, .f32⟩
  | 84 => ⟨S10000x512, .f32⟩
  | 85 => ⟨S512x512, .f32⟩
  | 86 => ⟨S512x512, .bf16⟩
  | 87 => ⟨S1x512, .f32⟩
  | 88 => ⟨S1x512, .f32⟩
  | 89 => ⟨S512, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | .local _ .vmem, ⟨0, _⟩ => ⟨S1000x512, .f32⟩
  | .local _ .vmem, ⟨1, _⟩ => ⟨S1000x512, .f32⟩
  | .local _ .vmem, ⟨2, _⟩ => ⟨S512x2048, .bf16⟩
  | .local _ .vmem, ⟨3, _⟩ => ⟨S1000x2048, .f32⟩
  | .local _ .vmem, ⟨4, _⟩ => ⟨S1000x2048, .f32⟩
  | .local _ .vmem, ⟨5, _⟩ => ⟨S1000x512, .f32⟩
  | .local _ .vmem, ⟨6, _⟩ => ⟨S1000x512, .f32⟩
  | .local _ .vmem, ⟨7, _⟩ => ⟨S1000x512, .f32⟩
  | .local _ .vmem, ⟨8, _⟩ => ⟨S1000x512, .f32⟩
  | .local _ .vmem, ⟨9, _⟩ => ⟨S512x1536, .bf16⟩
  | .local _ .vmem, ⟨10, _⟩ => ⟨S512x1536, .bf16⟩
  | .local _ .vmem, ⟨11, _⟩ => ⟨S1x1536, .f32⟩
  | .local _ .vmem, ⟨12, _⟩ => ⟨S1x1536, .f32⟩
  | .local _ .vmem, ⟨13, _⟩ => ⟨S1000x512, .f32⟩
  | .local _ .vmem, ⟨14, _⟩ => ⟨S1000x512, .f32⟩
  | .local _ .vmem, ⟨15, _⟩ => ⟨S1000x512, .f32⟩
  | .local _ .vmem, ⟨16, _⟩ => ⟨S1000x512, .f32⟩
  | .local _ .vmem, ⟨17, _⟩ => ⟨S512x2048, .bf16⟩
  | .local _ .vmem, ⟨18, _⟩ => ⟨S1000x2048, .f32⟩
  | .local _ .vmem, ⟨19, _⟩ => ⟨S1000x2048, .f32⟩
  | .local _ .vmem, ⟨20, _⟩ => ⟨S1000x512, .f32⟩
  | .local _ .vmem, ⟨21, _⟩ => ⟨S1000x512, .f32⟩
  | .local _ .vmem, ⟨22, _⟩ => ⟨S1000x512, .f32⟩
  | .local _ .vmem, ⟨23, _⟩ => ⟨S1000x512, .f32⟩
  | .local _ .vmem, ⟨24, _⟩ => ⟨S512x1536, .bf16⟩
  | .local _ .vmem, ⟨25, _⟩ => ⟨S512x1536, .bf16⟩
  | .local _ .vmem, ⟨26, _⟩ => ⟨S1x1536, .f32⟩
  | .local _ .vmem, ⟨27, _⟩ => ⟨S1x1536, .f32⟩
  | .local _ .vmem, ⟨28, _⟩ => ⟨S1000x512, .f32⟩
  | .local _ .vmem, ⟨29, _⟩ => ⟨S1000x512, .f32⟩
  | .local _ .vmem, ⟨30, _⟩ => ⟨S1000x512, .f32⟩
  | .local _ .vmem, ⟨31, _⟩ => ⟨S1000x512, .f32⟩
  | .local _ .vmem, ⟨32, _⟩ => ⟨S512x2048, .bf16⟩
  | .local _ .vmem, ⟨33, _⟩ => ⟨S1000x2048, .f32⟩
  | .local _ .vmem, ⟨34, _⟩ => ⟨S1000x2048, .f32⟩
  | .local _ .vmem, ⟨35, _⟩ => ⟨S1000x512, .f32⟩
  | .local _ .vmem, ⟨36, _⟩ => ⟨S1000x512, .f32⟩
  | .local _ .vmem, ⟨37, _⟩ => ⟨S1000x512, .f32⟩
  | .local _ .vmem, ⟨38, _⟩ => ⟨S1000x512, .f32⟩
  | .local _ .vmem, ⟨39, _⟩ => ⟨S512x1536, .bf16⟩
  | .local _ .vmem, ⟨40, _⟩ => ⟨S512x1536, .bf16⟩
  | .local _ .vmem, ⟨41, _⟩ => ⟨S1x1536, .f32⟩
  | .local _ .vmem, ⟨42, _⟩ => ⟨S1x1536, .f32⟩
  | .local _ .vmem, ⟨43, _⟩ => ⟨S1000x512, .f32⟩
  | .local _ .vmem, ⟨44, _⟩ => ⟨S1000x512, .f32⟩
  | .local _ .vmem, ⟨45, _⟩ => ⟨S1000x512, .f32⟩
  | .local _ .vmem, ⟨46, _⟩ => ⟨S1000x512, .f32⟩
  | .local _ .vmem, ⟨47, _⟩ => ⟨S512x2048, .bf16⟩
  | .local _ .vmem, ⟨48, _⟩ => ⟨S1000x2048, .f32⟩
  | .local _ .vmem, ⟨49, _⟩ => ⟨S1000x2048, .f32⟩
  | .local _ .vmem, ⟨50, _⟩ => ⟨S1000x512, .f32⟩
  | .local _ .vmem, ⟨51, _⟩ => ⟨S1000x512, .f32⟩
  | .local _ .vmem, ⟨52, _⟩ => ⟨S1000x512, .f32⟩
  | .local _ .vmem, ⟨53, _⟩ => ⟨S1000x512, .f32⟩
  | .local _ .vmem, ⟨54, _⟩ => ⟨S512x1536, .bf16⟩
  | .local _ .vmem, ⟨55, _⟩ => ⟨S512x1536, .bf16⟩
  | .local _ .vmem, ⟨56, _⟩ => ⟨S1x1536, .f32⟩
  | .local _ .vmem, ⟨57, _⟩ => ⟨S1x1536, .f32⟩
  | .local _ .vmem, ⟨58, _⟩ => ⟨S1000x512, .f32⟩
  | .local _ .vmem, ⟨59, _⟩ => ⟨S1000x512, .f32⟩
  | .local _ .vmem, ⟨60, _⟩ => ⟨S1000x512, .f32⟩
  | .local _ .vmem, ⟨61, _⟩ => ⟨S1000x512, .f32⟩
  | .local _ .vmem, ⟨62, _⟩ => ⟨S512x512, .bf16⟩
  | .local _ .vmem, ⟨63, _⟩ => ⟨S1x512, .f32⟩
  | .local _ .vmem, ⟨64, _⟩ => ⟨S1x512, .f32⟩
  | .local _ .vmem, ⟨65, _⟩ => ⟨S1x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_c_0 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_call0_c : Ref sig .tc := ⟨.hbm, 69, rfl⟩
abbrev main_call0_v0 : Ref sig .tc := ⟨.hbm, 70, rfl⟩
abbrev main_call0_v1 : Ref sig .tc := ⟨.hbm, 71, rfl⟩
abbrev main_call0_c_0 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_v5 : Ref sig .tc := ⟨.hbm, 76, rfl⟩
abbrev main_call0_c_1 : Ref sig .tc := ⟨.hbm, 77, rfl⟩
abbrev main_call0_c_2 : Ref sig .tc := ⟨.hbm, 78, rfl⟩
abbrev main_call0_v6 : Ref sig .tc := ⟨.hbm, 79, rfl⟩
abbrev main_call0_v7 : Ref sig .tc := ⟨.hbm, 80, rfl⟩
abbrev main_call0_v8 : Ref sig .tc := ⟨.hbm, 81, rfl⟩
abbrev main_call0_v9 : Ref sig .tc := ⟨.hbm, 82, rfl⟩
abbrev main_call0_v10 : Ref sig .tc := ⟨.hbm, 83, rfl⟩
abbrev main_call0_v11 : Ref sig .tc := ⟨.hbm, 84, rfl⟩
abbrev main_call0_c_3 : Ref sig .tc := ⟨.hbm, 85, rfl⟩
abbrev main_call0_v12 : Ref sig .tc := ⟨.hbm, 86, rfl⟩
abbrev main_call0_v13 : Ref sig .tc := ⟨.hbm, 87, rfl⟩
abbrev main_call0_v14 : Ref sig .tc := ⟨.hbm, 88, rfl⟩
abbrev main_call0_cst : Ref sig .tc := ⟨.hbm, 89, rfl⟩
abbrev main_call0_v15 : Ref sig .tc := ⟨.hbm, 90, rfl⟩
abbrev main_v52 : Ref sig .tc := ⟨.hbm, 91, rfl⟩
abbrev main_cst_5 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_call1_c : Ref sig .tc := ⟨.hbm, 100, rfl⟩
abbrev main_call1_v0 : Ref sig .tc := ⟨.hbm, 101, rfl⟩
abbrev main_call1_v1 : Ref sig .tc := ⟨.hbm, 102, rfl⟩
abbrev main_call1_c_0 : Ref sig .tc := ⟨.hbm, 103, rfl⟩
abbrev main_call1_v2 : Ref sig .tc := ⟨.hbm, 104, rfl⟩
abbrev main_call1_v3 : Ref sig .tc := ⟨.hbm, 105, rfl⟩
abbrev main_call1_v4 : Ref sig .tc := ⟨.hbm, 106, rfl⟩
abbrev main_call1_v5 : Ref sig .tc := ⟨.hbm, 107, rfl⟩
abbrev main_call1_c_1 : Ref sig .tc := ⟨.hbm, 108, rfl⟩
abbrev main_call1_c_2 : Ref sig .tc := ⟨.hbm, 109, rfl⟩
abbrev main_call1_v6 : Ref sig .tc := ⟨.hbm, 110, rfl⟩
abbrev main_call1_v7 : Ref sig .tc := ⟨.hbm, 111, rfl⟩
abbrev main_call1_v8 : Ref sig .tc := ⟨.hbm, 112, rfl⟩
abbrev main_call1_v9 : Ref sig .tc := ⟨.hbm, 113, rfl⟩
abbrev main_call1_v10 : Ref sig .tc := ⟨.hbm, 114, rfl⟩
abbrev main_call1_v11 : Ref sig .tc := ⟨.hbm, 115, rfl⟩
abbrev main_call1_c_3 : Ref sig .tc := ⟨.hbm, 116, rfl⟩
abbrev main_call1_v12 : Ref sig .tc := ⟨.hbm, 117, rfl⟩
abbrev main_call1_v13 : Ref sig .tc := ⟨.hbm, 118, rfl⟩
abbrev main_call1_v14 : Ref sig .tc := ⟨.hbm, 119, rfl⟩
abbrev main_call1_cst : Ref sig .tc := ⟨.hbm, 120, rfl⟩
abbrev main_call1_v15 : Ref sig .tc := ⟨.hbm, 121, rfl⟩
abbrev main_v60 : Ref sig .tc := ⟨.hbm, 122, rfl⟩
abbrev main_cst_6 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_call2_c : Ref sig .tc := ⟨.hbm, 153, rfl⟩
abbrev main_call2_v0 : Ref sig .tc := ⟨.hbm, 154, rfl⟩
abbrev main_call2_v1 : Ref sig .tc := ⟨.hbm, 155, rfl⟩
abbrev main_call2_c_0 : Ref sig .tc := ⟨.hbm, 156, rfl⟩
abbrev main_call2_v2 : Ref sig .tc := ⟨.hbm, 157, rfl⟩
abbrev main_call2_v3 : Ref sig .tc := ⟨.hbm, 158, rfl⟩
abbrev main_call2_v4 : Ref sig .tc := ⟨.hbm, 159, rfl⟩
abbrev main_call2_v5 : Ref sig .tc := ⟨.hbm, 160, rfl⟩
abbrev main_call2_c_1 : Ref sig .tc := ⟨.hbm, 161, rfl⟩
abbrev main_call2_c_2 : Ref sig .tc := ⟨.hbm, 162, rfl⟩
abbrev main_call2_v6 : Ref sig .tc := ⟨.hbm, 163, rfl⟩
abbrev main_call2_v7 : Ref sig .tc := ⟨.hbm, 164, rfl⟩
abbrev main_call2_v8 : Ref sig .tc := ⟨.hbm, 165, rfl⟩
abbrev main_call2_v9 : Ref sig .tc := ⟨.hbm, 166, rfl⟩
abbrev main_call2_v10 : Ref sig .tc := ⟨.hbm, 167, rfl⟩
abbrev main_call2_v11 : Ref sig .tc := ⟨.hbm, 168, rfl⟩
abbrev main_call2_c_3 : Ref sig .tc := ⟨.hbm, 169, rfl⟩
abbrev main_call2_v12 : Ref sig .tc := ⟨.hbm, 170, rfl⟩
abbrev main_call2_v13 : Ref sig .tc := ⟨.hbm, 171, rfl⟩
abbrev main_call2_v14 : Ref sig .tc := ⟨.hbm, 172, rfl⟩
abbrev main_call2_cst : Ref sig .tc := ⟨.hbm, 173, rfl⟩
abbrev main_call2_v15 : Ref sig .tc := ⟨.hbm, 174, rfl⟩
abbrev main_v90 : Ref sig .tc := ⟨.hbm, 175, rfl⟩
abbrev main_cst_7 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_call3_c : Ref sig .tc := ⟨.hbm, 184, rfl⟩
abbrev main_call3_v0 : Ref sig .tc := ⟨.hbm, 185, rfl⟩
abbrev main_call3_v1 : Ref sig .tc := ⟨.hbm, 186, rfl⟩
abbrev main_call3_c_0 : Ref sig .tc := ⟨.hbm, 187, rfl⟩
abbrev main_call3_v2 : Ref sig .tc := ⟨.hbm, 188, rfl⟩
abbrev main_call3_v3 : Ref sig .tc := ⟨.hbm, 189, rfl⟩
abbrev main_call3_v4 : Ref sig .tc := ⟨.hbm, 190, rfl⟩
abbrev main_call3_v5 : Ref sig .tc := ⟨.hbm, 191, rfl⟩
abbrev main_call3_c_1 : Ref sig .tc := ⟨.hbm, 192, rfl⟩
abbrev main_call3_c_2 : Ref sig .tc := ⟨.hbm, 193, rfl⟩
abbrev main_call3_v6 : Ref sig .tc := ⟨.hbm, 194, rfl⟩
abbrev main_call3_v7 : Ref sig .tc := ⟨.hbm, 195, rfl⟩
abbrev main_call3_v8 : Ref sig .tc := ⟨.hbm, 196, rfl⟩
abbrev main_call3_v9 : Ref sig .tc := ⟨.hbm, 197, rfl⟩
abbrev main_call3_v10 : Ref sig .tc := ⟨.hbm, 198, rfl⟩
abbrev main_call3_v11 : Ref sig .tc := ⟨.hbm, 199, rfl⟩
abbrev main_call3_c_3 : Ref sig .tc := ⟨.hbm, 200, rfl⟩
abbrev main_call3_v12 : Ref sig .tc := ⟨.hbm, 201, rfl⟩
abbrev main_call3_v13 : Ref sig .tc := ⟨.hbm, 202, rfl⟩
abbrev main_call3_v14 : Ref sig .tc := ⟨.hbm, 203, rfl⟩
abbrev main_call3_cst : Ref sig .tc := ⟨.hbm, 204, rfl⟩
abbrev main_call3_v15 : Ref sig .tc := ⟨.hbm, 205, rfl⟩
abbrev main_v98 : Ref sig .tc := ⟨.hbm, 206, rfl⟩
abbrev main_cst_8 : Ref sig .tc := ⟨.hbm, 207, rfl⟩
abbrev main_v99 : Ref sig .tc := ⟨.hbm, 208, rfl⟩
abbrev main_v100 : Ref sig .tc := ⟨.hbm, 209, rfl⟩
abbrev main_v101 : Ref sig .tc := ⟨.hbm, 210, rfl⟩
abbrev main_v102 : Ref sig .tc := ⟨.hbm, 211, rfl⟩
abbrev main_v103 : Ref sig .tc := ⟨.hbm, 212, rfl⟩
abbrev main_v104 : Ref sig .tc := ⟨.hbm, 213, rfl⟩
abbrev main_v105 : Ref sig .tc := ⟨.hbm, 214, rfl⟩
abbrev main_v106 : Ref sig .tc := ⟨.hbm, 215, rfl⟩
abbrev main_v107 : Ref sig .tc := ⟨.hbm, 216, rfl⟩
abbrev main_v108 : Ref sig .tc := ⟨.hbm, 217, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg6_0 : Ref sig .tc := ⟨.vmem, 43, rfl⟩
abbrev cc5_stg6_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg2_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg3_0 : Ref sig .tc := ⟨.vmem, 55, rfl⟩
abbrev cc7_stg4_0 : Ref sig .tc := ⟨.vmem, 56, rfl⟩
abbrev cc7_stg5_0 : Ref sig .tc := ⟨.vmem, 57, rfl⟩
abbrev cc7_stg6_0 : Ref sig .tc := ⟨.vmem, 58, rfl⟩
abbrev cc7_stg6_1 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg2_0 : Ref sig .tc := ⟨.vmem, 63, rfl⟩
abbrev cc8_stg3_0 : Ref sig .tc := ⟨.vmem, 64, rfl⟩
abbrev cc8_scratch0 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem6_0 : DmaSem sig := 43
abbrev cc5_sem6_1 : DmaSem sig := 44
abbrev cc6_sem0_0 : DmaSem sig := 45
abbrev cc6_sem0_1 : DmaSem sig := 46
abbrev cc6_sem1_0 : DmaSem sig := 47
abbrev cc6_sem2_0 : DmaSem sig := 48
abbrev cc6_sem2_1 : DmaSem sig := 49
abbrev cc7_sem0_0 : DmaSem sig := 50
abbrev cc7_sem0_1 : DmaSem sig := 51
abbrev cc7_sem1_0 : DmaSem sig := 52
abbrev cc7_sem1_1 : DmaSem sig := 53
abbrev cc7_sem2_0 : DmaSem sig := 54
abbrev cc7_sem3_0 : DmaSem sig := 55
abbrev cc7_sem4_0 : DmaSem sig := 56
abbrev cc7_sem5_0 : DmaSem sig := 57
abbrev cc7_sem6_0 : DmaSem sig := 58
abbrev cc7_sem6_1 : DmaSem sig := 59
abbrev cc8_sem0_0 : DmaSem sig := 60
abbrev cc8_sem0_1 : DmaSem sig := 61
abbrev cc8_sem1_0 : DmaSem sig := 62
abbrev cc8_sem2_0 : DmaSem sig := 63
abbrev cc8_sem3_0 : DmaSem sig := 64

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x1536 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x1536 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1536 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1536 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x1536 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x1536 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1536 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1536 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1000x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1000x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S512x1536 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S512x1536 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1536 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x1536 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S1000x512 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x2048 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1000x2048 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1000x512 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S512x1536 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S512x1536 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1536 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x1536 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S1000x512 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![10], ![false]⟩

def k8_cond2 (i : grid8.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S1000x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S512x512 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x512 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x512 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

class Facts₀ : Prop where
  slices_S4x40000x2_S4x40000x1_0_0_0 : S4x40000x2.Slices ![0, 0, 0] S4x40000x1
  shapeCasts_S4x40000x1_S4x40000 : S4x40000x1.ShapeCasts S4x40000
  slices_S4x40000x2_S4x40000x1_0_0_1 : S4x40000x2.Slices ![0, 0, 1] S4x40000x1
  shapeCasts_S4x40000_S160000 : S4x40000.ShapeCasts S160000
  bcast_S4_S4x40000_0 : S4.BroadcastsInDim S4x40000 (![0] : Fin 1 → Fin S4x40000.rank)
  bcast_S_S160000 : S_.BroadcastsInDim S160000 (![] : Fin 0 → Fin S160000.rank)
  bcast_S_S10000x4 : S_.BroadcastsInDim S10000x4 (![] : Fin 0 → Fin S10000x4.rank)
  bcast_S160000_S160000x1_0 : S160000.BroadcastsInDim S160000x1 (![0] : Fin 1 → Fin S160000x1.rank)
  concatenates_S160000x1_S160000x1_S160000x2_d1 : Shape.Concatenates [S160000x1, S160000x1] S160000x2 1
  slices_S2x4x512x512_S1x4x512x512_0_0_0_0 : S2x4x512x512.Slices ![0, 0, 0, 0] S1x4x512x512
  shapeCasts_S1x4x512x512_S4x512x512 : S1x4x512x512.ShapeCasts S4x512x512
  transposes_S4x512x512_S512x4x512_2_0_1 : S4x512x512.Transposes [2, 0, 1] S512x4x512
  shapeCasts_S512x4x512_S512x2048 : S512x4x512.ShapeCasts S512x2048
  bitsLt_bf16_f32 : FTy.bits .bf16 < FTy.bits .f32
  slices_S2x1536x512_S1x1536x512_0_0_0 : S2x1536x512.Slices ![0, 0, 0] S1x1536x512
  shapeCasts_S1x1536x512_S1536x512 : S1x1536x512.ShapeCasts S1536x512
  transposes_S1536x512_S512x1536_1_0 : S1536x512.Transposes [1, 0] S512x1536
  slices_S2x1536_S1x1536_0_0 : S2x1536.Slices ![0, 0] S1x1536
  shapeCasts_S1x1536_S1536 : S1x1536.ShapeCasts S1536
  shapeCasts_S1536_S1x1536 : S1536.ShapeCasts S1x1536
  slices_S2x4x512_S1x4x512_0_0_0 : S2x4x512.Slices ![0, 0, 0] S1x4x512
  shapeCasts_S1x4x512_S4x512 : S1x4x512.ShapeCasts S4x512
  inb_S1000x512_S1000x512_0_0 : ∀ a, (![0, 0] : Fin 2 → Nat) a + S1000x512.size a ≤ S1000x512.size a
  h_S1000x512 : 0 < S1000x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1000x2048_S1000x2048_0_0 : ∀ a, (![0, 0] : Fin 2 → Nat) a + S1000x2048.size a ≤ S1000x2048.size a
  h_S1000x2048 : 0 < S1000x2048.numel
  shapeCasts_S10000x2048_S40000x512 : S10000x2048.ShapeCasts S40000x512
  bcast_S_S160000x1 : S_.BroadcastsInDim S160000x1 (![] : Fin 0 → Fin S160000x1.rank)
  bcast_S1_S1x1_1 : S1.BroadcastsInDim S1x1 (![1] : Fin 1 → Fin S1x1.rank)
  bcast_S1x1_S160000x1_0_1 : S1x1.BroadcastsInDim S160000x1 (![0, 1] : Fin 2 → Fin S160000x1.rank)
  reducesTo_S160000x1_S160000_d1 : S160000x1.ReducesTo [1] S160000
  h_S_ : 0 < S_.numel
  bcast_S160000_S160000x512_0 : S160000.BroadcastsInDim S160000x512 (![0] : Fin 1 → Fin S160000x512.rank)
  bcast_S_S160000x512 : S_.BroadcastsInDim S160000x512 (![] : Fin 0 → Fin S160000x512.rank)
  bcast_S_S10000x512 : S_.BroadcastsInDim S10000x512 (![] : Fin 0 → Fin S10000x512.rank)
  shapeCasts_S1000x512_S1000x512 : S1000x512.ShapeCasts S1000x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1000x1536 : S1x1536.Broadcasts S1000x1536
  slices_S1000x1536_o0_0_S1000x512 : S1000x1536.Slices ![0, 0] S1000x512
  slices_S1000x1536_o0_512_S1000x512 : S1000x1536.Slices ![0, 512] S1000x512
  slices_S1000x1536_o0_1024_S1000x512 : S1000x1536.Slices ![0, 1024] S1000x512
  slices_S2x4x512x512_S1x4x512x512_1_0_0_0 : S2x4x512x512.Slices ![1, 0, 0, 0] S1x4x512x512
  slices_S2x1536x512_S1x1536x512_1_0_0 : S2x1536x512.Slices ![1, 0, 0] S1x1536x512
  slices_S2x1536_S1x1536_1_0 : S2x1536.Slices ![1, 0] S1x1536
  slices_S2x4x512_S1x4x512_1_0_0 : S2x4x512.Slices ![1, 0, 0] S1x4x512
  transposes_S512x512_S512x512_1_0 : S512x512.Transposes [1, 0] S512x512
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S1x512_S1000x512 : S1x512.Broadcasts S1000x512
  reduces_S1000x512_S512 : S1000x512.Reduces [0] S512
  shapeCasts_S1x512_S512 : S1x512.ShapeCasts S512
  scatter_S10000x4_S160000x2_S160000_n_01_01_1_wf : ScatterDims.WF S10000x4 S160000x2 S160000 [] [0, 1] [0, 1] 1
  dot_S10000x4_S4x512_S10000x512_1_0_0_1_n_n_wf : DotDims.WF S10000x4 S4x512 S10000x512 [1] [0] [0] [1] [] []
  dot_S1000x512_S512x2048_S1000x2048_1_0_0_1_n_n_wf : DotDims.WF S1000x512 S512x2048 S1000x2048 [1] [0] [0] [1] [] []
  gather_S40000x512_S160000x1_S160000x512_1_0_n_n_0_1_1512_wf : GatherDims.WF S40000x512 S160000x1 S160000x512 [1] [0] [] [0] [] 1 ![1, 512]
  scatter_S10000x512_S160000x1_S160000x512_1_0_0_1_wf : ScatterDims.WF S10000x512 S160000x1 S160000x512 [1] [0] [0] 1
  dot_S1000x512_S512x1536_S1000x1536_1_0_0_1_n_n_wf : DotDims.WF S1000x512 S512x1536 S1000x1536 [1] [0] [0] [1] [] []
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x2048.size a ≤ S10000x2048.size a
  hwx0_2 : ∀ i : grid0.Coords, EltTy.bits .f32 = 32 ∨ (Rect.block (s := S10000x2048) S1000x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S10000x512.size a
  hwx1_0 : ∀ i : grid1.Coords, EltTy.bits .f32 = 32 ∨ (Rect.block (s := S10000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S10000x512.size a
  hwx1_1 : ∀ i : grid1.Coords, EltTy.bits .f32 = 32 ∨ (Rect.block (s := S10000x512) S1000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x1536.size a ≤ S512x1536.size a
  hwx1_2 : ∀ i : grid1.Coords, EltTy.bits .bf16 = 32 ∨ (Rect.block (s := S512x1536) S512x1536.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x1536.size a ≤ S512x1536.size a
  hwx1_3 : ∀ i : grid1.Coords, EltTy.bits .bf16 = 32 ∨ (Rect.block (s := S512x1536) S512x1536.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1536.size a ≤ S1x1536.size a
  hwx1_4 : ∀ i : grid1.Coords, EltTy.bits .f32 = 32 ∨ (Rect.block (s := S1x1536) S1x1536.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1536.size a ≤ S1x1536.size a
  hwx1_5 : ∀ i : grid1.Coords, EltTy.bits .f32 = 32 ∨ (Rect.block (s := S1x1536) S1x1536.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x512.size a ≤ S10000x512.size a
  hwx1_6 : ∀ i : grid1.Coords, EltTy.bits .f32 = 32 ∨ (Rect.block (s := S10000x512) S1000x512.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S10000x512.size a
  hwx2_0 : ∀ i : grid2.Coords, EltTy.bits .f32 = 32 ∨ (Rect.block (s := S10000x512) S1000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S512x2048.size a
  hwx2_1 : ∀ i : grid2.Coords, EltTy.bits .bf16 = 32 ∨ (Rect.block (s := S512x2048) S512x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x2048.size a ≤ S10000x2048.size a
  hwx2_2 : ∀ i : grid2.Coords, EltTy.bits .f32 = 32 ∨ (Rect.block (s := S10000x2048) S1000x2048.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x512.size a ≤ S10000x512.size a
  hwx3_0 : ∀ i : grid3.Coords, EltTy.bits .f32 = 32 ∨ (Rect.block (s := S10000x512) S1000x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x512.size a ≤ S10000x512.size a
  hwx3_1 : ∀ i : grid3.Coords, EltTy.bits .f32 = 32 ∨ (Rect.block (s := S10000x512) S1000x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x1536.size a ≤ S512x1536.size a
  hwx3_2 : ∀ i : grid3.Coords, EltTy.bits .bf16 = 32 ∨ (Rect.block (s := S512x1536) S512x1536.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x1536.size a ≤ S512x1536.size a
  hwx3_3 : ∀ i : grid3.Coords, EltTy.bits .bf16 = 32 ∨ (Rect.block (s := S512x1536) S512x1536.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1536.size a ≤ S1x1536.size a
  hwx3_4 : ∀ i : grid3.Coords, EltTy.bits .f32 = 32 ∨ (Rect.block (s := S1x1536) S1x1536.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1536.size a ≤ S1x1536.size a
  hwx3_5 : ∀ i : grid3.Coords, EltTy.bits .f32 = 32 ∨ (Rect.block (s := S1x1536) S1x1536.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x512.size a ≤ S10000x512.size a
  hwx3_6 : ∀ i : grid3.Coords, EltTy.bits .f32 = 32 ∨ (Rect.block (s := S10000x512) S1000x512.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x512.size a ≤ S10000x512.size a
  hwx4_0 : ∀ i : grid4.Coords, EltTy.bits .f32 = 32 ∨ (Rect.block (s := S10000x512) S1000x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x2048.size a ≤ S512x2048.size a
  hwx4_1 : ∀ i : grid4.Coords, EltTy.bits .bf16 = 32 ∨ (Rect.block (s := S512x2048) S512x2048.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x2048.size a ≤ S10000x2048.size a
  hwx4_2 : ∀ i : grid4.Coords, EltTy.bits .f32 = 32 ∨ (Rect.block (s := S10000x2048) S1000x2048.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x512.size a ≤ S10000x512.size a
  hwx5_0 : ∀ i : grid5.Coords, EltTy.bits .f32 = 32 ∨ (Rect.block (s := S10000x512) S1000x512.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x512.size a ≤ S10000x512.size a
  hwx5_1 : ∀ i : grid5.Coords, EltTy.bits .f32 = 32 ∨ (Rect.block (s := S10000x512) S1000x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S512x1536.size a ≤ S512x1536.size a
  hwx5_2 : ∀ i : grid5.Coords, EltTy.bits .bf16 = 32 ∨ (Rect.block (s := S512x1536) S512x1536.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S512x1536.size a ≤ S512x1536.size a
  hwx5_3 : ∀ i : grid5.Coords, EltTy.bits .bf16 = 32 ∨ (Rect.block (s := S512x1536) S512x1536.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1536.size a ≤ S1x1536.size a
  hwx5_4 : ∀ i : grid5.Coords, EltTy.bits .f32 = 32 ∨ (Rect.block (s := S1x1536) S1x1536.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x1536.size a ≤ S1x1536.size a
  hwx5_5 : ∀ i : grid5.Coords, EltTy.bits .f32 = 32 ∨ (Rect.block (s := S1x1536) S1x1536.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1000x512.size a ≤ S10000x512.size a
  hwx5_6 : ∀ i : grid5.Coords, EltTy.bits .f32 = 32 ∨ (Rect.block (s := S10000x512) S1000x512.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x512.size a ≤ S10000x512.size a
  hwx6_0 : ∀ i : grid6.Coords, EltTy.bits .f32 = 32 ∨ (Rect.block (s := S10000x512) S1000x512.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x2048.size a ≤ S512x2048.size a
  hwx6_1 : ∀ i : grid6.Coords, EltTy.bits .bf16 = 32 ∨ (Rect.block (s := S512x2048) S512x2048.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1000x2048.size a ≤ S10000x2048.size a
  hwx6_2 : ∀ i : grid6.Coords, EltTy.bits .f32 = 32 ∨ (Rect.block (s := S10000x2048) S1000x2048.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x512.size a ≤ S10000x512.size a
  hwx7_0 : ∀ i : grid7.Coords, EltTy.bits .f32 = 32 ∨ (Rect.block (s := S10000x512) S1000x512.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1000x512.size a ≤ S10000x512.size a
  hwx7_1 : ∀ i : grid7.Coords, EltTy.bits .f32 = 32 ∨ (Rect.block (s := S10000x512) S1000x512.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S512x1536.size a ≤ S512x1536.size a
  hwx7_2 : ∀ i : grid7.Coords, EltTy.bits .bf16 = 32 ∨ (Rect.block (s := S512x1536) S512x1536.size (cc7_transform_2 i) (hinb7_2 i)).WholeWords (EltTy.packing .bf16)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S512x1536.size a ≤ S512x1536.size a
  hwx7_3 : ∀ i : grid7.Coords, EltTy.bits .bf16 = 32 ∨ (Rect.block (s := S512x1536) S512x1536.size (cc7_transform_3 i) (hinb7_3 i)).WholeWords (EltTy.packing .bf16)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1536.size a ≤ S1x1536.size a
  hwx7_4 : ∀ i : grid7.Coords, EltTy.bits .f32 = 32 ∨ (Rect.block (s := S1x1536) S1x1536.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x1536.size a ≤ S1x1536.size a
  hwx7_5 : ∀ i : grid7.Coords, EltTy.bits .f32 = 32 ∨ (Rect.block (s := S1x1536) S1x1536.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S1000x512.size a ≤ S10000x512.size a
  hwx7_6 : ∀ i : grid7.Coords, EltTy.bits .f32 = 32 ∨ (Rect.block (s := S10000x512) S1000x512.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1000x512.size a ≤ S10000x512.size a
  hwx8_0 : ∀ i : grid8.Coords, EltTy.bits .f32 = 32 ∨ (Rect.block (s := S10000x512) S1000x512.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S512x512.size a ≤ S512x512.size a
  hwx8_1 : ∀ i : grid8.Coords, EltTy.bits .bf16 = 32 ∨ (Rect.block (s := S512x512) S512x512.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x512.size a ≤ S1x512.size a
  hwx8_2 : ∀ i : grid8.Coords, EltTy.bits .f32 = 32 ∨ (Rect.block (s := S1x512) S1x512.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x512.size a ≤ S1x512.size a
  hwx8_3 : ∀ i : grid8.Coords, EltTy.bits .f32 = 32 ∨ (Rect.block (s := S1x512) S1x512.size (cc8_transform_3 i) (hinb8_3 i)).WholeWords (EltTy.packing .f32)

variable [Facts₀]

def scatter_S10000x4_S160000x2_S160000_n_01_01_1 : ScatterDims S10000x4 S160000x2 S160000 where
  updateWindowDims := []
  insertedWindowDims := [0, 1]
  scatterDimsToOperandDims := [0, 1]
  indexVectorDim := 1
  wf := scatter_S10000x4_S160000x2_S160000_n_01_01_1_wf
def dot_S10000x4_S4x512_S10000x512_1_0_0_1_n_n : DotDims S10000x4 S4x512 S10000x512 where
  lhsContracting := [1]
  rhsContracting := [0]
  lhsNonContracting := [0]
  rhsNonContracting := [1]
  lhsBatch := []
  rhsBatch := []
  wf := dot_S10000x4_S4x512_S10000x512_1_0_0_1_n_n_wf
def dot_S1000x512_S512x2048_S1000x2048_1_0_0_1_n_n : DotDims S1000x512 S512x2048 S1000x2048 where
  lhsContracting := [1]
  rhsContracting := [0]
  lhsNonContracting := [0]
  rhsNonContracting := [1]
  lhsBatch := []
  rhsBatch := []
  wf := dot_S1000x512_S512x2048_S1000x2048_1_0_0_1_n_n_wf
def gather_S40000x512_S160000x1_S160000x512_1_0_n_n_0_1_1512 : GatherDims S40000x512 S160000x1 S160000x512 where
  offsetDims := [1]
  collapsedSliceDims := [0]
  operandBatchingDims := []
  startIndicesBatchingDims := []
  startIndexMap := [0]
  indexVectorDim := 1
  sliceSizes := ![1, 512]
  wf := gather_S40000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S1000x512_S512x1536_S1000x1536_1_0_0_1_n_n : DotDims S1000x512 S512x1536 S1000x1536 where
  lhsContracting := [1]
  rhsContracting := [0]
  lhsNonContracting := [0]
  rhsNonContracting := [1]
  lhsBatch := []
  rhsBatch := []
  wf := dot_S1000x512_S512x1536_S1000x1536_1_0_0_1_n_n_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v50) S1000x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v56) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S512x1536.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S512x1536.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x1536.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x1536.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v57) S1000x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v57) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S512x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1000x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S1000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1000x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v36) S512x1536.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S512x1536.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v43) S1x1536.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v46) S1x1536.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v65) S1000x512.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v65) S1000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S512x2048.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v88) S1000x2048.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v94) S1000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v65) S1000x512.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v74) S512x1536.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v78) S512x1536.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v81) S1x1536.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v84) S1x1536.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v95) S1000x512.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v95) S1000x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v70) S512x2048.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v96) S1000x2048.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v102) S1000x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v95) S1000x512.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v74) S512x1536.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v78) S512x1536.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v81) S1x1536.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v84) S1x1536.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v103) S1000x512.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v103) S1000x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v105) S512x512.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v106) S1x512.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v107) S1x512.size cc8_transform_3 reads8_3 true true 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev idle8 : Fin 4 → grid8.Coords → Bool := fun | 0 => fun _ => false | 1 => fun _ => false | 2 => fun _ => false | 3 => fun i => !(k8_cond2 i == 1#1) | ⟨_ + 4, h⟩ => absurd h (Nat.not_lt.2 (Nat.le_add_left _ _))

class Facts : Prop extends Facts₀ where

variable [Facts]
-- ==== ReferenceIdeal.lean ====
abbrev S10000x512 : Shape := ⟨2, ![10000, 512]⟩
abbrev S4x40000x2 : Shape := ⟨3, ![4, 40000, 2]⟩
abbrev S2x4x512x512 : Shape := ⟨4, ![2, 4, 512, 512]⟩
abbrev S2x4x512 : Shape := ⟨3, ![2, 4, 512]⟩
abbrev S2x1536x512 : Shape := ⟨3, ![2, 1536, 512]⟩
abbrev S2x1536 : Shape := ⟨2, ![2, 1536]⟩
abbrev S512x512 : Shape := ⟨2, ![512, 512]⟩
abbrev S512 : Shape := ⟨1, ![512]⟩
abbrev S4x40000x1 : Shape := ⟨3, ![4, 40000, 1]⟩
abbrev S4x40000 : Shape := ⟨2, ![4, 40000]⟩
abbrev S160000 : Shape := ⟨1, ![160000]⟩
abbrev S_ : Shape := ⟨0, ![]⟩
abbrev S4x40000x512 : Shape := ⟨3, ![4, 40000, 512]⟩
abbrev S1x4x512x512 : Shape := ⟨4, ![1, 4, 512, 512]⟩
abbrev S4x512x512 : Shape := ⟨3, ![4, 512, 512]⟩
abbrev S1x4x512 : Shape := ⟨3, ![1, 4, 512]⟩
abbrev S4x512 : Shape := ⟨2, ![4, 512]⟩
abbrev S4x1x512 : Shape := ⟨3, ![4, 1, 512]⟩
abbrev S160000x512 : Shape := ⟨2, ![160000, 512]⟩
abbrev S160000x1 : Shape := ⟨2, ![160000, 1]⟩
abbrev S1x1536x512 : Shape := ⟨3, ![1, 1536, 512]⟩
abbrev S1536x512 : Shape := ⟨2, ![1536, 512]⟩
abbrev S1x1536 : Shape := ⟨2, ![1, 1536]⟩
abbrev S1536 : Shape := ⟨1, ![1536]⟩
abbrev S512x1536 : Shape := ⟨2, ![512, 1536]⟩
abbrev S10000x1536 : Shape := ⟨2, ![10000, 1536]⟩
abbrev S1x512 : Shape := ⟨2, ![1, 512]⟩

abbrev nBuf : Space → Nat
  | .hbm => 314
  | .vmem => 0
  | .smem => 0
  | _ => 0

abbrev hbmTy0_0 (i : Nat) : BufTy := match i % 128 with
  | 0 => ⟨S10000x512, .f32⟩
  | 1 => ⟨S4x40000x2, .i32⟩
  | 2 => ⟨S2x4x512x512, .f32⟩
  | 3 => ⟨S2x4x512, .f32⟩
  | 4 => ⟨S2x1536x512, .f32⟩
  | 5 => ⟨S2x1536x512, .f32⟩
  | 6 => ⟨S2x1536, .f32⟩
  | 7 => ⟨S2x1536, .f32⟩
  | 8 => ⟨S512x512, .f32⟩
  | 9 => ⟨S512, .f32⟩
  | 10 => ⟨S4x40000x1, .i32⟩
  | 11 => ⟨S4x40000, .i32⟩
  | 12 => ⟨S160000, .i32⟩
  | 13 => ⟨S4x40000x1, .i32⟩
  | 14 => ⟨S4x40000, .i32⟩
  | 15 => ⟨S_, .i32⟩
  | 16 => ⟨S4x40000, .i32⟩
  | 17 => ⟨S4x40000, .i1⟩
  | 18 => ⟨S_, .i32⟩
  | 19 => ⟨S4x40000, .i32⟩
  | 20 => ⟨S4x40000, .i32⟩
  | 21 => ⟨S4x40000, .i32⟩
  | 22 => ⟨S4x40000x1, .i32⟩
  | 23 => ⟨S4x40000x512, .f32⟩
  | 24 => ⟨S1x4x512x512, .f32⟩
  | 25 => ⟨S4x512x512, .f32⟩
  | 26 => ⟨S4x40000x512, .f32⟩
  | 27 => ⟨S1x4x512, .f32⟩
  | 28 => ⟨S4x512, .f32⟩
  | 29 => ⟨S4x1x512, .f32⟩
  | 30 => ⟨S4x40000x512, .f32⟩
  | 31 => ⟨S4x40000x512, .f32⟩
  | 32 => ⟨S160000x512, .f32⟩
  | 33 => ⟨S_, .f32⟩
  | 34 => ⟨S10000x512, .f32⟩
  | 35 => ⟨S160000x1, .i32⟩
  | 36 => ⟨S10000x512, .f32⟩
  | 37 => ⟨S1x1536x512, .f32⟩
  | 38 => ⟨S1536x512, .f32⟩
  | 39 => ⟨S1x1536x512, .f32⟩
  | 40 => ⟨S1536x512, .f32⟩
  | 41 => ⟨S1x1536, .f32⟩
  | 42 => ⟨S1536, .f32⟩
  | 43 => ⟨S1x1536, .f32⟩
  | 44 => ⟨S1536, .f32⟩
  | 45 => ⟨S512x1536, .f32⟩
  | 46 => ⟨S10000x1536, .f32⟩
  | 47 => ⟨S1x1536, .f32⟩
  | 48 => ⟨S10000x1536, .f32⟩
  | 49 => ⟨S10000x1536, .f32⟩
  | 50 => ⟨S512x1536, .f32⟩
  | 51 => ⟨S10000x1536, .f32⟩
  | 52 => ⟨S1x1536, .f32⟩
  | 53 => ⟨S10000x1536, .f32⟩
  | 54 => ⟨S10000x1536, .f32⟩
  | 55 => ⟨S10000x512, .f32⟩
  | 56 => ⟨S10000x512, .f32⟩
  | 57 => ⟨S10000x512, .f32⟩
  | 58 => ⟨S10000x512, .f32⟩
  | 59 => ⟨S10000x512, .f32⟩
  | 60 => ⟨S10000x512, .f32⟩
  | 61 => ⟨S10000x512, .f32⟩
  | 62 => ⟨S10000x512, .f32⟩
  | 63 => ⟨S10000x512, .f32⟩
  | 64 => ⟨S_, .f32⟩
  | 65 => ⟨S10000x512, .f32⟩
  | 66 => ⟨S10000x512, .f32⟩
  | 67 => ⟨S_, .f32⟩
  | 68 => ⟨S10000x512, .f32⟩
  | 69 => ⟨S10000x512, .f32⟩
  | 70 => ⟨S10000x512, .f32⟩
  | 71 => ⟨S10000x512, .f32⟩
  | 72 => ⟨S10000x512, .f32⟩
  | 73 => ⟨S_, .f32⟩
  | 74 => ⟨S10000x512, .f32⟩
  | 75 => ⟨S10000x512, .f32⟩
  | 76 => ⟨S_, .f32⟩
  | 77 => ⟨S10000x512, .f32⟩
  | 78 => ⟨S10000x512, .f32⟩
  | 79 => ⟨S10000x512, .f32⟩
  | 80 => ⟨S10000x512, .f32⟩
  | 81 => ⟨S10000x512, .f32⟩
  | 82 => ⟨S_, .f32⟩
  | 83 => ⟨S10000x512, .f32⟩
  | 84 => ⟨S10000x512, .f32⟩
  | 85 => ⟨S10000x512, .f32⟩
  | 86 => ⟨S10000x512, .f32⟩
  | 87 => ⟨S10000x512, .f32⟩
  | 88 => ⟨S_, .i32⟩
  | 89 => ⟨S4x40000, .i32⟩
  | 90 => ⟨S4x40000, .i1⟩
  | 91 => ⟨S_, .i32⟩
  | 92 => ⟨S4x40000, .i32⟩
  | 93 => ⟨S4x40000, .i32⟩
  | 94 => ⟨S4x40000, .i32⟩
  | 95 => ⟨S4x40000x1, .i32⟩
  | 96 => ⟨S4x40000x512, .f32⟩
  | 97 => ⟨S1x4x512x512, .f32⟩
  | 98 => ⟨S4x512x512, .f32⟩
  | 99 => ⟨S4x40000x512, .f32⟩
  | 100 => ⟨S1x4x512, .f32⟩
  | 101 => ⟨S4x512, .f32⟩
  | 102 => ⟨S4x1x512, .f32⟩
  | 103 => ⟨S4x40000x512, .f32⟩
  | 104 => ⟨S4x40000x512, .f32⟩
  | 105 => ⟨S160000x512, .f32⟩
  | 106 => ⟨S_, .f32⟩
  | 107 => ⟨S10000x512, .f32⟩
  | 108 => ⟨S160000x1, .i32⟩
  | 109 => ⟨S10000x512, .f32⟩
  | 110 => ⟨S1x1536x512, .f32⟩
  | 111 => ⟨S1536x512, .f32⟩
  | 112 => ⟨S1x1536x512, .f32⟩
  | 113 => ⟨S1536x512, .f32⟩
  | 114 => ⟨S1x1536, .f32⟩
  | 115 => ⟨S1536, .f32⟩
  | 116 => ⟨S1x1536, .f32⟩
  | 117 => ⟨S1536, .f32⟩
  | 118 => ⟨S512x1536, .f32⟩
  | 119 => ⟨S10000x1536, .f32⟩
  | 120 => ⟨S1x1536, .f32⟩
  | 121 => ⟨S10000x1536, .f32⟩
  | 122 => ⟨S10000x1536, .f32⟩
  | 123 => ⟨S512x1536, .f32⟩
  | 124 => ⟨S10000x1536, .f32⟩
  | 125 => ⟨S1x1536, .f32⟩
  | 126 => ⟨S10000x1536, .f32⟩
  | 127 => ⟨S10000x1536, .f32⟩
  | _ => ⟨S10000x512, .f32⟩

abbrev hbmTy0_1 (i : Nat) : BufTy := match i % 128 with
  | 0 => ⟨S10000x512, .f32⟩
  | 1 => ⟨S10000x512, .f32⟩
  | 2 => ⟨S10000x512, .f32⟩
  | 3 => ⟨S10000x512, .f32⟩
  | 4 => ⟨S10000x512, .f32⟩
  | 5 => ⟨S10000x512, .f32⟩
  | 6 => ⟨S10000x512, .f32⟩
  | 7 => ⟨S10000x512, .f32⟩
  | 8 => ⟨S10000x512, .f32⟩
  | 9 => ⟨S_, .f32⟩
  | 10 => ⟨S10000x512, .f32⟩
  | 11 => ⟨S10000x512, .f32⟩
  | 12 => ⟨S_, .f32⟩
  | 13 => ⟨S10000x512, .f32⟩
  | 14 => ⟨S10000x512, .f32⟩
  | 15 => ⟨S10000x512, .f32⟩
  | 16 => ⟨S10000x512, .f32⟩
  | 17 => ⟨S10000x512, .f32⟩
  | 18 => ⟨S_, .f32⟩
  | 19 => ⟨S10000x512, .f32⟩
  | 20 => ⟨S10000x512, .f32⟩
  | 21 => ⟨S_, .f32⟩
  | 22 => ⟨S10000x512, .f32⟩
  | 23 => ⟨S10000x512, .f32⟩
  | 24 => ⟨S10000x512, .f32⟩
  | 25 => ⟨S10000x512, .f32⟩
  | 26 => ⟨S10000x512, .f32⟩
  | 27 => ⟨S_, .f32⟩
  | 28 => ⟨S10000x512, .f32⟩
  | 29 => ⟨S10000x512, .f32⟩
  | 30 => ⟨S10000x512, .f32⟩
  | 31 => ⟨S10000x512, .f32⟩
  | 32 => ⟨S10000x512, .f32⟩
  | 33 => ⟨S_, .i32⟩
  | 34 => ⟨S4x40000, .i32⟩
  | 35 => ⟨S4x40000, .i1⟩
  | 36 => ⟨S_, .i32⟩
  | 37 => ⟨S4x40000, .i32⟩
  | 38 => ⟨S4x40000, .i32⟩
  | 39 => ⟨S4x40000, .i32⟩
  | 40 => ⟨S4x40000x1, .i32⟩
  | 41 => ⟨S4x40000x512, .f32⟩
  | 42 => ⟨S1x4x512x512, .f32⟩
  | 43 => ⟨S4x512x512, .f32⟩
  | 44 => ⟨S4x40000x512, .f32⟩
  | 45 => ⟨S1x4x512, .f32⟩
  | 46 => ⟨S4x512, .f32⟩
  | 47 => ⟨S4x1x512, .f32⟩
  | 48 => ⟨S4x40000x512, .f32⟩
  | 49 => ⟨S4x40000x512, .f32⟩
  | 50 => ⟨S160000x512, .f32⟩
  | 51 => ⟨S_, .f32⟩
  | 52 => ⟨S10000x512, .f32⟩
  | 53 => ⟨S160000x1, .i32⟩
  | 54 => ⟨S10000x512, .f32⟩
  | 55 => ⟨S1x1536x512, .f32⟩
  | 56 => ⟨S1536x512, .f32⟩
  | 57 => ⟨S1x1536x512, .f32⟩
  | 58 => ⟨S1536x512, .f32⟩
  | 59 => ⟨S1x1536, .f32⟩
  | 60 => ⟨S1536, .f32⟩
  | 61 => ⟨S1x1536, .f32⟩
  | 62 => ⟨S1536, .f32⟩
  | 63 => ⟨S512x1536, .f32⟩
  | 64 => ⟨S10000x1536, .f32⟩
  | 65 => ⟨S1x1536, .f32⟩
  | 66 => ⟨S10000x1536, .f32⟩
  | 67 => ⟨S10000x1536, .f32⟩
  | 68 => ⟨S512x1536, .f32⟩
  | 69 => ⟨S10000x1536, .f32⟩
  | 70 => ⟨S1x1536, .f32⟩
  | 71 => ⟨S10000x1536, .f32⟩
  | 72 => ⟨S10000x1536, .f32⟩
  | 73 => ⟨S10000x512, .f32⟩
  | 74 => ⟨S10000x512, .f32⟩
  | 75 => ⟨S10000x512, .f32⟩
  | 76 => ⟨S10000x512, .f32⟩
  | 77 => ⟨S10000x512, .f32⟩
  | 78 => ⟨S10000x512, .f32⟩
  | 79 => ⟨S10000x512, .f32⟩
  | 80 => ⟨S10000x512, .f32⟩
  | 81 => ⟨S10000x512, .f32⟩
  | 82 => ⟨S_, .f32⟩
  | 83 => ⟨S10000x512, .f32⟩
  | 84 => ⟨S10000x512, .f32⟩
  | 85 => ⟨S_, .f32⟩
  | 86 => ⟨S10000x512, .f32⟩
  | 87 => ⟨S10000x512, .f32⟩
  | 88 => ⟨S10000x512, .f32⟩
  | 89 => ⟨S10000x512, .f32⟩
  | 90 => ⟨S10000x512, .f32⟩
  | 91 => ⟨S_, .f32⟩
  | 92 => ⟨S10000x512, .f32⟩
  | 93 => ⟨S10000x512, .f32⟩
  | 94 => ⟨S_, .f32⟩
  | 95 => ⟨S10000x512, .f32⟩
  | 96 => ⟨S10000x512, .f32⟩
  | 97 => ⟨S10000x512, .f32⟩
  | 98 => ⟨S10000x512, .f32⟩
  | 99 => ⟨S10000x512, .f32⟩
  | 100 => ⟨S_, .f32⟩
  | 101 => ⟨S10000x512, .f32⟩
  | 102 => ⟨S10000x512, .f32⟩
  | 103 => ⟨S10000x512, .f32⟩
  | 104 => ⟨S10000x512, .f32⟩
  | 105 => ⟨S10000x512, .f32⟩
  | 106 => ⟨S_, .i32⟩
  | 107 => ⟨S4x40000, .i32⟩
  | 108 => ⟨S4x40000, .i1⟩
  | 109 => ⟨S_, .i32⟩
  | 110 => ⟨S4x40000, .i32⟩
  | 111 => ⟨S4x40000, .i32⟩
  | 112 => ⟨S4x40000, .i32⟩
  | 113 => ⟨S4x40000x1, .i32⟩
  | 114 => ⟨S4x40000x512, .f32⟩
  | 115 => ⟨S1x4x512x512, .f32⟩
  | 116 => ⟨S4x512x512, .f32⟩
  | 117 => ⟨S4x40000x512, .f32⟩
  | 118 => ⟨S1x4x512, .f32⟩
  | 119 => ⟨S4x512, .f32⟩
  | 120 => ⟨S4x1x512, .f32⟩
  | 121 => ⟨S4x40000x512, .f32⟩
  | 122 => ⟨S4x40000x512, .f32⟩
  | 123 => ⟨S160000x512, .f32⟩
  | 124 => ⟨S_, .f32⟩
  | 125 => ⟨S10000x512, .f32⟩
  | 126 => ⟨S160000x1, .i32⟩
  | 127 => ⟨S10000x512, .f32⟩
  | _ => ⟨S10000x512, .f32⟩

abbrev hbmTy0_2 (i : Nat) : BufTy := match i % 128 with
  | 0 => ⟨S1x1536x512, .f32⟩
  | 1 => ⟨S1536x512, .f32⟩
  | 2 => ⟨S1x1536x512, .f32⟩
  | 3 => ⟨S1536x512, .f32⟩
  | 4 => ⟨S1x1536, .f32⟩
  | 5 => ⟨S1536, .f32⟩
  | 6 => ⟨S1x1536, .f32⟩
  | 7 => ⟨S1536, .f32⟩
  | 8 => ⟨S512x1536, .f32⟩
  | 9 => ⟨S10000x1536, .f32⟩
  | 10 => ⟨S1x1536, .f32⟩
  | 11 => ⟨S10000x1536, .f32⟩
  | 12 => ⟨S10000x1536, .f32⟩
  | 13 => ⟨S512x1536, .f32⟩
  | 14 => ⟨S10000x1536, .f32⟩
  | 15 => ⟨S1x1536, .f32⟩
  | 16 => ⟨S10000x1536, .f32⟩
  | 17 => ⟨S10000x1536, .f32⟩
  | 18 => ⟨S10000x512, .f32⟩
  | 19 => ⟨S10000x512, .f32⟩
  | 20 => ⟨S10000x512, .f32⟩
  | 21 => ⟨S10000x512, .f32⟩
  | 22 => ⟨S10000x512, .f32⟩
  | 23 => ⟨S10000x512, .f32⟩
  | 24 => ⟨S10000x512, .f32⟩
  | 25 => ⟨S10000x512, .f32⟩
  | 26 => ⟨S10000x512, .f32⟩
  | 27 => ⟨S_, .f32⟩
  | 28 => ⟨S10000x512, .f32⟩
  | 29 => ⟨S10000x512, .f32⟩
  | 30 => ⟨S_, .f32⟩
  | 31 => ⟨S10000x512, .f32⟩
  | 32 => ⟨S10000x512, .f32⟩
  | 33 => ⟨S10000x512, .f32⟩
  | 34 => ⟨S10000x512, .f32⟩
  | 35 => ⟨S10000x512, .f32⟩
  | 36 => ⟨S_, .f32⟩
  | 37 => ⟨S10000x512, .f32⟩
  | 38 => ⟨S10000x512, .f32⟩
  | 39 => ⟨S_, .f32⟩
  | 40 => ⟨S10000x512, .f32⟩
  | 41 => ⟨S10000x512, .f32⟩
  | 42 => ⟨S10000x512, .f32⟩
  | 43 => ⟨S10000x512, .f32⟩
  | 44 => ⟨S10000x512, .f32⟩
  | 45 => ⟨S_, .f32⟩
  | 46 => ⟨S10000x512, .f32⟩
  | 47 => ⟨S10000x512, .f32⟩
  | 48 => ⟨S10000x512, .f32⟩
  | 49 => ⟨S10000x512, .f32⟩
  | 50 => ⟨S10000x512, .f32⟩
  | 51 => ⟨S512x512, .f32⟩
  | 52 => ⟨S10000x512, .f32⟩
  | 53 => ⟨S1x512, .f32⟩
  | 54 => ⟨S10000x512, .f32⟩
  | 55 => ⟨S10000x512, .f32⟩
  | 56 => ⟨S_, .f32⟩
  | 57 => ⟨S512, .f32⟩
  | _ => ⟨S10000x512, .f32⟩

abbrev hbmTy (i : Nat) : BufTy := match i / 128 with
  | 0 => hbmTy0_0 i
  | 1 => hbmTy0_1 i
  | 2 => hbmTy0_2 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_1 : Ref sig .tc := ⟨.hbm, 64, rfl⟩
abbrev main_v51 : Ref sig .tc := ⟨.hbm, 65, rfl⟩
abbrev main_v52 : Ref sig .tc := ⟨.hbm, 66, rfl⟩
abbrev main_cst_2 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_3 : Ref sig .tc := ⟨.hbm, 73, rfl⟩
abbrev main_v58 : Ref sig .tc := ⟨.hbm, 74, rfl⟩
abbrev main_v59 : Ref sig .tc := ⟨.hbm, 75, rfl⟩
abbrev main_cst_4 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_5 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_c_6 : Ref sig .tc := ⟨.hbm, 88, rfl⟩
abbrev main_v70 : Ref sig .tc := ⟨.hbm, 89, rfl⟩
abbrev main_v71 : Ref sig .tc := ⟨.hbm, 90, rfl⟩
abbrev main_c_7 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_cst_8 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_cst_9 : Ref sig .tc := ⟨.hbm, 137, rfl⟩
abbrev main_v116 : Ref sig .tc := ⟨.hbm, 138, rfl⟩
abbrev main_v117 : Ref sig .tc := ⟨.hbm, 139, rfl⟩
abbrev main_cst_10 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_cst_11 : Ref sig .tc := ⟨.hbm, 146, rfl⟩
abbrev main_v123 : Ref sig .tc := ⟨.hbm, 147, rfl⟩
abbrev main_v124 : Ref sig .tc := ⟨.hbm, 148, rfl⟩
abbrev main_cst_12 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_cst_13 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_c_14 : Ref sig .tc := ⟨.hbm, 161, rfl⟩
abbrev main_v135 : Ref sig .tc := ⟨.hbm, 162, rfl⟩
abbrev main_v136 : Ref sig .tc := ⟨.hbm, 163, rfl⟩
abbrev main_c_15 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_cst_16 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_cst_17 : Ref sig .tc := ⟨.hbm, 210, rfl⟩
abbrev main_v181 : Ref sig .tc := ⟨.hbm, 211, rfl⟩
abbrev main_v182 : Ref sig .tc := ⟨.hbm, 212, rfl⟩
abbrev main_cst_18 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_cst_19 : Ref sig .tc := ⟨.hbm, 219, rfl⟩
abbrev main_v188 : Ref sig .tc := ⟨.hbm, 220, rfl⟩
abbrev main_v189 : Ref sig .tc := ⟨.hbm, 221, rfl⟩
abbrev main_cst_20 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_cst_21 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_c_22 : Ref sig .tc := ⟨.hbm, 234, rfl⟩
abbrev main_v200 : Ref sig .tc := ⟨.hbm, 235, rfl⟩
abbrev main_v201 : Ref sig .tc := ⟨.hbm, 236, rfl⟩
abbrev main_c_23 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_cst_24 : Ref sig .tc := ⟨.hbm, 252, rfl⟩
abbrev main_v216 : Ref sig .tc := ⟨.hbm, 253, rfl⟩
abbrev main_v217 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_v221 : Ref sig .tc := ⟨.hbm, 258, rfl⟩
abbrev main_v222 : Ref sig .tc := ⟨.hbm, 259, rfl⟩
abbrev main_v223 : Ref sig .tc := ⟨.hbm, 260, rfl⟩
abbrev main_v224 : Ref sig .tc := ⟨.hbm, 261, rfl⟩
abbrev main_v225 : Ref sig .tc := ⟨.hbm, 262, rfl⟩
abbrev main_v226 : Ref sig .tc := ⟨.hbm, 263, rfl⟩
abbrev main_v227 : Ref sig .tc := ⟨.hbm, 264, rfl⟩
abbrev main_v228 : Ref sig .tc := ⟨.hbm, 265, rfl⟩
abbrev main_v229 : Ref sig .tc := ⟨.hbm, 266, rfl⟩
abbrev main_v230 : Ref sig .tc := ⟨.hbm, 267, rfl⟩
abbrev main_v231 : Ref sig .tc := ⟨.hbm, 268, rfl⟩
abbrev main_v232 : Ref sig .tc := ⟨.hbm, 269, rfl⟩
abbrev main_v233 : Ref sig .tc := ⟨.hbm, 270, rfl⟩
abbrev main_v234 : Ref sig .tc := ⟨.hbm, 271, rfl⟩
abbrev main_v235 : Ref sig .tc := ⟨.hbm, 272, rfl⟩
abbrev main_v236 : Ref sig .tc := ⟨.hbm, 273, rfl⟩
abbrev main_v237 : Ref sig .tc := ⟨.hbm, 274, rfl⟩
abbrev main_v238 : Ref sig .tc := ⟨.hbm, 275, rfl⟩
abbrev main_v239 : Ref sig .tc := ⟨.hbm, 276, rfl⟩
abbrev main_v240 : Ref sig .tc := ⟨.hbm, 277, rfl⟩
abbrev main_v241 : Ref sig .tc := ⟨.hbm, 278, rfl⟩
abbrev main_v242 : Ref sig .tc := ⟨.hbm, 279, rfl⟩
abbrev main_v243 : Ref sig .tc := ⟨.hbm, 280, rfl⟩
abbrev main_v244 : Ref sig .tc := ⟨.hbm, 281, rfl⟩
abbrev main_v245 : Ref sig .tc := ⟨.hbm, 282, rfl⟩
abbrev main_cst_25 : Ref sig .tc := ⟨.hbm, 283, rfl⟩
abbrev main_v246 : Ref sig .tc := ⟨.hbm, 284, rfl⟩
abbrev main_v247 : Ref sig .tc := ⟨.hbm, 285, rfl⟩
abbrev main_cst_26 : Ref sig .tc := ⟨.hbm, 286, rfl⟩
abbrev main_v248 : Ref sig .tc := ⟨.hbm, 287, rfl⟩
abbrev main_v249 : Ref sig .tc := ⟨.hbm, 288, rfl⟩
abbrev main_v250 : Ref sig .tc := ⟨.hbm, 289, rfl⟩
abbrev main_v251 : Ref sig .tc := ⟨.hbm, 290, rfl⟩
abbrev main_v252 : Ref sig .tc := ⟨.hbm, 291, rfl⟩
abbrev main_cst_27 : Ref sig .tc := ⟨.hbm, 292, rfl⟩
abbrev main_v253 : Ref sig .tc := ⟨.hbm, 293, rfl⟩
abbrev main_v254 : Ref sig .tc := ⟨.hbm, 294, rfl⟩
abbrev main_cst_28 : Ref sig .tc := ⟨.hbm, 295, rfl⟩
abbrev main_v255 : Ref sig .tc := ⟨.hbm, 296, rfl⟩
abbrev main_v256 : Ref sig .tc := ⟨.hbm, 297, rfl⟩
abbrev main_v257 : Ref sig .tc := ⟨.hbm, 298, rfl⟩
abbrev main_v258 : Ref sig .tc := ⟨.hbm, 299, rfl⟩
abbrev main_v259 : Ref sig .tc := ⟨.hbm, 300, rfl⟩
abbrev main_cst_29 : Ref sig .tc := ⟨.hbm, 301, rfl⟩
abbrev main_v260 : Ref sig .tc := ⟨.hbm, 302, rfl⟩
abbrev main_v261 : Ref sig .tc := ⟨.hbm, 303, rfl⟩
abbrev main_v262 : Ref sig .tc := ⟨.hbm, 304, rfl⟩
abbrev main_v263 : Ref sig .tc := ⟨.hbm, 305, rfl⟩
abbrev main_v264 : Ref sig .tc := ⟨.hbm, 306, rfl⟩
abbrev main_v265 : Ref sig .tc := ⟨.hbm, 307, rfl⟩
abbrev main_v266 : Ref sig .tc := ⟨.hbm, 308, rfl⟩
abbrev main_v267 : Ref sig .tc := ⟨.hbm, 309, rfl⟩
abbrev main_v268 : Ref sig .tc := ⟨.hbm, 310, rfl⟩
abbrev main_v269 : Ref sig .tc := ⟨.hbm, 311, rfl⟩
abbrev main_cst_30 : Ref sig .tc := ⟨.hbm, 312, rfl⟩
abbrev main_v270 : Ref sig .tc := ⟨.hbm, 313, rfl⟩

abbrev nD : Nat := 1
abbrev τ : Topo := Topo.v7x

variable {F : FTy → Type} [FloatOps F]

class Facts₀ : Prop where
  slices_S4x40000x2_S4x40000x1_0_0_1 : S4x40000x2.Slices ![0, 0, 1] S4x40000x1
  shapeCasts_S4x40000x1_S4x40000 : S4x40000x1.ShapeCasts S4x40000
  shapeCasts_S4x40000_S160000 : S4x40000.ShapeCasts S160000
  slices_S4x40000x2_S4x40000x1_0_0_0 : S4x40000x2.Slices ![0, 0, 0] S4x40000x1
  bcast_S_S4x40000 : S_.BroadcastsInDim S4x40000 (![] : Fin 0 → Fin S4x40000.rank)
  bcast_S4x40000_S4x40000x1_0_1 : S4x40000.BroadcastsInDim S4x40000x1 (![0, 1] : Fin 2 → Fin S4x40000x1.rank)
  slices_S2x4x512x512_S1x4x512x512_0_0_0_0 : S2x4x512x512.Slices ![0, 0, 0, 0] S1x4x512x512
  shapeCasts_S1x4x512x512_S4x512x512 : S1x4x512x512.ShapeCasts S4x512x512
  slices_S2x4x512_S1x4x512_0_0_0 : S2x4x512.Slices ![0, 0, 0] S1x4x512
  shapeCasts_S1x4x512_S4x512 : S1x4x512.ShapeCasts S4x512
  bcast_S4x512_S4x1x512_0_2 : S4x512.BroadcastsInDim S4x1x512 (![0, 2] : Fin 2 → Fin S4x1x512.rank)
  bcast_S4x1x512_S4x40000x512_0_1_2 : S4x1x512.BroadcastsInDim S4x40000x512 (![0, 1, 2] : Fin 3 → Fin S4x40000x512.rank)
  shapeCasts_S4x40000x512_S160000x512 : S4x40000x512.ShapeCasts S160000x512
  bcast_S_S10000x512 : S_.BroadcastsInDim S10000x512 (![] : Fin 0 → Fin S10000x512.rank)
  bcast_S160000_S160000x1_0 : S160000.BroadcastsInDim S160000x1 (![0] : Fin 1 → Fin S160000x1.rank)
  slices_S2x1536x512_S1x1536x512_0_0_0 : S2x1536x512.Slices ![0, 0, 0] S1x1536x512
  shapeCasts_S1x1536x512_S1536x512 : S1x1536x512.ShapeCasts S1536x512
  slices_S2x1536_S1x1536_0_0 : S2x1536.Slices ![0, 0] S1x1536
  shapeCasts_S1x1536_S1536 : S1x1536.ShapeCasts S1536
  transposes_S1536x512_S512x1536_1_0 : S1536x512.Transposes [1, 0] S512x1536
  bcast_S1536_S1x1536_1 : S1536.BroadcastsInDim S1x1536 (![1] : Fin 1 → Fin S1x1536.rank)
  bcast_S1x1536_S10000x1536_0_1 : S1x1536.BroadcastsInDim S10000x1536 (![0, 1] : Fin 2 → Fin S10000x1536.rank)
  slices_S10000x1536_S10000x512_0_0 : S10000x1536.Slices ![0, 0] S10000x512
  slices_S10000x1536_S10000x512_0_512 : S10000x1536.Slices ![0, 512] S10000x512
  slices_S10000x1536_S10000x512_0_1024 : S10000x1536.Slices ![0, 1024] S10000x512
  slices_S2x4x512x512_S1x4x512x512_1_0_0_0 : S2x4x512x512.Slices ![1, 0, 0, 0] S1x4x512x512
  slices_S2x4x512_S1x4x512_1_0_0 : S2x4x512.Slices ![1, 0, 0] S1x4x512
  slices_S2x1536x512_S1x1536x512_1_0_0 : S2x1536x512.Slices ![1, 0, 0] S1x1536x512
  slices_S2x1536_S1x1536_1_0 : S2x1536.Slices ![1, 0] S1x1536
  transposes_S512x512_S512x512_1_0 : S512x512.Transposes [1, 0] S512x512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  reducesTo_S10000x512_S512_d0 : S10000x512.ReducesTo [0] S512
  h_S_ : 0 < S_.numel
  gather_S10000x512_S4x40000x1_S4x40000x512_2_0_n_n_0_2_1512_wf : GatherDims.WF S10000x512 S4x40000x1 S4x40000x512 [2] [0] [] [0] [] 2 ![1, 512]
  dot_S4x40000x512_S4x512x512_S4x40000x512_2_2_1_1_0_0_wf : DotDims.WF S4x40000x512 S4x512x512 S4x40000x512 [2] [2] [1] [1] [0] [0]
  scatter_S10000x512_S160000x1_S160000x512_1_0_0_1_wf : ScatterDims.WF S10000x512 S160000x1 S160000x512 [1] [0] [0] 1
  dot_S10000x512_S512x1536_S10000x1536_1_0_0_1_n_n_wf : DotDims.WF S10000x512 S512x1536 S10000x1536 [1] [0] [0] [1] [] []
  dot_S10000x512_S512x512_S10000x512_1_0_0_1_n_n_wf : DotDims.WF S10000x512 S512x512 S10000x512 [1] [0] [0] [1] [] []

variable [Facts₀]

def gather_S10000x512_S4x40000x1_S4x40000x512_2_0_n_n_0_2_1512 : GatherDims S10000x512 S4x40000x1 S4x40000x512 where
  offsetDims := [2]
  collapsedSliceDims := [0]
  operandBatchingDims := []
  startIndicesBatchingDims := []
  startIndexMap := [0]
  indexVectorDim := 2
  sliceSizes := ![1, 512]
  wf := gather_S10000x512_S4x40000x1_S4x40000x512_2_0_n_n_0_2_1512_wf
def dot_S4x40000x512_S4x512x512_S4x40000x512_2_2_1_1_0_0 : DotDims S4x40000x512 S4x512x512 S4x40000x512 where
  lhsContracting := [2]
  rhsContracting := [2]
  lhsNonContracting := [1]
  rhsNonContracting := [1]
  lhsBatch := [0]
  rhsBatch := [0]
  wf := dot_S4x40000x512_S4x512x512_S4x40000x512_2_2_1_1_0_0_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S10000x512_S512x1536_S10000x1536_1_0_0_1_n_n : DotDims S10000x512 S512x1536 S10000x1536 where
  lhsContracting := [1]
  rhsContracting := [0]
  lhsNonContracting := [0]
  rhsNonContracting := [1]
  lhsBatch := []
  rhsBatch := []
  wf := dot_S10000x512_S512x1536_S10000x1536_1_0_0_1_n_n_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf

class Facts : Prop extends Facts₀ where

variable [Facts]
-- ==== Proof.K.RegNT0.lean ====
import proofs.«427383_j1159641169925_2_alg».proof.Proof.Gen.Kernel.Launch
import proofs.«427383_j1159641169925_2_alg».proof.Proof.Gen.Kernel.Skeleton
import proofs.«427383_j1159641169925_2_alg».proof.Proof.Gen.Kernel.Points
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe
open Idealize.SL.RA Idealize.SL.BI Idealize.SL.BI.BIBase Idealize.SL.Sem
open scoped Idealize.SL.BI
open Idealize.ShloMosaic.Pipeline (Dat BodyObligation)

variable {F : FTy → Type} [FloatOps F]
  (V : (c : Dev nD) → (b : Ref sig .tc) → Buf (Elt F) ((c : Thread nD τ).loc b))

def iblk0 (c : Dev nD) (w : Fin cfg0.W) (t : Fin cfg0.N) :=
  ((cfg0.win w).blk t).view.read (Elt F) (V c (Pipeline.arrRef spec0 w))

-- the body leaves the inputs as they were and their product in the output
theorem sound_kernel0 (c : Dev nD) (x0 : Vec F S1000x512 .f32) (x1 : Vec F S512x2048 .bf16) (i : grid0.Coords)
    (arg1 : Memref sig .tc .vmem S1000x512 .f32) (harg1 : arg1.IsWhole) (arg2 : Memref sig .tc .vmem S512x2048 .bf16) (harg2 : arg2.IsWhole)
    (arg3 : Memref sig .tc .vmem S1000x2048 .f32) (harg3 : arg3.IsWhole) (K : PUnit → sProp (MT nD τ sig Unit (Elt F) ℕ (UR sig nD τ) ℕ)) :
    iprop(owns c.tc arg1 fullShare x0 ∗ owns c.tc arg2 fullShare x1 ∗ (∃ d, owns c.tc arg3 fullShare d)
        ∗ (iprop(owns c.tc arg1 fullShare x0 ∗ owns c.tc arg2 fullShare x1
            ∗ owns c.tc arg3 fullShare (k0_pay1 x0 x1)) -∗ K ⟨⟩))
      ⊢ wp frame (wpE defs₀ Variants.none c none) Set.univ (cc0_node_transform_kernel i arg1 harg1 arg2 harg2 arg3 harg3) K := by
  sl_unfold [cc0_node_transform_kernel]; unfold owns
  iintro ⟨⟨%f0, %hf0, H0⟩, ⟨%f1, %hf1, H1⟩, ⟨%d2, %f2, -, H2⟩, Hk⟩
  subst hf0 hf1
  sl_exec!
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_junk_eq_canon _ _).trans ((View.canon_unit_zero (by decide) _ _).trans
    (congrArg₂ k0_pay1 (View.ld_unit_zero (by decide) _ _) (View.ld_unit_zero (by decide) _ _)))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

-- at every point the inputs are the point's blocks of the two arrays, so the body's triple applies to them
theorem body_obligation0 (c : Dev nD) : BodyObligation (dat0 V c) defs₀ Variants.none () Set.univ := fun t => by
  have b0 : ∀ d, (dat0 V c).before 0 t d = iblk0 V c 0 t :=
    (dat0 V c).before_in_eq_fetched 0 rfl (fun _ => rfl) (fun _ _ _ => rfl) (fun _ => rfl) t
  have b1 : ∀ d, (dat0 V c).before 1 t d = iblk0 V c 1 t :=
    (dat0 V c).before_in_eq_fetched 1 rfl (fun _ => rfl) (fun _ _ _ => rfl) (fun _ => rfl) t
  rw [bigSep_W0, bigSep_W0]
  simp only [b0, b1]
  dsimp only [dat0, Dat.owesAt, Dat.bound]
  sl_whnfR [defs₀, Defs.onTc]
  iintro ⟨HΦ, Ho, ⟨%_, H0⟩, ⟨%_, H1⟩, %_, H2⟩
  iapply sound_kernel0 c (iblk0 V c 0 t) (iblk0 V c 1 t)
  iframe H0 H1
  isplitl [H2]; · iexists _; iexact H2
  iintro H
  iframe

end Cert.Kernel.Hand
-- ==== Proof.K.RegGRU1.lean ====
import proofs.«427383_j1159641169925_2_alg».proof.Proof.Gen.Kernel.Launch
import proofs.«427383_j1159641169925_2_alg».proof.Proof.Gen.Kernel.Skeleton
import proofs.«427383_j1159641169925_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1000x512 := Rect.unit (s := S1000x512) ![0, 0] S1000x512.size inb_S1000x512_S1000x512_0_0
abbrev r1_1 : Rect S512x1536 := Rect.unit (s := S512x1536) ![0, 0] S512x1536.size inb_S512x1536_S512x1536_0_0
abbrev r1_2 : Rect S1x1536 := Rect.unit (s := S1x1536) ![0, 0] S1x1536.size inb_S1x1536_S1x1536_0_0

/-- What the body leaves in the output buffer, as a function of the six input buffers' contents. -/
def out1_6 (x0 x1 : Vec F S1000x512 .f32) (x2 x3 : Vec F S512x1536 .bf16) (x4 x5 : Vec F S1x1536 .f32) : Vec F S1000x512 .f32 :=
  View.canon [⟨r1_0, k1_pay1 (View.ld x0 r1_0) (View.ld x1 r1_0) (View.ld x2 r1_1) (View.ld x3 r1_1) (View.ld x4 r1_2) (View.ld x5 r1_2)⟩]

theorem cover1_6 (p0 : Vec F S1000x512 .f32) (y : S1000x512.Idx) :
    ∃ pc ∈ ([⟨r1_0, p0⟩] : List (View.Piece (Elt F) S1000x512 .f32)), y ∈ pc.1.set :=
  View.cover_of_tiled [⟨r1_0, p0⟩] S1000x512.size (by rfl) y

set_option maxHeartbeats 1000000 in
/-- The body returns its six inputs as read and leaves the output at `out1_6` of them: its one store covers the buffer. -/
theorem sound_kernel1 (c : Dev nD) (E : Set ℕ) {i : grid1.Coords}
    {arg1 arg2 arg7 : Memref sig .tc .vmem S1000x512 .f32} {arg3 arg4 : Memref sig .tc .vmem S512x1536 .bf16}
    {arg5 arg6 : Memref sig .tc .vmem S1x1536 .f32} {harg1 : arg1.IsWhole} {harg2 : arg2.IsWhole} {harg3 : arg3.IsWhole}
    {harg4 : arg4.IsWhole} {harg5 : arg5.IsWhole} {harg6 : arg6.IsWhole} {harg7 : arg7.IsWhole}
    {x0 x1 : Vec F S1000x512 .f32} {x2 x3 : Vec F S512x1536 .bf16} {x4 x5 : Vec F S1x1536 .f32} {K : PUnit → sProp 𝕄} :
    iprop(owns c.tc arg1 fullShare x0 ∗ owns c.tc arg2 fullShare x1
        ∗ owns c.tc arg3 fullShare x2 ∗ owns c.tc arg4 fullShare x3
        ∗ owns c.tc arg5 fullShare x4 ∗ owns c.tc arg6 fullShare x5
        ∗ (∃ d, owns c.tc arg7 fullShare d)
        ∗ (iprop(owns c.tc arg1 fullShare x0 ∗ owns c.tc arg2 fullShare x1
            ∗ owns c.tc arg3 fullShare x2 ∗ owns c.tc arg4 fullShare x3
            ∗ owns c.tc arg5 fullShare x4 ∗ owns c.tc arg6 fullShare x5
            ∗ owns c.tc arg7 fullShare (out1_6 x0 x1 x2 x3 x4 x5)) -∗ K ⟨⟩))
      ⊢ wp frame (wpE (defs₀ (F := F)) Variants.none c none) E
          (cc1_gru_kernel i arg1 harg1 arg2 harg2 arg3 harg3 arg4 harg4 arg5 harg5 arg6 harg6 arg7 harg7) K := by
  simp only [cc1_gru_kernel_eq_skeleton]; unfold cc1_gru_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  isplitl [H5]; · iexists f5; iframe; ipureintro; rfl
  iexists _; isplitr
  swap; · iexact H6
  ipureintro
  exact View.read_writes_eq_canon _ _ _ (cover1_6 _)

/-- The region's proof data: arrays as found, each input buffer left at its block, the output's at `out1_6` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t =
    out1_6 (iblk1 V c 0 t) (iblk1 V c 1 t) (iblk1 V c 2 t) (iblk1 V c 3 t) (iblk1 V c 4 t) (iblk1 V c 5 t) := by dsimp only [dat1]

/-- The body leaves each input's block in place, so before the body an input's buffer already holds what it holds after. -/
theorem before1 (c : Dev nD) {w : Fin cfg1.W} (hw : w ≠ 6) (t : Fin cfg1.N) (d) : (dat1 V c).before w t d = (dat1 V c).after w t := by
  fin_cases w <;> first
    | exact absurd rfl hw
    | exact ((dat1 V c).before_in_eq_fetched _ rfl (fun _ => rfl) (fun _ _ _ => rfl) (fun _ => rfl) t d).trans rfl

/-- At every point the inputs' buffers hold their blocks, so the body's triple applies; invariant and debts pass through unread. -/
theorem body_obligation1 (c : Dev nD) : BodyObligation (dat1 (F := F) V c) (defs₀ (F := F)) Variants.none () Set.univ := fun t => by
  rw [bigSep_W1, bigSep_W1, show (dat1 V c).owesAt () t.succ = (dat1 V c).owesAt () t.castSucc from rfl]
  simp (disch := decide) only [before1 V c]
  dsimp only [dat1]
  sl_whnfR [defs₀, Defs.onTc]
  iintro ⟨HΦ, Ho, ⟨%_, H0⟩, ⟨%_, H1⟩, ⟨%_, H2⟩, ⟨%_, H3⟩, ⟨%_, H4⟩, ⟨%_, H5⟩, %_, H6⟩
  iapply sound_kernel1 c Set.univ
  iframe
  isplitl [H6]; · iexists _; iexact H6
  iintro H; iexact H

end Cert.Kernel.Hand
-- ==== Proof.K.RegNT2.lean ====
import proofs.«427383_j1159641169925_2_alg».proof.Proof.Gen.Kernel.Launch
import proofs.«427383_j1159641169925_2_alg».proof.Proof.Gen.Kernel.Skeleton
import proofs.«427383_j1159641169925_2_alg».proof.Proof.Gen.Kernel.Points
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe
open Idealize.SL.RA Idealize.SL.BI Idealize.SL.BI.BIBase Idealize.SL.Sem
open scoped Idealize.SL.BI
open Idealize.ShloMosaic.Pipeline (Dat BodyObligation)

variable {F : FTy → Type} [FloatOps F]
  (V : (c : Dev nD) → (b : Ref sig .tc) → Buf (Elt F) ((c : Thread nD τ).loc b))

def iblk2 (c : Dev nD) (w : Fin cfg2.W) (t : Fin cfg2.N) :=
  ((cfg2.win w).blk t).view.read (Elt F) (V c (Pipeline.arrRef spec2 w))

-- the body leaves the inputs as they were and their product in the output
theorem sound_kernel2 (c : Dev nD) (x0 : Vec F S1000x512 .f32) (x1 : Vec F S512x2048 .bf16) (i : grid2.Coords)
    (arg1 : Memref sig .tc .vmem S1000x512 .f32) (harg1 : arg1.IsWhole) (arg2 : Memref sig .tc .vmem S512x2048 .bf16) (harg2 : arg2.IsWhole)
    (arg3 : Memref sig .tc .vmem S1000x2048 .f32) (harg3 : arg3.IsWhole) (K : PUnit → sProp (MT nD τ sig Unit (Elt F) ℕ (UR sig nD τ) ℕ)) :
    iprop(owns c.tc arg1 fullShare x0 ∗ owns c.tc arg2 fullShare x1 ∗ (∃ d, owns c.tc arg3 fullShare d)
        ∗ (iprop(owns c.tc arg1 fullShare x0 ∗ owns c.tc arg2 fullShare x1
            ∗ owns c.tc arg3 fullShare (k2_pay1 x0 x1)) -∗ K ⟨⟩))
      ⊢ wp frame (wpE defs₀ Variants.none c none) Set.univ (cc2_node_transform_kernel i arg1 harg1 arg2 harg2 arg3 harg3) K := by
  sl_unfold [cc2_node_transform_kernel]; unfold owns
  iintro ⟨⟨%f0, %hf0, H0⟩, ⟨%f1, %hf1, H1⟩, ⟨%d2, %f2, -, H2⟩, Hk⟩
  subst hf0 hf1
  sl_exec!
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_junk_eq_canon _ _).trans ((View.canon_unit_zero (by decide) _ _).trans
    (congrArg₂ k2_pay1 (View.ld_unit_zero (by decide) _ _) (View.ld_unit_zero (by decide) _ _)))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay1 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := rfl

-- at every point the inputs are the point's blocks of the two arrays, so the body's triple applies to them
theorem body_obligation2 (c : Dev nD) : BodyObligation (dat2 V c) defs₀ Variants.none () Set.univ := fun t => by
  have b0 : ∀ d, (dat2 V c).before 0 t d = iblk2 V c 0 t :=
    (dat2 V c).before_in_eq_fetched 0 rfl (fun _ => rfl) (fun _ _ _ => rfl) (fun _ => rfl) t
  have b1 : ∀ d, (dat2 V c).before 1 t d = iblk2 V c 1 t :=
    (dat2 V c).before_in_eq_fetched 1 rfl (fun _ => rfl) (fun _ _ _ => rfl) (fun _ => rfl) t
  rw [bigSep_W2, bigSep_W2]
  simp only [b0, b1]
  dsimp only [dat2, Dat.owesAt, Dat.bound]
  sl_whnfR [defs₀, Defs.onTc]
  iintro ⟨HΦ, Ho, ⟨%_, H0⟩, ⟨%_, H1⟩, %_, H2⟩
  iapply sound_kernel2 c (iblk2 V c 0 t) (iblk2 V c 1 t)
  iframe H0 H1
  isplitl [H2]; · iexists _; iexact H2
  iintro H
  iframe

end Cert.Kernel.Hand
-- ==== Proof.K.RegGRU3.lean ====
import proofs.«427383_j1159641169925_2_alg».proof.Proof.Gen.Kernel.Launch
import proofs.«427383_j1159641169925_2_alg».proof.Proof.Gen.Kernel.Skeleton
import proofs.«427383_j1159641169925_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S1000x512 := Rect.unit (s := S1000x512) ![0, 0] S1000x512.size inb_S1000x512_S1000x512_0_0
abbrev r3_1 : Rect S512x1536 := Rect.unit (s := S512x1536) ![0, 0] S512x1536.size inb_S512x1536_S512x1536_0_0
abbrev r3_2 : Rect S1x1536 := Rect.unit (s := S1x1536) ![0, 0] S1x1536.size inb_S1x1536_S1x1536_0_0

/-- What the body leaves in the output buffer, as a function of the six input buffers' contents. -/
def out3_6 (x0 x1 : Vec F S1000x512 .f32) (x2 x3 : Vec F S512x1536 .bf16) (x4 x5 : Vec F S1x1536 .f32) : Vec F S1000x512 .f32 :=
  View.canon [⟨r3_0, k3_pay1 (View.ld x0 r3_0) (View.ld x1 r3_0) (View.ld x2 r3_1) (View.ld x3 r3_1) (View.ld x4 r3_2) (View.ld x5 r3_2)⟩]

theorem cover3_6 (p0 : Vec F S1000x512 .f32) (y : S1000x512.Idx) :
    ∃ pc ∈ ([⟨r3_0, p0⟩] : List (View.Piece (Elt F) S1000x512 .f32)), y ∈ pc.1.set :=
  View.cover_of_tiled [⟨r3_0, p0⟩] S1000x512.size (by rfl) y

set_option maxHeartbeats 1000000 in
/-- The body returns its six inputs as read and leaves the output at `out3_6` of them: its one store covers the buffer. -/
theorem sound_kernel3 (c : Dev nD) (E : Set ℕ) {i : grid3.Coords}
    {arg1 arg2 arg7 : Memref sig .tc .vmem S1000x512 .f32} {arg3 arg4 : Memref sig .tc .vmem S512x1536 .bf16}
    {arg5 arg6 : Memref sig .tc .vmem S1x1536 .f32} {harg1 : arg1.IsWhole} {harg2 : arg2.IsWhole} {harg3 : arg3.IsWhole}
    {harg4 : arg4.IsWhole} {harg5 : arg5.IsWhole} {harg6 : arg6.IsWhole} {harg7 : arg7.IsWhole}
    {x0 x1 : Vec F S1000x512 .f32} {x2 x3 : Vec F S512x1536 .bf16} {x4 x5 : Vec F S1x1536 .f32} {K : PUnit → sProp 𝕄} :
    iprop(owns c.tc arg1 fullShare x0 ∗ owns c.tc arg2 fullShare x1
        ∗ owns c.tc arg3 fullShare x2 ∗ owns c.tc arg4 fullShare x3
        ∗ owns c.tc arg5 fullShare x4 ∗ owns c.tc arg6 fullShare x5
        ∗ (∃ d, owns c.tc arg7 fullShare d)
        ∗ (iprop(owns c.tc arg1 fullShare x0 ∗ owns c.tc arg2 fullShare x1
            ∗ owns c.tc arg3 fullShare x2 ∗ owns c.tc arg4 fullShare x3
            ∗ owns c.tc arg5 fullShare x4 ∗ owns c.tc arg6 fullShare x5
            ∗ owns c.tc arg7 fullShare (out3_6 x0 x1 x2 x3 x4 x5)) -∗ K ⟨⟩))
      ⊢ wp frame (wpE (defs₀ (F := F)) Variants.none c none) E
          (cc3_gru_kernel i arg1 harg1 arg2 harg2 arg3 harg3 arg4 harg4 arg5 harg5 arg6 harg6 arg7 harg7) K := by
  simp only [cc3_gru_kernel_eq_skeleton]; unfold cc3_gru_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  isplitl [H5]; · iexists f5; iframe; ipureintro; rfl
  iexists _; isplitr
  swap; · iexact H6
  ipureintro
  exact View.read_writes_eq_canon _ _ _ (cover3_6 _)

/-- The region's proof data: arrays as found, each input buffer left at its block, the output's at `out3_6` of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t =
    out3_6 (iblk3 V c 0 t) (iblk3 V c 1 t) (iblk3 V c 2 t) (iblk3 V c 3 t) (iblk3 V c 4 t) (iblk3 V c 5 t) := by dsimp only [dat3]

/-- The body leaves each input's block in place, so before the body an input's buffer already holds what it holds after. -/
theorem before3 (c : Dev nD) {w : Fin cfg3.W} (hw : w ≠ 6) (t : Fin cfg3.N) (d) : (dat3 V c).before w t d = (dat3 V c).after w t := by
  fin_cases w <;> first
    | exact absurd rfl hw
    | exact ((dat3 V c).before_in_eq_fetched _ rfl (fun _ => rfl) (fun _ _ _ => rfl) (fun _ => rfl) t d).trans rfl

/-- At every point the inputs' buffers hold their blocks, so the body's triple applies; invariant and debts pass through unread. -/
theorem body_obligation3 (c : Dev nD) : BodyObligation (dat3 (F := F) V c) (defs₀ (F := F)) Variants.none () Set.univ := fun t => by
  rw [bigSep_W3, bigSep_W3, show (dat3 V c).owesAt () t.succ = (dat3 V c).owesAt () t.castSucc from rfl]
  simp (disch := decide) only [before3 V c]
  dsimp only [dat3]
  sl_whnfR [defs₀, Defs.onTc]
  iintro ⟨HΦ, Ho, ⟨%_, H0⟩, ⟨%_, H1⟩, ⟨%_, H2⟩, ⟨%_, H3⟩, ⟨%_, H4⟩, ⟨%_, H5⟩, %_, H6⟩
  iapply sound_kernel3 c Set.univ
  iframe
  isplitl [H6]; · iexists _; iexact H6
  iintro H; iexact H

end Cert.Kernel.Hand
-- ==== Proof.K.RegNT4.lean ====
import proofs.«427383_j1159641169925_2_alg».proof.Proof.Gen.Kernel.Launch
import proofs.«427383_j1159641169925_2_alg».proof.Proof.Gen.Kernel.Skeleton
import proofs.«427383_j1159641169925_2_alg».proof.Proof.Gen.Kernel.Points
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe
open Idealize.SL.RA Idealize.SL.BI Idealize.SL.BI.BIBase Idealize.SL.Sem
open scoped Idealize.SL.BI
open Idealize.ShloMosaic.Pipeline (Dat BodyObligation)

variable {F : FTy → Type} [FloatOps F]
  (V : (c : Dev nD) → (b : Ref sig .tc) → Buf (Elt F) ((c : Thread nD τ).loc b))

def iblk4 (c : Dev nD) (w : Fin cfg4.W) (t : Fin cfg4.N) :=
  ((cfg4.win w).blk t).view.read (Elt F) (V c (Pipeline.arrRef spec4 w))

-- the body leaves the inputs as they were and their product in the output
theorem sound_kernel4 (c : Dev nD) (x0 : Vec F S1000x512 .f32) (x1 : Vec F S512x2048 .bf16) (i : grid4.Coords)
    (arg1 : Memref sig .tc .vmem S1000x512 .f32) (harg1 : arg1.IsWhole) (arg2 : Memref sig .tc .vmem S512x2048 .bf16) (harg2 : arg2.IsWhole)
    (arg3 : Memref sig .tc .vmem S1000x2048 .f32) (harg3 : arg3.IsWhole) (K : PUnit → sProp (MT nD τ sig Unit (Elt F) ℕ (UR sig nD τ) ℕ)) :
    iprop(owns c.tc arg1 fullShare x0 ∗ owns c.tc arg2 fullShare x1 ∗ (∃ d, owns c.tc arg3 fullShare d)
        ∗ (iprop(owns c.tc arg1 fullShare x0 ∗ owns c.tc arg2 fullShare x1
            ∗ owns c.tc arg3 fullShare (k4_pay1 x0 x1)) -∗ K ⟨⟩))
      ⊢ wp frame (wpE defs₀ Variants.none c none) Set.univ (cc4_node_transform_kernel i arg1 harg1 arg2 harg2 arg3 harg3) K := by
  sl_unfold [cc4_node_transform_kernel]; unfold owns
  iintro ⟨⟨%f0, %hf0, H0⟩, ⟨%f1, %hf1, H1⟩, ⟨%d2, %f2, -, H2⟩, Hk⟩
  subst hf0 hf1
  sl_exec!
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_junk_eq_canon _ _).trans ((View.canon_unit_zero (by decide) _ _).trans
    (congrArg₂ k4_pay1 (View.ld_unit_zero (by decide) _ _) (View.ld_unit_zero (by decide) _ _)))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay1 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := rfl

-- at every point the inputs are the point's blocks of the two arrays, so the body's triple applies to them
theorem body_obligation4 (c : Dev nD) : BodyObligation (dat4 V c) defs₀ Variants.none () Set.univ := fun t => by
  have b0 : ∀ d, (dat4 V c).before 0 t d = iblk4 V c 0 t :=
    (dat4 V c).before_in_eq_fetched 0 rfl (fun _ => rfl) (fun _ _ _ => rfl) (fun _ => rfl) t
  have b1 : ∀ d, (dat4 V c).before 1 t d = iblk4 V c 1 t :=
    (dat4 V c).before_in_eq_fetched 1 rfl (fun _ => rfl) (fun _ _ _ => rfl) (fun _ => rfl) t
  rw [bigSep_W4, bigSep_W4]
  simp only [b0, b1]
  dsimp only [dat4, Dat.owesAt, Dat.bound]
  sl_whnfR [defs₀, Defs.onTc]
  iintro ⟨HΦ, Ho, ⟨%_, H0⟩, ⟨%_, H1⟩, %_, H2⟩
  iapply sound_kernel4 c (iblk4 V c 0 t) (iblk4 V c 1 t)
  iframe H0 H1
  isplitl [H2]; · iexists _; iexact H2
  iintro H
  iframe

end Cert.Kernel.Hand
-- ==== Proof.K.RegGRU5.lean ====
import proofs.«427383_j1159641169925_2_alg».proof.Proof.Gen.Kernel.Launch
import proofs.«427383_j1159641169925_2_alg».proof.Proof.Gen.Kernel.Skeleton
import proofs.«427383_j1159641169925_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S1000x512 := Rect.unit (s := S1000x512) ![0, 0] S1000x512.size inb_S1000x512_S1000x512_0_0
abbrev r5_1 : Rect S512x1536 := Rect.unit (s := S512x1536) ![0, 0] S512x1536.size inb_S512x1536_S512x1536_0_0
abbrev r5_2 : Rect S1x1536 := Rect.unit (s := S1x1536) ![0, 0] S1x1536.size inb_S1x1536_S1x1536_0_0

/-- What the body leaves in the output buffer, as a function of the six input buffers' contents. -/
def out5_6 (x0 x1 : Vec F S1000x512 .f32) (x2 x3 : Vec F S512x1536 .bf16) (x4 x5 : Vec F S1x1536 .f32) : Vec F S1000x512 .f32 :=
  View.canon [⟨r5_0, k5_pay1 (View.ld x0 r5_0) (View.ld x1 r5_0) (View.ld x2 r5_1) (View.ld x3 r5_1) (View.ld x4 r5_2) (View.ld x5 r5_2)⟩]

theorem cover5_6 (p0 : Vec F S1000x512 .f32) (y : S1000x512.Idx) :
    ∃ pc ∈ ([⟨r5_0, p0⟩] : List (View.Piece (Elt F) S1000x512 .f32)), y ∈ pc.1.set :=
  View.cover_of_tiled [⟨r5_0, p0⟩] S1000x512.size (by rfl) y

set_option maxHeartbeats 1000000 in
/-- The body returns its six inputs as read and leaves the output at `out5_6` of them: its one store covers the buffer. -/
theorem sound_kernel5 (c : Dev nD) (E : Set ℕ) {i : grid5.Coords}
    {arg1 arg2 arg7 : Memref sig .tc .vmem S1000x512 .f32} {arg3 arg4 : Memref sig .tc .vmem S512x1536 .bf16}
    {arg5 arg6 : Memref sig .tc .vmem S1x1536 .f32} {harg1 : arg1.IsWhole} {harg2 : arg2.IsWhole} {harg3 : arg3.IsWhole}
    {harg4 : arg4.IsWhole} {harg5 : arg5.IsWhole} {harg6 : arg6.IsWhole} {harg7 : arg7.IsWhole}
    {x0 x1 : Vec F S1000x512 .f32} {x2 x3 : Vec F S512x1536 .bf16} {x4 x5 : Vec F S1x1536 .f32} {K : PUnit → sProp 𝕄} :
    iprop(owns c.tc arg1 fullShare x0 ∗ owns c.tc arg2 fullShare x1
        ∗ owns c.tc arg3 fullShare x2 ∗ owns c.tc arg4 fullShare x3
        ∗ owns c.tc arg5 fullShare x4 ∗ owns c.tc arg6 fullShare x5
        ∗ (∃ d, owns c.tc arg7 fullShare d)
        ∗ (iprop(owns c.tc arg1 fullShare x0 ∗ owns c.tc arg2 fullShare x1
            ∗ owns c.tc arg3 fullShare x2 ∗ owns c.tc arg4 fullShare x3
            ∗ owns c.tc arg5 fullShare x4 ∗ owns c.tc arg6 fullShare x5
            ∗ owns c.tc arg7 fullShare (out5_6 x0 x1 x2 x3 x4 x5)) -∗ K ⟨⟩))
      ⊢ wp frame (wpE (defs₀ (F := F)) Variants.none c none) E
          (cc5_gru_kernel i arg1 harg1 arg2 harg2 arg3 harg3 arg4 harg4 arg5 harg5 arg6 harg6 arg7 harg7) K := by
  simp only [cc5_gru_kernel_eq_skeleton]; unfold cc5_gru_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  isplitl [H5]; · iexists f5; iframe; ipureintro; rfl
  iexists _; isplitr
  swap; · iexact H6
  ipureintro
  exact View.read_writes_eq_canon _ _ _ (cover5_6 _)

/-- The region's proof data: arrays as found, each input buffer left at its block, the output's at `out5_6` of the input blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_6 (c : Dev nD) (t : Fin cfg5.N) : (dat5 V c).after 6 t =
    out5_6 (iblk5 V c 0 t) (iblk5 V c 1 t) (iblk5 V c 2 t) (iblk5 V c 3 t) (iblk5 V c 4 t) (iblk5 V c 5 t) := by dsimp only [dat5]

/-- The body leaves each input's block in place, so before the body an input's buffer already holds what it holds after. -/
theorem before5 (c : Dev nD) {w : Fin cfg5.W} (hw : w ≠ 6) (t : Fin cfg5.N) (d) : (dat5 V c).before w t d = (dat5 V c).after w t := by
  fin_cases w <;> first
    | exact absurd rfl hw
    | exact ((dat5 V c).before_in_eq_fetched _ rfl (fun _ => rfl) (fun _ _ _ => rfl) (fun _ => rfl) t d).trans rfl

/-- At every point the inputs' buffers hold their blocks, so the body's triple applies; invariant and debts pass through unread. -/
theorem body_obligation5 (c : Dev nD) : BodyObligation (dat5 (F := F) V c) (defs₀ (F := F)) Variants.none () Set.univ := fun t => by
  rw [bigSep_W5, bigSep_W5, show (dat5 V c).owesAt () t.succ = (dat5 V c).owesAt () t.castSucc from rfl]
  simp (disch := decide) only [before5 V c]
  dsimp only [dat5]
  sl_whnfR [defs₀, Defs.onTc]
  iintro ⟨HΦ, Ho, ⟨%_, H0⟩, ⟨%_, H1⟩, ⟨%_, H2⟩, ⟨%_, H3⟩, ⟨%_, H4⟩, ⟨%_, H5⟩, %_, H6⟩
  iapply sound_kernel5 c Set.univ
  iframe
  isplitl [H6]; · iexists _; iexact H6
  iintro H; iexact H

end Cert.Kernel.Hand
-- ==== Proof.K.RegNT6.lean ====
import proofs.«427383_j1159641169925_2_alg».proof.Proof.Gen.Kernel.Launch
import proofs.«427383_j1159641169925_2_alg».proof.Proof.Gen.Kernel.Skeleton
import proofs.«427383_j1159641169925_2_alg».proof.Proof.Gen.Kernel.Points
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe
open Idealize.SL.RA Idealize.SL.BI Idealize.SL.BI.BIBase Idealize.SL.Sem
open scoped Idealize.SL.BI
open Idealize.ShloMosaic.Pipeline (Dat BodyObligation)

variable {F : FTy → Type} [FloatOps F]
  (V : (c : Dev nD) → (b : Ref sig .tc) → Buf (Elt F) ((c : Thread nD τ).loc b))

def iblk6 (c : Dev nD) (w : Fin cfg6.W) (t : Fin cfg6.N) :=
  ((cfg6.win w).blk t).view.read (Elt F) (V c (Pipeline.arrRef spec6 w))

-- the body leaves the inputs as they were and their product in the output
theorem sound_kernel6 (c : Dev nD) (x0 : Vec F S1000x512 .f32) (x1 : Vec F S512x2048 .bf16) (i : grid6.Coords)
    (arg1 : Memref sig .tc .vmem S1000x512 .f32) (harg1 : arg1.IsWhole) (arg2 : Memref sig .tc .vmem S512x2048 .bf16) (harg2 : arg2.IsWhole)
    (arg3 : Memref sig .tc .vmem S1000x2048 .f32) (harg3 : arg3.IsWhole) (K : PUnit → sProp (MT nD τ sig Unit (Elt F) ℕ (UR sig nD τ) ℕ)) :
    iprop(owns c.tc arg1 fullShare x0 ∗ owns c.tc arg2 fullShare x1 ∗ (∃ d, owns c.tc arg3 fullShare d)
        ∗ (iprop(owns c.tc arg1 fullShare x0 ∗ owns c.tc arg2 fullShare x1
            ∗ owns c.tc arg3 fullShare (k6_pay1 x0 x1)) -∗ K ⟨⟩))
      ⊢ wp frame (wpE defs₀ Variants.none c none) Set.univ (cc6_node_transform_kernel i arg1 harg1 arg2 harg2 arg3 harg3) K := by
  sl_unfold [cc6_node_transform_kernel]; unfold owns
  iintro ⟨⟨%f0, %hf0, H0⟩, ⟨%f1, %hf1, H1⟩, ⟨%d2, %f2, -, H2⟩, Hk⟩
  subst hf0 hf1
  sl_exec!
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_junk_eq_canon _ _).trans ((View.canon_unit_zero (by decide) _ _).trans
    (congrArg₂ k6_pay1 (View.ld_unit_zero (by decide) _ _) (View.ld_unit_zero (by decide) _ _)))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => k6_pay1 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := rfl

-- at every point the inputs are the point's blocks of the two arrays, so the body's triple applies to them
theorem body_obligation6 (c : Dev nD) : BodyObligation (dat6 V c) defs₀ Variants.none () Set.univ := fun t => by
  have b0 : ∀ d, (dat6 V c).before 0 t d = iblk6 V c 0 t :=
    (dat6 V c).before_in_eq_fetched 0 rfl (fun _ => rfl) (fun _ _ _ => rfl) (fun _ => rfl) t
  have b1 : ∀ d, (dat6 V c).before 1 t d = iblk6 V c 1 t :=
    (dat6 V c).before_in_eq_fetched 1 rfl (fun _ => rfl) (fun _ _ _ => rfl) (fun _ => rfl) t
  rw [bigSep_W6, bigSep_W6]
  simp only [b0, b1]
  dsimp only [dat6, Dat.owesAt, Dat.bound]
  sl_whnfR [defs₀, Defs.onTc]
  iintro ⟨HΦ, Ho, ⟨%_, H0⟩, ⟨%_, H1⟩, %_, H2⟩
  iapply sound_kernel6 c (iblk6 V c 0 t) (iblk6 V c 1 t)
  iframe H0 H1
  isplitl [H2]; · iexists _; iexact H2
  iintro H
  iframe

end Cert.Kernel.Hand
-- ==== Proof.K.RegGRU7.lean ====
import proofs.«427383_j1159641169925_2_alg».proof.Proof.Gen.Kernel.Launch
import proofs.«427383_j1159641169925_2_alg».proof.Proof.Gen.Kernel.Skeleton
import proofs.«427383_j1159641169925_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S1000x512 := Rect.unit (s := S1000x512) ![0, 0] S1000x512.size inb_S1000x512_S1000x512_0_0
abbrev r7_1 : Rect S512x1536 := Rect.unit (s := S512x1536) ![0, 0] S512x1536.size inb_S512x1536_S512x1536_0_0
abbrev r7_2 : Rect S1x1536 := Rect.unit (s := S1x1536) ![0, 0] S1x1536.size inb_S1x1536_S1x1536_0_0

/-- What the body leaves in the output buffer, as a function of the six input buffers' contents. -/
def out7_6 (x0 x1 : Vec F S1000x512 .f32) (x2 x3 : Vec F S512x1536 .bf16) (x4 x5 : Vec F S1x1536 .f32) : Vec F S1000x512 .f32 :=
  View.canon [⟨r7_0, k7_pay1 (View.ld x0 r7_0) (View.ld x1 r7_0) (View.ld x2 r7_1) (View.ld x3 r7_1) (View.ld x4 r7_2) (View.ld x5 r7_2)⟩]

theorem cover7_6 (p0 : Vec F S1000x512 .f32) (y : S1000x512.Idx) :
    ∃ pc ∈ ([⟨r7_0, p0⟩] : List (View.Piece (Elt F) S1000x512 .f32)), y ∈ pc.1.set :=
  View.cover_of_tiled [⟨r7_0, p0⟩] S1000x512.size (by rfl) y

set_option maxHeartbeats 1000000 in
/-- The body returns its six inputs as read and leaves the output at `out7_6` of them: its one store covers the buffer. -/
theorem sound_kernel7 (c : Dev nD) (E : Set ℕ) {i : grid7.Coords}
    {arg1 arg2 arg7 : Memref sig .tc .vmem S1000x512 .f32} {arg3 arg4 : Memref sig .tc .vmem S512x1536 .bf16}
    {arg5 arg6 : Memref sig .tc .vmem S1x1536 .f32} {harg1 : arg1.IsWhole} {harg2 : arg2.IsWhole} {harg3 : arg3.IsWhole}
    {harg4 : arg4.IsWhole} {harg5 : arg5.IsWhole} {harg6 : arg6.IsWhole} {harg7 : arg7.IsWhole}
    {x0 x1 : Vec F S1000x512 .f32} {x2 x3 : Vec F S512x1536 .bf16} {x4 x5 : Vec F S1x1536 .f32} {K : PUnit → sProp 𝕄} :
    iprop(owns c.tc arg1 fullShare x0 ∗ owns c.tc arg2 fullShare x1
        ∗ owns c.tc arg3 fullShare x2 ∗ owns c.tc arg4 fullShare x3
        ∗ owns c.tc arg5 fullShare x4 ∗ owns c.tc arg6 fullShare x5
        ∗ (∃ d, owns c.tc arg7 fullShare d)
        ∗ (iprop(owns c.tc arg1 fullShare x0 ∗ owns c.tc arg2 fullShare x1
            ∗ owns c.tc arg3 fullShare x2 ∗ owns c.tc arg4 fullShare x3
            ∗ owns c.tc arg5 fullShare x4 ∗ owns c.tc arg6 fullShare x5
            ∗ owns c.tc arg7 fullShare (out7_6 x0 x1 x2 x3 x4 x5)) -∗ K ⟨⟩))
      ⊢ wp frame (wpE (defs₀ (F := F)) Variants.none c none) E
          (cc7_gru_kernel i arg1 harg1 arg2 harg2 arg3 harg3 arg4 harg4 arg5 harg5 arg6 harg6 arg7 harg7) K := by
  simp only [cc7_gru_kernel_eq_skeleton]; unfold cc7_gru_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  isplitl [H5]; · iexists f5; iframe; ipureintro; rfl
  iexists _; isplitr
  swap; · iexact H6
  ipureintro
  exact View.read_writes_eq_canon _ _ _ (cover7_6 _)

/-- The region's proof data: arrays as found, each input buffer left at its block, the output's at `out7_6` of the input blocks. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_6 (c : Dev nD) (t : Fin cfg7.N) : (dat7 V c).after 6 t =
    out7_6 (iblk7 V c 0 t) (iblk7 V c 1 t) (iblk7 V c 2 t) (iblk7 V c 3 t) (iblk7 V c 4 t) (iblk7 V c 5 t) := by dsimp only [dat7]

/-- The body leaves each input's block in place, so before the body an input's buffer already holds what it holds after. -/
theorem before7 (c : Dev nD) {w : Fin cfg7.W} (hw : w ≠ 6) (t : Fin cfg7.N) (d) : (dat7 V c).before w t d = (dat7 V c).after w t := by
  fin_cases w <;> first
    | exact absurd rfl hw
    | exact ((dat7 V c).before_in_eq_fetched _ rfl (fun _ => rfl) (fun _ _ _ => rfl) (fun _ => rfl) t d).trans rfl

/-- At every point the inputs' buffers hold their blocks, so the body's triple applies; invariant and debts pass through unread. -/
theorem body_obligation7 (c : Dev nD) : BodyObligation (dat7 (F := F) V c) (defs₀ (F := F)) Variants.none () Set.univ := fun t => by
  rw [bigSep_W7, bigSep_W7, show (dat7 V c).owesAt () t.succ = (dat7 V c).owesAt () t.castSucc from rfl]
  simp (disch := decide) only [before7 V c]
  dsimp only [dat7]
  sl_whnfR [defs₀, Defs.onTc]
  iintro ⟨HΦ, Ho, ⟨%_, H0⟩, ⟨%_, H1⟩, ⟨%_, H2⟩, ⟨%_, H3⟩, ⟨%_, H4⟩, ⟨%_, H5⟩, %_, H6⟩
  iapply sound_kernel7 c Set.univ
  iframe
  isplitl [H6]; · iexists _; iexact H6
  iintro H; iexact H

end Cert.Kernel.Hand
-- ==== Proof.K.RegFC8.lean ====
import proofs.«427383_j1159641169925_2_alg».proof.Proof.Gen.Kernel.Launch
import proofs.«427383_j1159641169925_2_alg».proof.Proof.Gen.Kernel.Skeleton
import proofs.«427383_j1159641169925_2_alg».proof.Proof.Gen.Kernel.Points
import Idealize.ShloMosaic.Lib.Pipeline.FrameBody
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The carried row before point n: the first store's payload, then each point's update of it. -/
def acc8 (c : Dev nD) : (n : ℕ) → n ≤ cfg8.N → Vec F S1x512 .f32
  | 0, _ => k8_pay1
  | n + 1, h => k8_pay2 (iblk8 V c 0 ⟨n, h⟩) (iblk8 V c 1 ⟨n, h⟩) (iblk8 V c 2 ⟨n, h⟩) (acc8 c n (Nat.le_of_succ_le h))

theorem acc8_succ (c : Dev nD) (t : Fin cfg8.N) : acc8 V c (t.val + 1) t.isLt
    = k8_pay2 (iblk8 V c 0 t) (iblk8 V c 1 t) (iblk8 V c 2 t) (acc8 V c t.val (Nat.le_of_lt t.isLt)) := rfl

abbrev scM8 : Memref sig .tc .vmem S1x512 .f32 := Memref.whole cc8_scratch0

abbrev rest8 (c : Dev nD) : sProp 𝕄 := Pipeline.scopedRestBut (Ix := Unit) (Name := ℕ) (U := UR sig nD τ) (Lvl := ℕ) (Val := Elt F) spec8 c [cc8_scratch0]

/-- The invariant before position n: past the first point the scratch row holds the carried row. -/
def Phi8 (c : Dev nD) : (n : ℕ) → n ≤ cfg8.N → sProp 𝕄
  | 0, _ => Pipeline.ΦA spec8 c
  | n + 1, h => iprop(iprop(owns (c : Thread nD τ) scM8 fullShare (acc8 V c (n + 1) h) ∗ rest8 c) ∗ (∃ r, prngReg c r))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => acc8 V c (t.val + 1) t.isLt
  Φ t := Phi8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = acc8 V c (t.val + 1) t.isLt := by dsimp only [dat8]

abbrev cond8_0 (i : grid8.Coords) : Prop :=
  (Scalar.cmpi .ne (Scalar.extui (Scalar.cmpi .eq (BitVec.ofNat 32 (i 0).val) 0#32)) 0#32) = 1#1
theorem hcond8_0 : ∀ t : Fin cfg8.N, cond8_0 (grid8.coords t) ↔ t.val = 0 :=
  (by decide +kernel : ∀ t : Fin grid8.N, cond8_0 (grid8.coords t) ↔ t.val = 0)

abbrev cond8_1 (i : grid8.Coords) : Prop := k8_cond2 i = 1#1

theorem idleAt8_3 : ∀ t : Fin cfg8.N, ¬cond8_1 (grid8.coords t) → cfg8.idle 3 (grid8.coords t) = true ∧ (cfg8.win 3).flush t = false := by
  decide +kernel
theorem liveAt8_3 : ∀ t : Fin cfg8.N, cond8_1 (grid8.coords t) → cfg8.idle 3 (grid8.coords t) = false := by decide +kernel

theorem hz8 : (![0, 0] : Fin 2 → ℕ) = fun _ => 0 := by
  funext a; fin_cases a <;> rfl

/-- A one-row buffer whose last store covers it whole reads that store's value. -/
theorem read_writes_row8 {κ : Kind} {sp : Space} (v : View sig κ sp S1x512 .f32) (f : v.ty.Contents (Elt F))
    (w : S1x512.Idx → Elt F .f32) (L : List (View.Piece (Elt F) S1x512 .f32)) :
    v.read (Elt F) (v.writes (Elt F) f (⟨Rect.unit ![0, 0] S1x512.size inb_S1x512_S1x512_0_0, w⟩ :: L)) = w := by
  rw [View.read_writes_eq_canon _ _ _ (fun y => ⟨_, List.mem_cons_self, View.mem_set_unit_zero hz8 inb_S1x512_S1x512_0_0 y⟩),
    View.canon_cons_unit_zero hz8]

/-- One point: the scratch row, refilled first under the first condition, is updated from the three blocks; under the second the output row takes its value. -/
theorem sound_kernel8 (c : Dev nD) (E : Set ℕ) (i : grid8.Coords)
    (arg1 : Memref sig .tc .vmem S1000x512 .f32) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole)
    (x0 : Vec F S1000x512 .f32) (x1 : Vec F S512x512 .bf16) (x2 d4 d5 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare d4 ∗ owns (c : Thread nD τ) arg5 fullShare d5
        ∗ (iprop(owns (c : Thread nD τ) arg1 fullShare x0 ∗ owns (c : Thread nD τ) arg2 fullShare x1 ∗ owns (c : Thread nD τ) arg3 fullShare x2
            ∗ owns (c : Thread nD τ) arg4 fullShare (if cond8_1 i then k8_pay2 x0 x1 x2 (if cond8_0 i then k8_pay1 else d5) else d4)
            ∗ owns (c : Thread nD τ) arg5 fullShare (k8_pay2 x0 x1 x2 (if cond8_0 i then k8_pay1 else d5))) -∗ K ⟨⟩))
      ⊢ wp frame (wpE (defs₀ (F := F)) Variants.none c none) E
          (cc8_fc_maxpool_kernel i arg1 harg1 arg2 harg2 arg3 harg3 arg4 harg4 arg5 harg5) K := by
  simp only [cc8_fc_maxpool_kernel_eq_skeleton]; unfold cc8_fc_maxpool_kernel_skel owns
  iintro ⟨⟨%f0, %hf0, H0⟩, ⟨%f1, %hf1, H1⟩, ⟨%f2, %hf2, H2⟩, ⟨%f4, %hf4, H4⟩, ⟨%fs, %hfs, HS⟩, Hk⟩
  by_cases hc0 : cond8_0 i <;> by_cases hc1 : cond8_1 i <;>
  · first | rw [if_pos hc0] | rw [if_neg hc0]
    first | rw [if_pos hc1] | rw [if_neg hc1]
    sl_exec (disch := first | exact hc0 | exact hc1)
    sl_step
    iapply Hk
    isplitl [H0]; swap; isplitl [H1]; swap; isplitl [H2]; swap; isplitl [H4]
    all_goals
      iexists _; isplitr
      swap; · iassumption
      ipureintro; sl_unfold_run_names; try rw [read_writes_row8]
      simp only [View.readCov_cons_toLoadRect, View.readAt_eq_ld, hf0, hf1, hf2, hf4, hfs, View.ld_unit_zero (S := S1000x512) hz8,
        View.ld_unit_zero (S := S512x512) hz8, View.ld_unit_zero (S := S1x512) hz8]

theorem before8_0 (c : Dev nD) (t : Fin cfg8.N) (d) : (dat8 V c).before 0 t d = iblk8 V c 0 t :=
  (dat8 V c).before_in_eq_fetched 0 rfl (fun _ => rfl) (fun _ _ _ => rfl) (fun _ => rfl) t d
theorem before8_1 (c : Dev nD) (t : Fin cfg8.N) (d) : (dat8 V c).before 1 t d = iblk8 V c 1 t :=
  (dat8 V c).before_in_eq_fetched 1 rfl (fun _ => rfl) (fun _ _ _ => rfl) (fun _ => rfl) t d
theorem before8_2 (c : Dev nD) (t : Fin cfg8.N) (d) : (dat8 V c).before 2 t d = iblk8 V c 2 t :=
  (dat8 V c).before_in_eq_fetched 2 rfl (fun _ => rfl) (fun _ _ _ => rfl) (fun _ => rfl) t d

/-- The entry invariant with the scratch row split off. -/
theorem PhiA8_eq (c : Dev nD) :
    (Pipeline.ΦA spec8 c : sProp 𝕄)
      = iprop(iprop((∃ d, owns (c : Thread nD τ) scM8 fullShare d) ∗ rest8 c) ∗ (∃ r, prngReg c r)) := by
  unfold Pipeline.ΦA; rw [scopedRest8_split]; simp only [scM8, owns_whole]; rfl

/-- At a point the invariant holds the scratch row at some contents: the carried row, once the first condition's refill is taken. -/
theorem Phi8_open (c : Dev nD) (t : Fin cfg8.N) : (dat8 V c).Φ t.castSucc ⊢
    iprop(∃ d, ⌜(if cond8_0 (grid8.coords t) then k8_pay1 else d) = acc8 V c t.val (Nat.le_of_lt t.isLt)⌝
      ∗ iprop(owns (c : Thread nD τ) scM8 fullShare d ∗ rest8 c) ∗ (∃ r, prngReg c r)) := by
  obtain ⟨n, hn⟩ := t
  cases n with
  | zero =>
    show Pipeline.ΦA spec8 c ⊢ _
    rw [PhiA8_eq]
    iintro ⟨⟨⟨%d, HS⟩, HR⟩, Hg⟩
    iexists d; isplitr; · ipureintro; exact if_pos ((hcond8_0 ⟨0, hn⟩).mpr rfl)
    iframe
  | succ n =>
    show Phi8 V c (n + 1) _ ⊢ _
    unfold Phi8; iintro H; iexists _; isplitr
    · ipureintro; exact if_neg (mt (hcond8_0 ⟨n + 1, hn⟩).mp (Nat.succ_ne_zero n))
    iexact H

/-- At any position the invariant gives back the entry invariant. -/
theorem Phi8_le (c : Dev nD) : ∀ (n : ℕ) (h : n ≤ cfg8.N), Phi8 V c n h ⊢ Pipeline.ΦA spec8 c
  | 0, _ => by unfold Phi8; iintro H; iexact H
  | n + 1, h => by
    unfold Phi8; rw [PhiA8_eq]
    iintro ⟨⟨HS, HR⟩, Hg⟩
    iframe HR Hg
    iexists _; iexact HS

/-- The output row: written at the last point, else as found. -/
theorem leaves8_3 (c : Dev nD) (t : Fin cfg8.N) (d) :
    owns (c : Thread nD τ) (st8_3 t) fullShare (if cond8_1 (grid8.coords t) then acc8 V c (t.val + 1) t.isLt else (dat8 V c).before 3 t d)
      ⊢ (dat8 V c).leavesExact 3 t := by
  by_cases hc1 : cond8_1 (grid8.coords t)
  · rw [if_pos hc1]; unfold Dat.leavesExact; rw [liveAt8_3 t hc1, after8_3]
  · rw [if_neg hc1, Dat.leavesExact_idle (dat8 V c) 3 t (idleAt8_3 t hc1).1 (idleAt8_3 t hc1).2]
    iintro H; iexists d; iexact H

theorem body_obligation8 (c : Dev nD) : BodyObligation (dat8 (F := F) V c) (defs₀ (F := F)) Variants.none () Set.univ := fun t => by
  rw [bigSep_W8, bigSep_W8]
  dsimp only
  show _ ⊢ wp frame _ _ (bodyAt8 t) _
  unfold bodyAt8
  simp only [before8_0, before8_1, before8_2, after8_0, after8_1, after8_2]
  rw [show (dat8 V c).owesAt () t.succ = (dat8 V c).owesAt () t.castSucc from rfl,
    show (dat8 V c).Φ t.succ = Phi8 V c (t.val + 1) t.isLt from rfl, Phi8]
  iintro ⟨HΦ, Ho, ⟨%d0, H0⟩, ⟨%d1, H1⟩, ⟨%d2, H2⟩, ⟨%d3, H3⟩⟩
  ihave HΦ := Phi8_open V c t $$ HΦ
  icases HΦ with ⟨%d5, %e, ⟨HS, HR⟩, Hg⟩
  iapply (sound_kernel8 c Set.univ (grid8.coords t) (stage8_0 (cfg8.slots t 0)) _ (stage8_1 (cfg8.slots t 1)) _
    (stage8_2 (cfg8.slots t 2)) _ (stage8_3 (cfg8.slots t 3)) _ scM8 _
    (iblk8 V c 0 t) (iblk8 V c 1 t) (iblk8 V c 2 t) ((dat8 V c).before 3 t d3) d5 _)
  iframe H0 H1 H2 H3 HS
  rw [e, ← acc8_succ]
  iintro ⟨H0, H1, H2, H3, HS⟩
  iframe HS HR Hg Ho H0 H1 H2
  iapply (leaves8_3 V c t d3)
  iexact H3

theorem Phi8_zero (c : Dev nD) : (dat8 V c).Φ 0 = Pipeline.ΦA spec8 c := rfl

theorem Phi8_last (c : Dev nD) : (dat8 V c).Φ (Fin.last _) ⊢ Pipeline.ΦA spec8 c := Phi8_le V c cfg8.N le_rfl

end Cert.Kernel.Hand

end
-- ==== Proof.K.Fold.lean ====
import proofs.«427383_j1159641169925_2_alg».proof.Proof.Gen.Kernel.Regions
import proofs.«427383_j1159641169925_2_alg».proof.Proof.K.RegNT0
import proofs.«427383_j1159641169925_2_alg».proof.Proof.K.RegGRU1
import proofs.«427383_j1159641169925_2_alg».proof.Proof.K.RegNT2
import proofs.«427383_j1159641169925_2_alg».proof.Proof.K.RegGRU3
import proofs.«427383_j1159641169925_2_alg».proof.Proof.K.RegNT4
import proofs.«427383_j1159641169925_2_alg».proof.Proof.K.RegGRU5
import proofs.«427383_j1159641169925_2_alg».proof.Proof.K.RegNT6
import proofs.«427383_j1159641169925_2_alg».proof.Proof.K.RegGRU7
import proofs.«427383_j1159641169925_2_alg».proof.Proof.K.RegFC8
import Idealize.ShloMosaic.Lib.Pipeline.FrameSuffix

noncomputable section

namespace Cert.Kernel.Hand

open Cert.Kernel Cert.Kernel.Gen
open Idealize.ShloMosaic Idealize.ShloMosaic.TcCoe Idealize.ShloMosaic.Tactic

variable {F : FTy → Type} [FloatOps F]

variable (m : (ℓ : Loc nD τ sig) → Buf (Elt F) ℓ) (ρ : Dev nD → PrngReg)

-- A core's buffer contents, read at its `.tc` references.
abbrev atTc (W : Dev nD → Valuation τ sig (Elt F)) : (c : Dev nD) → (b : Ref sig .tc) → Buf (Elt F) ((c : Thread nD τ).loc b) :=
  fun c b => W c b

abbrev W0 : Dev nD → Valuation τ sig (Elt F) := fun c b => (s₀ m ρ).mem ((c : Dev nD), b)

abbrev W1 : Dev nD → Valuation τ sig (Elt F) := fun c => StableHlo.after hostOps0 (W0 m ρ c)

theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

abbrev V1 := atTc (W1 m ρ)

def W2 (c : Dev nD) : Valuation τ sig (Elt F) :=
  Pipeline.withArrays spec0 c (W1 m ρ c) fun w => (dat0 (V1 m ρ) c).arrAt w cfg0.N

theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w

theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

abbrev V2 := atTc (W2 m ρ)

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h

abbrev W4 : Dev nD → Valuation τ sig (Elt F) := fun c => StableHlo.after hostOps1_1 (W3 m ρ c)

theorem W4_keep (c : Dev nD) (r : Ref sig .tc) (h : r ∉ hostOps1_1_W) :
    W4 m ρ c (Proc.devRef .tc r) = W3 m ρ c (Proc.devRef .tc r) :=
  StableHlo.after_of_writes_sub hostOps1_1 _ hostOps1_1_writes h

abbrev W5 : Dev nD → Valuation τ sig (Elt F) := fun c => StableHlo.after hostOps1_2 (W4 m ρ c)

theorem W5_keep (c : Dev nD) (r : Ref sig .tc) (h : r ∉ hostOps1_2_W) :
    W5 m ρ c (Proc.devRef .tc r) = W4 m ρ c (Proc.devRef .tc r) :=
  StableHlo.after_of_writes_sub hostOps1_2 _ hostOps1_2_writes h

abbrev V5 := atTc (W5 m ρ)

def W6 (c : Dev nD) : Valuation τ sig (Elt F) :=
  Pipeline.withArrays spec1 c (W5 m ρ c) fun w => (dat1 (V5 m ρ) c).arrAt w cfg1.N

theorem W6_arr (c : Dev nD) (w : Fin cfg1.W) :
    W6 m ρ c (Proc.devRef .tc (Pipeline.arrRef spec1 w)) = (dat1 (V5 m ρ) c).arrAt w cfg1.N :=
  Pipeline.withArrays_arr spec1 launch1.win.arr_inj c _ _ w

theorem W6_of_ne (c : Dev nD) (b : Ref sig .tc) (hb : ∀ w, Pipeline.arrRef spec1 w ≠ b) :
    W6 m ρ c (Proc.devRef .tc b) = W5 m ρ c (Proc.devRef .tc b) :=
  Pipeline.withArrays_of_ne spec1 c _ _ b hb

theorem W6_in (c : Dev nD) (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hw _).trans (A_eq1 (V5 m ρ) c w))

abbrev V6 := atTc (W6 m ρ)

theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

def W7 (c : Dev nD) : Valuation τ sig (Elt F) :=
  Pipeline.withArrays spec2 c (W6 m ρ c) fun w => (dat2 (V6 m ρ) c).arrAt w cfg2.N

theorem W7_arr (c : Dev nD) (w : Fin cfg2.W) :
    W7 m ρ c (Proc.devRef .tc (Pipeline.arrRef spec2 w)) = (dat2 (V6 m ρ) c).arrAt w cfg2.N :=
  Pipeline.withArrays_arr spec2 launch2.win.arr_inj c _ _ w

theorem W7_of_ne (c : Dev nD) (b : Ref sig .tc) (hb : ∀ w, Pipeline.arrRef spec2 w ≠ b) :
    W7 m ρ c (Proc.devRef .tc b) = W6 m ρ c (Proc.devRef .tc b) :=
  Pipeline.withArrays_of_ne spec2 c _ _ b hb

theorem W7_in (c : Dev nD) (w : Fin cfg2.W) (hw : (cfg2.win w).isOut = false) :
    W7 m ρ c (Proc.devRef .tc (Pipeline.arrRef spec2 w)) = W6 m ρ c (Proc.devRef .tc (Pipeline.arrRef spec2 w)) :=
  (W7_arr m ρ c w).trans (((dat2 (V6 m ρ) c).arrAt_in w hw _).trans (A_eq2 (V6 m ρ) c w))

abbrev V7 := atTc (W7 m ρ)

theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

abbrev W8 : Dev nD → Valuation τ sig (Elt F) := fun c => StableHlo.after hostOps3 (W7 m ρ c)

theorem W8_keep (c : Dev nD) (r : Ref sig .tc) (h : r ∉ hostOps3_W) :
    W8 m ρ c (Proc.devRef .tc r) = W7 m ρ c (Proc.devRef .tc r) :=
  StableHlo.after_of_writes_sub hostOps3 _ hostOps3_writes h

abbrev W9 : Dev nD → Valuation τ sig (Elt F) := fun c => StableHlo.after hostOps3_1 (W8 m ρ c)

theorem W9_keep (c : Dev nD) (r : Ref sig .tc) (h : r ∉ hostOps3_1_W) :
    W9 m ρ c (Proc.devRef .tc r) = W8 m ρ c (Proc.devRef .tc r) :=
  StableHlo.after_of_writes_sub hostOps3_1 _ hostOps3_1_writes h

abbrev W10 : Dev nD → Valuation τ sig (Elt F) := fun c => StableHlo.after hostOps3_2 (W9 m ρ c)

theorem W10_keep (c : Dev nD) (r : Ref sig .tc) (h : r ∉ hostOps3_2_W) :
    W10 m ρ c (Proc.devRef .tc r) = W9 m ρ c (Proc.devRef .tc r) :=
  StableHlo.after_of_writes_sub hostOps3_2 _ hostOps3_2_writes h

abbrev V10 := atTc (W10 m ρ)

def W11 (c : Dev nD) : Valuation τ sig (Elt F) :=
  Pipeline.withArrays spec3 c (W10 m ρ c) fun w => (dat3 (V10 m ρ) c).arrAt w cfg3.N

theorem W11_arr (c : Dev nD) (w : Fin cfg3.W) :
    W11 m ρ c (Proc.devRef .tc (Pipeline.arrRef spec3 w)) = (dat3 (V10 m ρ) c).arrAt w cfg3.N :=
  Pipeline.withArrays_arr spec3 launch3.win.arr_inj c _ _ w

theorem W11_of_ne (c : Dev nD) (b : Ref sig .tc) (hb : ∀ w, Pipeline.arrRef spec3 w ≠ b) :
    W11 m ρ c (Proc.devRef .tc b) = W10 m ρ c (Proc.devRef .tc b) :=
  Pipeline.withArrays_of_ne spec3 c _ _ b hb

abbrev V11 := atTc (W11 m ρ)

theorem hF3 (c : Dev nD) (w : Fin cfg3.W) : (dat3 (V10 m ρ) c).arrAt w cfg3.N = V11 m ρ c (Pipeline.arrRef spec3 w) :=
  (W11_arr m ρ c w).symm
theorem hrest3 (c : Dev nD) : ∀ b, b ∉ Finset.univ.image (Pipeline.arrRef spec3) → V11 m ρ c b = V10 m ρ c b :=
  fun b hb => W11_of_ne m ρ c b fun w e => hb (Finset.mem_image.mpr ⟨w, Finset.mem_univ _, e⟩)

abbrev W12 : Dev nD → Valuation τ sig (Elt F) := fun c => StableHlo.after hostOps4 (W11 m ρ c)

theorem W12_keep (c : Dev nD) (r : Ref sig .tc) (h : r ∉ hostOps4_W) :
    W12 m ρ c (Proc.devRef .tc r) = W11 m ρ c (Proc.devRef .tc r) :=
  StableHlo.after_of_writes_sub hostOps4 _ hostOps4_writes h

abbrev V12 := atTc (W12 m ρ)

def W13 (c : Dev nD) : Valuation τ sig (Elt F) :=
  Pipeline.withArrays spec4 c (W12 m ρ c) fun w => (dat4 (V12 m ρ) c).arrAt w cfg4.N

theorem W13_arr (c : Dev nD) (w : Fin cfg4.W) :
    W13 m ρ c (Proc.devRef .tc (Pipeline.arrRef spec4 w)) = (dat4 (V12 m ρ) c).arrAt w cfg4.N :=
  Pipeline.withArrays_arr spec4 launch4.win.arr_inj c _ _ w

theorem W13_of_ne (c : Dev nD) (b : Ref sig .tc) (hb : ∀ w, Pipeline.arrRef spec4 w ≠ b) :
    W13 m ρ c (Proc.devRef .tc b) = W12 m ρ c (Proc.devRef .tc b) :=
  Pipeline.withArrays_of_ne spec4 c _ _ b hb

theorem W13_in (c : Dev nD) (w : Fin cfg4.W) (hw : (cfg4.win w).isOut = false) :
    W13 m ρ c (Proc.devRef .tc (Pipeline.arrRef spec4 w)) = W12 m ρ c (Proc.devRef .tc (Pipeline.arrRef spec4 w)) :=
  (W13_arr m ρ c w).trans (((dat4 (V12 m ρ) c).arrAt_in w hw _).trans (A_eq4 (V12 m ρ) c w))

abbrev V13 := atTc (W13 m ρ)

theorem hF4 (c : Dev nD) (w : Fin cfg4.W) : (dat4 (V12 m ρ) c).arrAt w cfg4.N = V13 m ρ c (Pipeline.arrRef spec4 w) :=
  (W13_arr m ρ c w).symm
theorem hrest4 (c : Dev nD) : ∀ b, b ∉ Finset.univ.image (Pipeline.arrRef spec4) → V13 m ρ c b = V12 m ρ c b :=
  fun b hb => W13_of_ne m ρ c b fun w e => hb (Finset.mem_image.mpr ⟨w, Finset.mem_univ _, e⟩)

abbrev W14 : Dev nD → Valuation τ sig (Elt F) := fun c => StableHlo.after hostOps5 (W13 m ρ c)

theorem W14_keep (c : Dev nD) (r : Ref sig .tc) (h : r ∉ hostOps5_W) :
    W14 m ρ c (Proc.devRef .tc r) = W13 m ρ c (Proc.devRef .tc r) :=
  StableHlo.after_of_writes_sub hostOps5 _ hostOps5_writes h

abbrev W15 : Dev nD → Valuation τ sig (Elt F) := fun c => StableHlo.after hostOps5_1 (W14 m ρ c)

theorem W15_keep (c : Dev nD) (r : Ref sig .tc) (h : r ∉ hostOps5_1_W) :
    W15 m ρ c (Proc.devRef .tc r) = W14 m ρ c (Proc.devRef .tc r) :=
  StableHlo.after_of_writes_sub hostOps5_1 _ hostOps5_1_writes h

abbrev W16 : Dev nD → Valuation τ sig (Elt F) := fun c => StableHlo.after hostOps5_2 (W15 m ρ c)

theorem W16_keep (c : Dev nD) (r : Ref sig .tc) (h : r ∉ hostOps5_2_W) :
    W16 m ρ c (Proc.devRef .tc r) = W15 m ρ c (Proc.devRef .tc r) :=
  StableHlo.after_of_writes_sub hostOps5_2 _ hostOps5_2_writes h

abbrev V16 := atTc (W16 m ρ)

def W17 (c : Dev nD) : Valuation τ sig (Elt F) :=
  Pipeline.withArrays spec5 c (W16 m ρ c) fun w => (dat5 (V16 m ρ) c).arrAt w cfg5.N

theorem W17_arr (c : Dev nD) (w : Fin cfg5.W) :
    W17 m ρ c (Proc.devRef .tc (Pipeline.arrRef spec5 w)) = (dat5 (V16 m ρ) c).arrAt w cfg5.N :=
  Pipeline.withArrays_arr spec5 launch5.win.arr_inj c _ _ w

theorem W17_of_ne (c : Dev nD) (b : Ref sig .tc) (hb : ∀ w, Pipeline.arrRef spec5 w ≠ b) :
    W17 m ρ c (Proc.devRef .tc b) = W16 m ρ c (Proc.devRef .tc b) :=
  Pipeline.withArrays_of_ne spec5 c _ _ b hb

theorem W17_in (c : Dev nD) (w : Fin cfg5.W) (hw : (cfg5.win w).isOut = false) :
    W17 m ρ c (Proc.devRef .tc (Pipeline.arrRef spec5 w)) = W16 m ρ c (Proc.devRef .tc (Pipeline.arrRef spec5 w)) :=
  (W17_arr m ρ c w).trans (((dat5 (V16 m ρ) c).arrAt_in w hw _).trans (A_eq5 (V16 m ρ) c w))

abbrev V17 := atTc (W17 m ρ)

theorem hF5 (c : Dev nD) (w : Fin cfg5.W) : (dat5 (V16 m ρ) c).arrAt w cfg5.N = V17 m ρ c (Pipeline.arrRef spec5 w) :=
  (W17_arr m ρ c w).symm
theorem hrest5 (c : Dev nD) : ∀ b, b ∉ Finset.univ.image (Pipeline.arrRef spec5) → V17 m ρ c b = V16 m ρ c b :=
  fun b hb => W17_of_ne m ρ c b fun w e => hb (Finset.mem_image.mpr ⟨w, Finset.mem_univ _, e⟩)

def W18 (c : Dev nD) : Valuation τ sig (Elt F) :=
  Pipeline.withArrays spec6 c (W17 m ρ c) fun w => (dat6 (V17 m ρ) c).arrAt w cfg6.N

theorem W18_arr (c : Dev nD) (w : Fin cfg6.W) :
    W18 m ρ c (Proc.devRef .tc (Pipeline.arrRef spec6 w)) = (dat6 (V17 m ρ) c).arrAt w cfg6.N :=
  Pipeline.withArrays_arr spec6 launch6.win.arr_inj c _ _ w

theorem W18_of_ne (c : Dev nD) (b : Ref sig .tc) (hb : ∀ w, Pipeline.arrRef spec6 w ≠ b) :
    W18 m ρ c (Proc.devRef .tc b) = W17 m ρ c (Proc.devRef .tc b) :=
  Pipeline.withArrays_of_ne spec6 c _ _ b hb

theorem W18_in (c : Dev nD) (w : Fin cfg6.W) (hw : (cfg6.win w).isOut = false) :
    W18 m ρ c (Proc.devRef .tc (Pipeline.arrRef spec6 w)) = W17 m ρ c (Proc.devRef .tc (Pipeline.arrRef spec6 w)) :=
  (W18_arr m ρ c w).trans (((dat6 (V17 m ρ) c).arrAt_in w hw _).trans (A_eq6 (V17 m ρ) c w))

abbrev V18 := atTc (W18 m ρ)

theorem hF6 (c : Dev nD) (w : Fin cfg6.W) : (dat6 (V17 m ρ) c).arrAt w cfg6.N = V18 m ρ c (Pipeline.arrRef spec6 w) :=
  (W18_arr m ρ c w).symm
theorem hrest6 (c : Dev nD) : ∀ b, b ∉ Finset.univ.image (Pipeline.arrRef spec6) → V18 m ρ c b = V17 m ρ c b :=
  fun b hb => W18_of_ne m ρ c b fun w e => hb (Finset.mem_image.mpr ⟨w, Finset.mem_univ _, e⟩)

abbrev W19 : Dev nD → Valuation τ sig (Elt F) := fun c => StableHlo.after hostOps7 (W18 m ρ c)

theorem W19_keep (c : Dev nD) (r : Ref sig .tc) (h : r ∉ hostOps7_W) :
    W19 m ρ c (Proc.devRef .tc r) = W18 m ρ c (Proc.devRef .tc r) :=
  StableHlo.after_of_writes_sub hostOps7 _ hostOps7_writes h

abbrev W20 : Dev nD → Valuation τ sig (Elt F) := fun c => StableHlo.after hostOps7_1 (W19 m ρ c)

theorem W20_keep (c : Dev nD) (r : Ref sig .tc) (h : r ∉ hostOps7_1_W) :
    W20 m ρ c (Proc.devRef .tc r) = W19 m ρ c (Proc.devRef .tc r) :=
  StableHlo.after_of_writes_sub hostOps7_1 _ hostOps7_1_writes h

abbrev W21 : Dev nD → Valuation τ sig (Elt F) := fun c => StableHlo.after hostOps7_2 (W20 m ρ c)

theorem W21_keep (c : Dev nD) (r : Ref sig .tc) (h : r ∉ hostOps7_2_W) :
    W21 m ρ c (Proc.devRef .tc r) = W20 m ρ c (Proc.devRef .tc r) :=
  StableHlo.after_of_writes_sub hostOps7_2 _ hostOps7_2_writes h

abbrev V21 := atTc (W21 m ρ)

def W22 (c : Dev nD) : Valuation τ sig (Elt F) :=
  Pipeline.withArrays spec7 c (W21 m ρ c) fun w => (dat7 (V21 m ρ) c).arrAt w cfg7.N

theorem W22_arr (c : Dev nD) (w : Fin cfg7.W) :
    W22 m ρ c (Proc.devRef .tc (Pipeline.arrRef spec7 w)) = (dat7 (V21 m ρ) c).arrAt w cfg7.N :=
  Pipeline.withArrays_arr spec7 launch7.win.arr_inj c _ _ w

theorem W22_of_ne (c : Dev nD) (b : Ref sig .tc) (hb : ∀ w, Pipeline.arrRef spec7 w ≠ b) :
    W22 m ρ c (Proc.devRef .tc b) = W21 m ρ c (Proc.devRef .tc b) :=
  Pipeline.withArrays_of_ne spec7 c _ _ b hb

abbrev V22 := atTc (W22 m ρ)

theorem hF7 (c : Dev nD) (w : Fin cfg7.W) : (dat7 (V21 m ρ) c).arrAt w cfg7.N = V22 m ρ c (Pipeline.arrRef spec7 w) :=
  (W22_arr m ρ c w).symm
theorem hrest7 (c : Dev nD) : ∀ b, b ∉ Finset.univ.image (Pipeline.arrRef spec7) → V22 m ρ c b = V21 m ρ c b :=
  fun b hb => W22_of_ne m ρ c b fun w e => hb (Finset.mem_image.mpr ⟨w, Finset.mem_univ _, e⟩)

abbrev W23 : Dev nD → Valuation τ sig (Elt F) := fun c => StableHlo.after hostOps8 (W22 m ρ c)

theorem W23_keep (c : Dev nD) (r : Ref sig .tc) (h : r ∉ hostOps8_W) :
    W23 m ρ c (Proc.devRef .tc r) = W22 m ρ c (Proc.devRef .tc r) :=
  StableHlo.after_of_writes_sub hostOps8 _ hostOps8_writes h

abbrev V23 := atTc (W23 m ρ)

def W24 (c : Dev nD) : Valuation τ sig (Elt F) :=
  Pipeline.withArrays spec8 c (W23 m ρ c) fun w => (dat8 (V23 m ρ) c).arrAt w cfg8.N

theorem W24_arr (c : Dev nD) (w : Fin cfg8.W) :
    W24 m ρ c (Proc.devRef .tc (Pipeline.arrRef spec8 w)) = (dat8 (V23 m ρ) c).arrAt w cfg8.N :=
  Pipeline.withArrays_arr spec8 launch8.win.arr_inj c _ _ w

theorem W24_of_ne (c : Dev nD) (b : Ref sig .tc) (hb : ∀ w, Pipeline.arrRef spec8 w ≠ b) :
    W24 m ρ c (Proc.devRef .tc b) = W23 m ρ c (Proc.devRef .tc b) :=
  Pipeline.withArrays_of_ne spec8 c _ _ b hb

abbrev V24 := atTc (W24 m ρ)

theorem hF8 (c : Dev nD) (w : Fin cfg8.W) : (dat8 (V23 m ρ) c).arrAt w cfg8.N = V24 m ρ c (Pipeline.arrRef spec8 w) :=
  (W24_arr m ρ c w).symm
theorem hrest8 (c : Dev nD) : ∀ b, b ∉ Finset.univ.image (Pipeline.arrRef spec8) → V24 m ρ c b = V23 m ρ c b :=
  fun b hb => W24_of_ne m ρ c b fun w e => hb (Finset.mem_image.mpr ⟨w, Finset.mem_univ _, e⟩)

abbrev W25 : Dev nD → Valuation τ sig (Elt F) := fun c => StableHlo.after hostOps9 (W24 m ρ c)

-- No item after region 1 touches `r`: no later stretch writes it and it is no later region's array.
abbrev Untouched7 (r : Ref sig .tc) : Prop :=
  (∀ w, Pipeline.arrRef spec2 w ≠ r) ∧ r ∉ hostOps3_W ∧ r ∉ hostOps3_1_W ∧ r ∉ hostOps3_2_W ∧
    (∀ w, Pipeline.arrRef spec3 w ≠ r) ∧ r ∉ hostOps4_W ∧ (∀ w, Pipeline.arrRef spec4 w ≠ r) ∧ r ∉ hostOps5_W ∧
    r ∉ hostOps5_1_W ∧ r ∉ hostOps5_2_W ∧ (∀ w, Pipeline.arrRef spec5 w ≠ r) ∧ (∀ w, Pipeline.arrRef spec6 w ≠ r) ∧
    r ∉ hostOps7_W ∧ r ∉ hostOps7_1_W ∧ r ∉ hostOps7_2_W ∧ (∀ w, Pipeline.arrRef spec7 w ≠ r) ∧ r ∉ hostOps8_W ∧
    (∀ w, Pipeline.arrRef spec8 w ≠ r) ∧ r ∉ hostOps9_W

-- From region 1's exit on, such a buffer is kept.
theorem W25_eq_W6 (c : Dev nD) (r : Ref sig .tc) (h : Untouched7 r) :
    W25 m ρ c (Proc.devRef .tc r) = W6 m ρ c (Proc.devRef .tc r) := by
  obtain ⟨h7, h8, h9, h10, h11, h12, h13, h14, h15, h16, h17, h18, h19, h20, h21, h22, h23, h24, h25⟩ := h
  exact (StableHlo.after_of_writes_sub hostOps9 _ hostOps9_writes h25).trans <|
    (W24_of_ne m ρ c r h24).trans <| (W23_keep m ρ c r h23).trans <|
    (W22_of_ne m ρ c r h22).trans <| (W21_keep m ρ c r h21).trans <| (W20_keep m ρ c r h20).trans <|
    (W19_keep m ρ c r h19).trans <| (W18_of_ne m ρ c r h18).trans <| (W17_of_ne m ρ c r h17).trans <|
    (W16_keep m ρ c r h16).trans <| (W15_keep m ρ c r h15).trans <| (W14_keep m ρ c r h14).trans <|
    (W13_of_ne m ρ c r h13).trans <| (W12_keep m ρ c r h12).trans <| (W11_of_ne m ρ c r h11).trans <|
    (W10_keep m ρ c r h10).trans <| (W9_keep m ρ c r h9).trans <| (W8_keep m ρ c r h8).trans <| (W7_of_ne m ρ c r h7)

-- A buffer that no stretch writes and that is no region's array holds its launch contents to the end.
theorem W25_launch (c : Dev nD) (r : Ref sig .tc)
    (h : r ∉ hostOps0_W ∧ (∀ w, Pipeline.arrRef spec0 w ≠ r) ∧ r ∉ hostOps1_W ∧ r ∉ hostOps1_1_W ∧ r ∉ hostOps1_2_W ∧
      (∀ w, Pipeline.arrRef spec1 w ≠ r)) (h' : Untouched7 r) :
    W25 m ρ c (Proc.devRef .tc r) = m ((c : Thread nD τ).loc r) := by
  obtain ⟨h1, h2, h3, h4, h5, h6⟩ := h
  exact (W25_eq_W6 m ρ c r h').trans <| (W6_of_ne m ρ c r h6).trans <| (W5_keep m ρ c r h5).trans <| (W4_keep m ρ c r h4).trans <|
    (W3_keep m ρ c r h3).trans <| (W2_of_ne m ρ c r h2).trans <| (W1_keep m ρ c r h1).trans <| rfl

-- `main_arg0` is an input array of regions 0 and 1 (`W2_in`, `W6_in`); no other item touches it.
theorem W25_main_arg0 (c : Dev nD) : W25 m ρ c (Proc.devRef .tc main_arg0) = m ((c : Thread nD τ).loc main_arg0) :=
  (W25_eq_W6 m ρ c main_arg0 (by decide)).trans <| (W6_in m ρ c 1 rfl).trans <| (W5_keep m ρ c main_arg0 (by decide)).trans <|
  (W4_keep m ρ c main_arg0 (by decide)).trans <| (W3_keep m ρ c main_arg0 (by decide)).trans <| (W2_in m ρ c 0 rfl).trans <|
  (W1_keep m ρ c main_arg0 (by decide)).trans rfl
theorem W25_main_arg1 (c : Dev nD) : W25 m ρ c (Proc.devRef .tc main_arg1) = m ((c : Thread nD τ).loc main_arg1) :=
  W25_launch m ρ c main_arg1 (by decide) (by decide)
theorem W25_main_arg2 (c : Dev nD) : W25 m ρ c (Proc.devRef .tc main_arg2) = m ((c : Thread nD τ).loc main_arg2) :=
  W25_launch m ρ c main_arg2 (by decide) (by decide)
theorem W25_main_arg3 (c : Dev nD) : W25 m ρ c (Proc.devRef .tc main_arg3) = m ((c : Thread nD τ).loc main_arg3) :=
  W25_launch m ρ c main_arg3 (by decide) (by decide)
theorem W25_main_arg4 (c : Dev nD) : W25 m ρ c (Proc.devRef .tc main_arg4) = m ((c : Thread nD τ).loc main_arg4) :=
  W25_launch m ρ c main_arg4 (by decide) (by decide)
theorem W25_main_arg5 (c : Dev nD) : W25 m ρ c (Proc.devRef .tc main_arg5) = m ((c : Thread nD τ).loc main_arg5) :=
  W25_launch m ρ c main_arg5 (by decide) (by decide)
theorem W25_main_arg6 (c : Dev nD) : W25 m ρ c (Proc.devRef .tc main_arg6) = m ((c : Thread nD τ).loc main_arg6) :=
  W25_launch m ρ c main_arg6 (by decide) (by decide)
theorem W25_main_arg7 (c : Dev nD) : W25 m ρ c (Proc.devRef .tc main_arg7) = m ((c : Thread nD τ).loc main_arg7) :=
  W25_launch m ρ c main_arg7 (by decide) (by decide)
theorem W25_main_arg8 (c : Dev nD) : W25 m ρ c (Proc.devRef .tc main_arg8) = m ((c : Thread nD τ).loc main_arg8) :=
  W25_launch m ρ c main_arg8 (by decide) (by decide)
theorem W25_main_arg9 (c : Dev nD) : W25 m ρ c (Proc.devRef .tc main_arg9) = m ((c : Thread nD τ).loc main_arg9) :=
  W25_launch m ρ c main_arg9 (by decide) (by decide)

end Cert.Kernel.Hand

end
-- ==== Proof.K.Regs.lean ====
import proofs.«427383_j1159641169925_2_alg».proof.Proof.K.Fold
import Idealize.ShloMosaic.Lib.Pipeline.RegionsLoop
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
  | ⟨2, _⟩ => fun c => dat2 (V6 m ρ) c
  | ⟨3, _⟩ => fun c => dat3 (V10 m ρ) c
  | ⟨4, _⟩ => fun c => dat4 (V12 m ρ) c
  | ⟨5, _⟩ => fun c => dat5 (V16 m ρ) c
  | ⟨6, _⟩ => fun c => dat6 (V17 m ρ) c
  | ⟨7, _⟩ => fun c => dat7 (V21 m ρ) c
  | ⟨8, _⟩ => fun c => dat8 (V23 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- One region between two contents of the fold: entered holding every buffer at Wi, left holding them at Wo.
def regOf (p : Fin 9) (hl : Pipeline.LaunchFacts (nD := nD) (τ := τ) cfgs p)
    (hb : ∀ c, BodyObligation (pdats m ρ p c) (defs₀ (F := F)) 𝒱₀ () Set.univ)
    (Wi Wo : Dev nD → Valuation τ sig (Elt F))
    (hF : ∀ c w, (pdats m ρ p c).arrAt w (cfgs p).N = Wo c (Pipeline.arrRef (cfgs p).spec w))
    (hrest : ∀ c b, b ∉ Finset.univ.image (Pipeline.arrRef (cfgs p).spec) → Wo c b = Wi c b)
    (hΦ : ∀ c, (pdats m ρ p c).Φ 0 = Pipeline.ΦA (cfgs p).spec c := by exact fun _ => rfl)
    (hΦ' : ∀ c, (pdats m ρ p c).Φ (Fin.last _) ⊢ Pipeline.ΦA (cfgs p).spec c := by exact fun _ => .rfl)
    (hq : ∀ c w, (pdats m ρ p c).q w = fullShare := by exact fun _ _ => rfl)
    (hA : ∀ c w, (pdats m ρ p c).A w = Wi c (Pipeline.arrRef (cfgs p).spec w) := by exact fun _ _ => rfl)
    (h0 : ∀ c t, (pdats m ρ p c).owed t = 0 := by exact fun _ _ => rfl)
    (hr : ∀ c, (pdats m ρ p c).recorded 0 = Set.univ := by exact fun _ => rfl) :
    Pipeline.RegionSeg (pcfgs (F := F)) adm (pdats m ρ) () defs₀ 𝒱₀ L lv p where
  win := hl.win.to₀
  block_pos := hl.block_pos
  stage_whole := hl.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m ρ) hl.win hl.arr_whole c
      ((pdats m ρ p c).share_full (hq c)) (fun b => Wi c b) (hA c)
    rw [Pipeline.unscopedBufs_held] at hsplit
    unfold Pipeline.Dat.owesAt Pipeline.owesWithin Pipeline.Dat.bound Pipeline.prefHeld
    rw [h0 c, hr c, show (Finset.univ : Finset (Fin 0)) = ∅ from rfl, BI.bigSep_empty]
    iintro ⟨⟨Hub, Hp, %W, HO⟩, -, -⟩
    ihave H := hsplit $$ Hub
    icases H with ⟨Ha, Hrest⟩
    imodintro
    isplitl [Ha]; · iexact Ha
    isplitr; · iempintro
    isplitl [HO]
    · iexists W; isplitr; · ipureintro; exact fun _ _ => Or.inl trivial
      iexact HO
    isplitl [Hp]; · iexact Hp
    iexact Hrest
  hin c := by
    rw [hΦ c]; unfold Pipeline.ΦA
    iintro ⟨Hp, -, Hr⟩
    isplitl [Hr]; · iexact Hr
    iexact Hp
  hout c := by
    rw [Pipeline.ownSems0_none]
    refine (hΦ' c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c (pdats m ρ) ((pdats m ρ p c).share_full (hq c))
      (fun b => Wi c b) (fun b => Wo c b) ((pdats m ρ p c).arrAt · (cfgs p).N) (hF c) (hrest c)
    rw [Pipeline.unscopedBufs_held] at hjoin
    unfold Pipeline.Dat.owesAt Pipeline.owesWithin
    rw [h0 c]
    iintro ⟨Ha, ⟨%W, -, HO⟩, HY, Hrest⟩
    imodintro
    isplitl [Ha Hrest]
    · iapply hjoin; isplitl [Ha] <;> iassumption
    isplitl [HY]; · iexact HY
    iexists W; iexact HO

def reg0 := regOf m ρ 0 launch0 (body_obligation0 (V1 m ρ)) (W1 m ρ) (W2 m ρ) (hF0 m ρ) (hrest0 m ρ)
def reg1 := regOf m ρ 1 launch1 (body_obligation1 (V5 m ρ)) (W5 m ρ) (W6 m ρ) (hF1 m ρ) (hrest1 m ρ)
def reg2 := regOf m ρ 2 launch2 (body_obligation2 (V6 m ρ)) (W6 m ρ) (W7 m ρ) (hF2 m ρ) (hrest2 m ρ)
def reg3 := regOf m ρ 3 launch3 (body_obligation3 (V10 m ρ)) (W10 m ρ) (W11 m ρ) (hF3 m ρ) (hrest3 m ρ)
def reg4 := regOf m ρ 4 launch4 (body_obligation4 (V12 m ρ)) (W12 m ρ) (W13 m ρ) (hF4 m ρ) (hrest4 m ρ)
def reg5 := regOf m ρ 5 launch5 (body_obligation5 (V16 m ρ)) (W16 m ρ) (W17 m ρ) (hF5 m ρ) (hrest5 m ρ)
def reg6 := regOf m ρ 6 launch6 (body_obligation6 (V17 m ρ)) (W17 m ρ) (W18 m ρ) (hF6 m ρ) (hrest6 m ρ)
def reg7 := regOf m ρ 7 launch7 (body_obligation7 (V21 m ρ)) (W21 m ρ) (W22 m ρ) (hF7 m ρ) (hrest7 m ρ)
def reg8 := regOf m ρ 8 launch8 (body_obligation8 (V23 m ρ)) (W23 m ρ) (W24 m ρ) (hF8 m ρ) (hrest8 m ρ)
  (Phi8_zero (V23 m ρ)) (Phi8_last (V23 m ρ))

end Cert.Kernel.Hand

end
-- ==== Proof.K.Run.lean ====
import proofs.«427383_j1159641169925_2_alg».proof.Proof.K.Regs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .region (reg2 m ρ),
    .host (hseg hostOps3 hostOps3_sub hostOps3_fresh (W7 m ρ)),
    .host (hseg hostOps3_1 hostOps3_1_sub hostOps3_1_fresh (W8 m ρ)),
    .host (hseg hostOps3_2 hostOps3_2_sub hostOps3_2_fresh (W9 m ρ)),
    .region (reg3 m ρ),
    .host (hseg hostOps4 hostOps4_sub hostOps4_fresh (W11 m ρ)),
    .region (reg4 m ρ),
    .host (hseg hostOps5 hostOps5_sub hostOps5_fresh (W13 m ρ)),
    .host (hseg hostOps5_1 hostOps5_1_sub hostOps5_1_fresh (W14 m ρ)),
    .host (hseg hostOps5_2 hostOps5_2_sub hostOps5_2_fresh (W15 m ρ)),
    .region (reg5 m ρ),
    .region (reg6 m ρ),
    .host (hseg hostOps7 hostOps7_sub hostOps7_fresh (W18 m ρ)),
    .host (hseg hostOps7_1 hostOps7_1_sub hostOps7_1_fresh (W19 m ρ)),
    .host (hseg hostOps7_2 hostOps7_2_sub hostOps7_2_fresh (W20 m ρ)),
    .region (reg7 m ρ),
    .host (hseg hostOps8 hostOps8_sub hostOps8_fresh (W22 m ρ)),
    .region (reg8 m ρ),
    .host (hseg hostOps9 hostOps9_sub hostOps9_fresh (W24 m ρ)) ]

-- @main is the run of its 25 segments: both are the chain of the same 25 items.
theorem main_run (c : Dev nD) : main (F := F) c = Pipeline.Seg.run (segs m ρ) :=
  (main_chain c).trans (Pipeline.Seg.run_eq_chain (segs m ρ)).symm

abbrev Tₙ (c : Dev nD) : sProp 𝕄 := iprop(StableHlo.held (c : Thread nD τ) (Pipeline.ucRefs τ sig) (W25 m ρ c) ∗ ∃ r, prngReg c r)

-- Every weakly fair execution of @main terminates, and each unscoped buffer of each core ends at `W25`.
set_option backward.isDefEq.respectTransparency.types false in
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W25 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := by
      repeat refine ⟨fun _ => .rfl, ?_⟩
      exact fun _ => sep_assoc')
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := hQ)

theorem run_all : θ_run defs (onTc (τ := τ) (main (F := F))) ⟨m, fun _ => 0, ρ⟩
    (fun r => ∀ c : Dev nD, ∀ b ∈ Pipeline.ucRefs τ sig, r.2.mem (((c : Thread nD τ)).1, b) = W25 m ρ c b) :=
  run_post m ρ fun _ h => h

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_post m ρ fun s h c =>
    have k (r : Ref sig .tc) hr (e : W25 m ρ c (Proc.devRef .tc r) = m ((c : Thread nD τ).loc r)) := (h c _ (mem_uc r hr)).trans e
    ⟨k main_arg0 (by decide) (W25_main_arg0 m ρ c),
    k main_arg1 (by decide) (W25_main_arg1 m ρ c),
    k main_arg2 (by decide) (W25_main_arg2 m ρ c),
    k main_arg3 (by decide) (W25_main_arg3 m ρ c),
    k main_arg4 (by decide) (W25_main_arg4 m ρ c),
    k main_arg5 (by decide) (W25_main_arg5 m ρ c),
    k main_arg6 (by decide) (W25_main_arg6 m ρ c),
    k main_arg7 (by decide) (W25_main_arg7 m ρ c),
    k main_arg8 (by decide) (W25_main_arg8 m ρ c),
    k main_arg9 (by decide) (W25_main_arg9 m ρ c)⟩

end Cert.Kernel.Hand

end
-- ==== Proof.KI.RegNT0.lean ====
import proofs.«427383_j1159641169925_2_alg».proof.Proof.Gen.KernelIdeal.Launch
import proofs.«427383_j1159641169925_2_alg».proof.Proof.Gen.KernelIdeal.Skeleton
import proofs.«427383_j1159641169925_2_alg».proof.Proof.Gen.KernelIdeal.Points
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe
open Idealize.SL.RA Idealize.SL.BI Idealize.SL.BI.BIBase Idealize.SL.Sem
open scoped Idealize.SL.BI
open Idealize.ShloMosaic.Pipeline (Dat BodyObligation)

variable {F : FTy → Type} [FloatOps F]
  (V : (c : Dev nD) → (b : Ref sig .tc) → Buf (Elt F) ((c : Thread nD τ).loc b))

def iblk0 (c : Dev nD) (w : Fin cfg0.W) (t : Fin cfg0.N) :=
  ((cfg0.win w).blk t).view.read (Elt F) (V c (Pipeline.arrRef spec0 w))

-- the body leaves the inputs as they were and their product in the output
theorem sound_kernel0 (c : Dev nD) (x0 : Vec F S1000x512 .f32) (x1 : Vec F S512x2048 .bf16) (i : grid0.Coords)
    (arg1 : Memref sig .tc .vmem S1000x512 .f32) (harg1 : arg1.IsWhole) (arg2 : Memref sig .tc .vmem S512x2048 .bf16) (harg2 : arg2.IsWhole)
    (arg3 : Memref sig .tc .vmem S1000x2048 .f32) (harg3 : arg3.IsWhole) (K : PUnit → sProp (MT nD τ sig Unit (Elt F) ℕ (UR sig nD τ) ℕ)) :
    iprop(owns c.tc arg1 fullShare x0 ∗ owns c.tc arg2 fullShare x1 ∗ (∃ d, owns c.tc arg3 fullShare d)
        ∗ (iprop(owns c.tc arg1 fullShare x0 ∗ owns c.tc arg2 fullShare x1
            ∗ owns c.tc arg3 fullShare (k0_pay1 x0 x1)) -∗ K ⟨⟩))
      ⊢ wp frame (wpE defs₀ Variants.none c none) Set.univ (cc0_node_transform_kernel i arg1 harg1 arg2 harg2 arg3 harg3) K := by
  sl_unfold [cc0_node_transform_kernel]; unfold owns
  iintro ⟨⟨%f0, %hf0, H0⟩, ⟨%f1, %hf1, H1⟩, ⟨%d2, %f2, -, H2⟩, Hk⟩
  subst hf0 hf1
  sl_exec!
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_junk_eq_canon _ _).trans ((View.canon_unit_zero (by decide) _ _).trans
    (congrArg₂ k0_pay1 (View.ld_unit_zero (by decide) _ _) (View.ld_unit_zero (by decide) _ _)))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

-- at every point the inputs are the point's blocks of the two arrays, so the body's triple applies to them
theorem body_obligation0 (c : Dev nD) : BodyObligation (dat0 V c) defs₀ Variants.none () Set.univ := fun t => by
  have b0 : ∀ d, (dat0 V c).before 0 t d = iblk0 V c 0 t :=
    (dat0 V c).before_in_eq_fetched 0 rfl (fun _ => rfl) (fun _ _ _ => rfl) (fun _ => rfl) t
  have b1 : ∀ d, (dat0 V c).before 1 t d = iblk0 V c 1 t :=
    (dat0 V c).before_in_eq_fetched 1 rfl (fun _ => rfl) (fun _ _ _ => rfl) (fun _ => rfl) t
  rw [bigSep_W0, bigSep_W0]
  simp only [b0, b1]
  dsimp only [dat0, Dat.owesAt, Dat.bound]
  sl_whnfR [defs₀, Defs.onTc]
  iintro ⟨HΦ, Ho, ⟨%_, H0⟩, ⟨%_, H1⟩, %_, H2⟩
  iapply sound_kernel0 c (iblk0 V c 0 t) (iblk0 V c 1 t)
  iframe H0 H1
  isplitl [H2]; · iexists _; iexact H2
  iintro H
  iframe

end Cert.KernelIdeal.Hand
-- ==== Proof.KI.RegGRU1.lean ====
import proofs.«427383_j1159641169925_2_alg».proof.Proof.Gen.KernelIdeal.Launch
import proofs.«427383_j1159641169925_2_alg».proof.Proof.Gen.KernelIdeal.Skeleton
import proofs.«427383_j1159641169925_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1000x512 := Rect.unit (s := S1000x512) ![0, 0] S1000x512.size inb_S1000x512_S1000x512_0_0
abbrev r1_1 : Rect S512x1536 := Rect.unit (s := S512x1536) ![0, 0] S512x1536.size inb_S512x1536_S512x1536_0_0
abbrev r1_2 : Rect S1x1536 := Rect.unit (s := S1x1536) ![0, 0] S1x1536.size inb_S1x1536_S1x1536_0_0

/-- What the body leaves in the output buffer, as a function of the six input buffers' contents. -/
def out1_6 (x0 x1 : Vec F S1000x512 .f32) (x2 x3 : Vec F S512x1536 .bf16) (x4 x5 : Vec F S1x1536 .f32) : Vec F S1000x512 .f32 :=
  View.canon [⟨r1_0, k1_pay1 (View.ld x0 r1_0) (View.ld x1 r1_0) (View.ld x2 r1_1) (View.ld x3 r1_1) (View.ld x4 r1_2) (View.ld x5 r1_2)⟩]

theorem cover1_6 (p0 : Vec F S1000x512 .f32) (y : S1000x512.Idx) :
    ∃ pc ∈ ([⟨r1_0, p0⟩] : List (View.Piece (Elt F) S1000x512 .f32)), y ∈ pc.1.set :=
  View.cover_of_tiled [⟨r1_0, p0⟩] S1000x512.size (by rfl) y

set_option maxHeartbeats 1000000 in
/-- The body returns its six inputs as read and leaves the output at `out1_6` of them: its one store covers the buffer. -/
theorem sound_kernel1 (c : Dev nD) (E : Set ℕ) {i : grid1.Coords}
    {arg1 arg2 arg7 : Memref sig .tc .vmem S1000x512 .f32} {arg3 arg4 : Memref sig .tc .vmem S512x1536 .bf16}
    {arg5 arg6 : Memref sig .tc .vmem S1x1536 .f32} {harg1 : arg1.IsWhole} {harg2 : arg2.IsWhole} {harg3 : arg3.IsWhole}
    {harg4 : arg4.IsWhole} {harg5 : arg5.IsWhole} {harg6 : arg6.IsWhole} {harg7 : arg7.IsWhole}
    {x0 x1 : Vec F S1000x512 .f32} {x2 x3 : Vec F S512x1536 .bf16} {x4 x5 : Vec F S1x1536 .f32} {K : PUnit → sProp 𝕄} :
    iprop(owns c.tc arg1 fullShare x0 ∗ owns c.tc arg2 fullShare x1
        ∗ owns c.tc arg3 fullShare x2 ∗ owns c.tc arg4 fullShare x3
        ∗ owns c.tc arg5 fullShare x4 ∗ owns c.tc arg6 fullShare x5
        ∗ (∃ d, owns c.tc arg7 fullShare d)
        ∗ (iprop(owns c.tc arg1 fullShare x0 ∗ owns c.tc arg2 fullShare x1
            ∗ owns c.tc arg3 fullShare x2 ∗ owns c.tc arg4 fullShare x3
            ∗ owns c.tc arg5 fullShare x4 ∗ owns c.tc arg6 fullShare x5
            ∗ owns c.tc arg7 fullShare (out1_6 x0 x1 x2 x3 x4 x5)) -∗ K ⟨⟩))
      ⊢ wp frame (wpE (defs₀ (F := F)) Variants.none c none) E
          (cc1_gru_kernel i arg1 harg1 arg2 harg2 arg3 harg3 arg4 harg4 arg5 harg5 arg6 harg6 arg7 harg7) K := by
  simp only [cc1_gru_kernel_eq_skeleton]; unfold cc1_gru_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  isplitl [H5]; · iexists f5; iframe; ipureintro; rfl
  iexists _; isplitr
  swap; · iexact H6
  ipureintro
  exact View.read_writes_eq_canon _ _ _ (cover1_6 _)

/-- The region's proof data: arrays as found, each input buffer left at its block, the output's at `out1_6` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t =
    out1_6 (iblk1 V c 0 t) (iblk1 V c 1 t) (iblk1 V c 2 t) (iblk1 V c 3 t) (iblk1 V c 4 t) (iblk1 V c 5 t) := by dsimp only [dat1]

/-- The body leaves each input's block in place, so before the body an input's buffer already holds what it holds after. -/
theorem before1 (c : Dev nD) {w : Fin cfg1.W} (hw : w ≠ 6) (t : Fin cfg1.N) (d) : (dat1 V c).before w t d = (dat1 V c).after w t := by
  fin_cases w <;> first
    | exact absurd rfl hw
    | exact ((dat1 V c).before_in_eq_fetched _ rfl (fun _ => rfl) (fun _ _ _ => rfl) (fun _ => rfl) t d).trans rfl

/-- At every point the inputs' buffers hold their blocks, so the body's triple applies; invariant and debts pass through unread. -/
theorem body_obligation1 (c : Dev nD) : BodyObligation (dat1 (F := F) V c) (defs₀ (F := F)) Variants.none () Set.univ := fun t => by
  rw [bigSep_W1, bigSep_W1, show (dat1 V c).owesAt () t.succ = (dat1 V c).owesAt () t.castSucc from rfl]
  simp (disch := decide) only [before1 V c]
  dsimp only [dat1]
  sl_whnfR [defs₀, Defs.onTc]
  iintro ⟨HΦ, Ho, ⟨%_, H0⟩, ⟨%_, H1⟩, ⟨%_, H2⟩, ⟨%_, H3⟩, ⟨%_, H4⟩, ⟨%_, H5⟩, %_, H6⟩
  iapply sound_kernel1 c Set.univ
  iframe
  isplitl [H6]; · iexists _; iexact H6
  iintro H; iexact H

end Cert.KernelIdeal.Hand
-- ==== Proof.KI.RegNT2.lean ====
import proofs.«427383_j1159641169925_2_alg».proof.Proof.Gen.KernelIdeal.Launch
import proofs.«427383_j1159641169925_2_alg».proof.Proof.Gen.KernelIdeal.Skeleton
import proofs.«427383_j1159641169925_2_alg».proof.Proof.Gen.KernelIdeal.Points
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe
open Idealize.SL.RA Idealize.SL.BI Idealize.SL.BI.BIBase Idealize.SL.Sem
open scoped Idealize.SL.BI
open Idealize.ShloMosaic.Pipeline (Dat BodyObligation)

variable {F : FTy → Type} [FloatOps F]
  (V : (c : Dev nD) → (b : Ref sig .tc) → Buf (Elt F) ((c : Thread nD τ).loc b))

def iblk2 (c : Dev nD) (w : Fin cfg2.W) (t : Fin cfg2.N) :=
  ((cfg2.win w).blk t).view.read (Elt F) (V c (Pipeline.arrRef spec2 w))

-- the body leaves the inputs as they were and their product in the output
theorem sound_kernel2 (c : Dev nD) (x0 : Vec F S1000x512 .f32) (x1 : Vec F S512x2048 .bf16) (i : grid2.Coords)
    (arg1 : Memref sig .tc .vmem S1000x512 .f32) (harg1 : arg1.IsWhole) (arg2 : Memref sig .tc .vmem S512x2048 .bf16) (harg2 : arg2.IsWhole)
    (arg3 : Memref sig .tc .vmem S1000x2048 .f32) (harg3 : arg3.IsWhole) (K : PUnit → sProp (MT nD τ sig Unit (Elt F) ℕ (UR sig nD τ) ℕ)) :
    iprop(owns c.tc arg1 fullShare x0 ∗ owns c.tc arg2 fullShare x1 ∗ (∃ d, owns c.tc arg3 fullShare d)
        ∗ (iprop(owns c.tc arg1 fullShare x0 ∗ owns c.tc arg2 fullShare x1
            ∗ owns c.tc arg3 fullShare (k2_pay1 x0 x1)) -∗ K ⟨⟩))
      ⊢ wp frame (wpE defs₀ Variants.none c none) Set.univ (cc2_node_transform_kernel i arg1 harg1 arg2 harg2 arg3 harg3) K := by
  sl_unfold [cc2_node_transform_kernel]; unfold owns
  iintro ⟨⟨%f0, %hf0, H0⟩, ⟨%f1, %hf1, H1⟩, ⟨%d2, %f2, -, H2⟩, Hk⟩
  subst hf0 hf1
  sl_exec!
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_junk_eq_canon _ _).trans ((View.canon_unit_zero (by decide) _ _).trans
    (congrArg₂ k2_pay1 (View.ld_unit_zero (by decide) _ _) (View.ld_unit_zero (by decide) _ _)))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay1 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := rfl

-- at every point the inputs are the point's blocks of the two arrays, so the body's triple applies to them
theorem body_obligation2 (c : Dev nD) : BodyObligation (dat2 V c) defs₀ Variants.none () Set.univ := fun t => by
  have b0 : ∀ d, (dat2 V c).before 0 t d = iblk2 V c 0 t :=
    (dat2 V c).before_in_eq_fetched 0 rfl (fun _ => rfl) (fun _ _ _ => rfl) (fun _ => rfl) t
  have b1 : ∀ d, (dat2 V c).before 1 t d = iblk2 V c 1 t :=
    (dat2 V c).before_in_eq_fetched 1 rfl (fun _ => rfl) (fun _ _ _ => rfl) (fun _ => rfl) t
  rw [bigSep_W2, bigSep_W2]
  simp only [b0, b1]
  dsimp only [dat2, Dat.owesAt, Dat.bound]
  sl_whnfR [defs₀, Defs.onTc]
  iintro ⟨HΦ, Ho, ⟨%_, H0⟩, ⟨%_, H1⟩, %_, H2⟩
  iapply sound_kernel2 c (iblk2 V c 0 t) (iblk2 V c 1 t)
  iframe H0 H1
  isplitl [H2]; · iexists _; iexact H2
  iintro H
  iframe

end Cert.KernelIdeal.Hand
-- ==== Proof.KI.RegGRU3.lean ====
import proofs.«427383_j1159641169925_2_alg».proof.Proof.Gen.KernelIdeal.Launch
import proofs.«427383_j1159641169925_2_alg».proof.Proof.Gen.KernelIdeal.Skeleton
import proofs.«427383_j1159641169925_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S1000x512 := Rect.unit (s := S1000x512) ![0, 0] S1000x512.size inb_S1000x512_S1000x512_0_0
abbrev r3_1 : Rect S512x1536 := Rect.unit (s := S512x1536) ![0, 0] S512x1536.size inb_S512x1536_S512x1536_0_0
abbrev r3_2 : Rect S1x1536 := Rect.unit (s := S1x1536) ![0, 0] S1x1536.size inb_S1x1536_S1x1536_0_0

/-- What the body leaves in the output buffer, as a function of the six input buffers' contents. -/
def out3_6 (x0 x1 : Vec F S1000x512 .f32) (x2 x3 : Vec F S512x1536 .bf16) (x4 x5 : Vec F S1x1536 .f32) : Vec F S1000x512 .f32 :=
  View.canon [⟨r3_0, k3_pay1 (View.ld x0 r3_0) (View.ld x1 r3_0) (View.ld x2 r3_1) (View.ld x3 r3_1) (View.ld x4 r3_2) (View.ld x5 r3_2)⟩]

theorem cover3_6 (p0 : Vec F S1000x512 .f32) (y : S1000x512.Idx) :
    ∃ pc ∈ ([⟨r3_0, p0⟩] : List (View.Piece (Elt F) S1000x512 .f32)), y ∈ pc.1.set :=
  View.cover_of_tiled [⟨r3_0, p0⟩] S1000x512.size (by rfl) y

set_option maxHeartbeats 1000000 in
/-- The body returns its six inputs as read and leaves the output at `out3_6` of them: its one store covers the buffer. -/
theorem sound_kernel3 (c : Dev nD) (E : Set ℕ) {i : grid3.Coords}
    {arg1 arg2 arg7 : Memref sig .tc .vmem S1000x512 .f32} {arg3 arg4 : Memref sig .tc .vmem S512x1536 .bf16}
    {arg5 arg6 : Memref sig .tc .vmem S1x1536 .f32} {harg1 : arg1.IsWhole} {harg2 : arg2.IsWhole} {harg3 : arg3.IsWhole}
    {harg4 : arg4.IsWhole} {harg5 : arg5.IsWhole} {harg6 : arg6.IsWhole} {harg7 : arg7.IsWhole}
    {x0 x1 : Vec F S1000x512 .f32} {x2 x3 : Vec F S512x1536 .bf16} {x4 x5 : Vec F S1x1536 .f32} {K : PUnit → sProp 𝕄} :
    iprop(owns c.tc arg1 fullShare x0 ∗ owns c.tc arg2 fullShare x1
        ∗ owns c.tc arg3 fullShare x2 ∗ owns c.tc arg4 fullShare x3
        ∗ owns c.tc arg5 fullShare x4 ∗ owns c.tc arg6 fullShare x5
        ∗ (∃ d, owns c.tc arg7 fullShare d)
        ∗ (iprop(owns c.tc arg1 fullShare x0 ∗ owns c.tc arg2 fullShare x1
            ∗ owns c.tc arg3 fullShare x2 ∗ owns c.tc arg4 fullShare x3
            ∗ owns c.tc arg5 fullShare x4 ∗ owns c.tc arg6 fullShare x5
            ∗ owns c.tc arg7 fullShare (out3_6 x0 x1 x2 x3 x4 x5)) -∗ K ⟨⟩))
      ⊢ wp frame (wpE (defs₀ (F := F)) Variants.none c none) E
          (cc3_gru_kernel i arg1 harg1 arg2 harg2 arg3 harg3 arg4 harg4 arg5 harg5 arg6 harg6 arg7 harg7) K := by
  simp only [cc3_gru_kernel_eq_skeleton]; unfold cc3_gru_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  isplitl [H5]; · iexists f5; iframe; ipureintro; rfl
  iexists _; isplitr
  swap; · iexact H6
  ipureintro
  exact View.read_writes_eq_canon _ _ _ (cover3_6 _)

/-- The region's proof data: arrays as found, each input buffer left at its block, the output's at `out3_6` of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t =
    out3_6 (iblk3 V c 0 t) (iblk3 V c 1 t) (iblk3 V c 2 t) (iblk3 V c 3 t) (iblk3 V c 4 t) (iblk3 V c 5 t) := by dsimp only [dat3]

/-- The body leaves each input's block in place, so before the body an input's buffer already holds what it holds after. -/
theorem before3 (c : Dev nD) {w : Fin cfg3.W} (hw : w ≠ 6) (t : Fin cfg3.N) (d) : (dat3 V c).before w t d = (dat3 V c).after w t := by
  fin_cases w <;> first
    | exact absurd rfl hw
    | exact ((dat3 V c).before_in_eq_fetched _ rfl (fun _ => rfl) (fun _ _ _ => rfl) (fun _ => rfl) t d).trans rfl

/-- At every point the inputs' buffers hold their blocks, so the body's triple applies; invariant and debts pass through unread. -/
theorem body_obligation3 (c : Dev nD) : BodyObligation (dat3 (F := F) V c) (defs₀ (F := F)) Variants.none () Set.univ := fun t => by
  rw [bigSep_W3, bigSep_W3, show (dat3 V c).owesAt () t.succ = (dat3 V c).owesAt () t.castSucc from rfl]
  simp (disch := decide) only [before3 V c]
  dsimp only [dat3]
  sl_whnfR [defs₀, Defs.onTc]
  iintro ⟨HΦ, Ho, ⟨%_, H0⟩, ⟨%_, H1⟩, ⟨%_, H2⟩, ⟨%_, H3⟩, ⟨%_, H4⟩, ⟨%_, H5⟩, %_, H6⟩
  iapply sound_kernel3 c Set.univ
  iframe
  isplitl [H6]; · iexists _; iexact H6
  iintro H; iexact H

end Cert.KernelIdeal.Hand
-- ==== Proof.KI.RegNT4.lean ====
import proofs.«427383_j1159641169925_2_alg».proof.Proof.Gen.KernelIdeal.Launch
import proofs.«427383_j1159641169925_2_alg».proof.Proof.Gen.KernelIdeal.Skeleton
import proofs.«427383_j1159641169925_2_alg».proof.Proof.Gen.KernelIdeal.Points
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe
open Idealize.SL.RA Idealize.SL.BI Idealize.SL.BI.BIBase Idealize.SL.Sem
open scoped Idealize.SL.BI
open Idealize.ShloMosaic.Pipeline (Dat BodyObligation)

variable {F : FTy → Type} [FloatOps F]
  (V : (c : Dev nD) → (b : Ref sig .tc) → Buf (Elt F) ((c : Thread nD τ).loc b))

def iblk4 (c : Dev nD) (w : Fin cfg4.W) (t : Fin cfg4.N) :=
  ((cfg4.win w).blk t).view.read (Elt F) (V c (Pipeline.arrRef spec4 w))

-- the body leaves the inputs as they were and their product in the output
theorem sound_kernel4 (c : Dev nD) (x0 : Vec F S1000x512 .f32) (x1 : Vec F S512x2048 .bf16) (i : grid4.Coords)
    (arg1 : Memref sig .tc .vmem S1000x512 .f32) (harg1 : arg1.IsWhole) (arg2 : Memref sig .tc .vmem S512x2048 .bf16) (harg2 : arg2.IsWhole)
    (arg3 : Memref sig .tc .vmem S1000x2048 .f32) (harg3 : arg3.IsWhole) (K : PUnit → sProp (MT nD τ sig Unit (Elt F) ℕ (UR sig nD τ) ℕ)) :
    iprop(owns c.tc arg1 fullShare x0 ∗ owns c.tc arg2 fullShare x1 ∗ (∃ d, owns c.tc arg3 fullShare d)
        ∗ (iprop(owns c.tc arg1 fullShare x0 ∗ owns c.tc arg2 fullShare x1
            ∗ owns c.tc arg3 fullShare (k4_pay1 x0 x1)) -∗ K ⟨⟩))
      ⊢ wp frame (wpE defs₀ Variants.none c none) Set.univ (cc4_node_transform_kernel i arg1 harg1 arg2 harg2 arg3 harg3) K := by
  sl_unfold [cc4_node_transform_kernel]; unfold owns
  iintro ⟨⟨%f0, %hf0, H0⟩, ⟨%f1, %hf1, H1⟩, ⟨%d2, %f2, -, H2⟩, Hk⟩
  subst hf0 hf1
  sl_exec!
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_junk_eq_canon _ _).trans ((View.canon_unit_zero (by decide) _ _).trans
    (congrArg₂ k4_pay1 (View.ld_unit_zero (by decide) _ _) (View.ld_unit_zero (by decide) _ _)))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay1 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := rfl

-- at every point the inputs are the point's blocks of the two arrays, so the body's triple applies to them
theorem body_obligation4 (c : Dev nD) : BodyObligation (dat4 V c) defs₀ Variants.none () Set.univ := fun t => by
  have b0 : ∀ d, (dat4 V c).before 0 t d = iblk4 V c 0 t :=
    (dat4 V c).before_in_eq_fetched 0 rfl (fun _ => rfl) (fun _ _ _ => rfl) (fun _ => rfl) t
  have b1 : ∀ d, (dat4 V c).before 1 t d = iblk4 V c 1 t :=
    (dat4 V c).before_in_eq_fetched 1 rfl (fun _ => rfl) (fun _ _ _ => rfl) (fun _ => rfl) t
  rw [bigSep_W4, bigSep_W4]
  simp only [b0, b1]
  dsimp only [dat4, Dat.owesAt, Dat.bound]
  sl_whnfR [defs₀, Defs.onTc]
  iintro ⟨HΦ, Ho, ⟨%_, H0⟩, ⟨%_, H1⟩, %_, H2⟩
  iapply sound_kernel4 c (iblk4 V c 0 t) (iblk4 V c 1 t)
  iframe H0 H1
  isplitl [H2]; · iexists _; iexact H2
  iintro H
  iframe

end Cert.KernelIdeal.Hand
-- ==== Proof.KI.RegGRU5.lean ====
import proofs.«427383_j1159641169925_2_alg».proof.Proof.Gen.KernelIdeal.Launch
import proofs.«427383_j1159641169925_2_alg».proof.Proof.Gen.KernelIdeal.Skeleton
import proofs.«427383_j1159641169925_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S1000x512 := Rect.unit (s := S1000x512) ![0, 0] S1000x512.size inb_S1000x512_S1000x512_0_0
abbrev r5_1 : Rect S512x1536 := Rect.unit (s := S512x1536) ![0, 0] S512x1536.size inb_S512x1536_S512x1536_0_0
abbrev r5_2 : Rect S1x1536 := Rect.unit (s := S1x1536) ![0, 0] S1x1536.size inb_S1x1536_S1x1536_0_0

/-- What the body leaves in the output buffer, as a function of the six input buffers' contents. -/
def out5_6 (x0 x1 : Vec F S1000x512 .f32) (x2 x3 : Vec F S512x1536 .bf16) (x4 x5 : Vec F S1x1536 .f32) : Vec F S1000x512 .f32 :=
  View.canon [⟨r5_0, k5_pay1 (View.ld x0 r5_0) (View.ld x1 r5_0) (View.ld x2 r5_1) (View.ld x3 r5_1) (View.ld x4 r5_2) (View.ld x5 r5_2)⟩]

theorem cover5_6 (p0 : Vec F S1000x512 .f32) (y : S1000x512.Idx) :
    ∃ pc ∈ ([⟨r5_0, p0⟩] : List (View.Piece (Elt F) S1000x512 .f32)), y ∈ pc.1.set :=
  View.cover_of_tiled [⟨r5_0, p0⟩] S1000x512.size (by rfl) y

set_option maxHeartbeats 1000000 in
/-- The body returns its six inputs as read and leaves the output at `out5_6` of them: its one store covers the buffer. -/
theorem sound_kernel5 (c : Dev nD) (E : Set ℕ) {i : grid5.Coords}
    {arg1 arg2 arg7 : Memref sig .tc .vmem S1000x512 .f32} {arg3 arg4 : Memref sig .tc .vmem S512x1536 .bf16}
    {arg5 arg6 : Memref sig .tc .vmem S1x1536 .f32} {harg1 : arg1.IsWhole} {harg2 : arg2.IsWhole} {harg3 : arg3.IsWhole}
    {harg4 : arg4.IsWhole} {harg5 : arg5.IsWhole} {harg6 : arg6.IsWhole} {harg7 : arg7.IsWhole}
    {x0 x1 : Vec F S1000x512 .f32} {x2 x3 : Vec F S512x1536 .bf16} {x4 x5 : Vec F S1x1536 .f32} {K : PUnit → sProp 𝕄} :
    iprop(owns c.tc arg1 fullShare x0 ∗ owns c.tc arg2 fullShare x1
        ∗ owns c.tc arg3 fullShare x2 ∗ owns c.tc arg4 fullShare x3
        ∗ owns c.tc arg5 fullShare x4 ∗ owns c.tc arg6 fullShare x5
        ∗ (∃ d, owns c.tc arg7 fullShare d)
        ∗ (iprop(owns c.tc arg1 fullShare x0 ∗ owns c.tc arg2 fullShare x1
            ∗ owns c.tc arg3 fullShare x2 ∗ owns c.tc arg4 fullShare x3
            ∗ owns c.tc arg5 fullShare x4 ∗ owns c.tc arg6 fullShare x5
            ∗ owns c.tc arg7 fullShare (out5_6 x0 x1 x2 x3 x4 x5)) -∗ K ⟨⟩))
      ⊢ wp frame (wpE (defs₀ (F := F)) Variants.none c none) E
          (cc5_gru_kernel i arg1 harg1 arg2 harg2 arg3 harg3 arg4 harg4 arg5 harg5 arg6 harg6 arg7 harg7) K := by
  simp only [cc5_gru_kernel_eq_skeleton]; unfold cc5_gru_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  isplitl [H5]; · iexists f5; iframe; ipureintro; rfl
  iexists _; isplitr
  swap; · iexact H6
  ipureintro
  exact View.read_writes_eq_canon _ _ _ (cover5_6 _)

/-- The region's proof data: arrays as found, each input buffer left at its block, the output's at `out5_6` of the input blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_6 (c : Dev nD) (t : Fin cfg5.N) : (dat5 V c).after 6 t =
    out5_6 (iblk5 V c 0 t) (iblk5 V c 1 t) (iblk5 V c 2 t) (iblk5 V c 3 t) (iblk5 V c 4 t) (iblk5 V c 5 t) := by dsimp only [dat5]

/-- The body leaves each input's block in place, so before the body an input's buffer already holds what it holds after. -/
theorem before5 (c : Dev nD) {w : Fin cfg5.W} (hw : w ≠ 6) (t : Fin cfg5.N) (d) : (dat5 V c).before w t d = (dat5 V c).after w t := by
  fin_cases w <;> first
    | exact absurd rfl hw
    | exact ((dat5 V c).before_in_eq_fetched _ rfl (fun _ => rfl) (fun _ _ _ => rfl) (fun _ => rfl) t d).trans rfl

/-- At every point the inputs' buffers hold their blocks, so the body's triple applies; invariant and debts pass through unread. -/
theorem body_obligation5 (c : Dev nD) : BodyObligation (dat5 (F := F) V c) (defs₀ (F := F)) Variants.none () Set.univ := fun t => by
  rw [bigSep_W5, bigSep_W5, show (dat5 V c).owesAt () t.succ = (dat5 V c).owesAt () t.castSucc from rfl]
  simp (disch := decide) only [before5 V c]
  dsimp only [dat5]
  sl_whnfR [defs₀, Defs.onTc]
  iintro ⟨HΦ, Ho, ⟨%_, H0⟩, ⟨%_, H1⟩, ⟨%_, H2⟩, ⟨%_, H3⟩, ⟨%_, H4⟩, ⟨%_, H5⟩, %_, H6⟩
  iapply sound_kernel5 c Set.univ
  iframe
  isplitl [H6]; · iexists _; iexact H6
  iintro H; iexact H

end Cert.KernelIdeal.Hand
-- ==== Proof.KI.RegNT6.lean ====
import proofs.«427383_j1159641169925_2_alg».proof.Proof.Gen.KernelIdeal.Launch
import proofs.«427383_j1159641169925_2_alg».proof.Proof.Gen.KernelIdeal.Skeleton
import proofs.«427383_j1159641169925_2_alg».proof.Proof.Gen.KernelIdeal.Points
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe
open Idealize.SL.RA Idealize.SL.BI Idealize.SL.BI.BIBase Idealize.SL.Sem
open scoped Idealize.SL.BI
open Idealize.ShloMosaic.Pipeline (Dat BodyObligation)

variable {F : FTy → Type} [FloatOps F]
  (V : (c : Dev nD) → (b : Ref sig .tc) → Buf (Elt F) ((c : Thread nD τ).loc b))

def iblk6 (c : Dev nD) (w : Fin cfg6.W) (t : Fin cfg6.N) :=
  ((cfg6.win w).blk t).view.read (Elt F) (V c (Pipeline.arrRef spec6 w))

-- the body leaves the inputs as they were and their product in the output
theorem sound_kernel6 (c : Dev nD) (x0 : Vec F S1000x512 .f32) (x1 : Vec F S512x2048 .bf16) (i : grid6.Coords)
    (arg1 : Memref sig .tc .vmem S1000x512 .f32) (harg1 : arg1.IsWhole) (arg2 : Memref sig .tc .vmem S512x2048 .bf16) (harg2 : arg2.IsWhole)
    (arg3 : Memref sig .tc .vmem S1000x2048 .f32) (harg3 : arg3.IsWhole) (K : PUnit → sProp (MT nD τ sig Unit (Elt F) ℕ (UR sig nD τ) ℕ)) :
    iprop(owns c.tc arg1 fullShare x0 ∗ owns c.tc arg2 fullShare x1 ∗ (∃ d, owns c.tc arg3 fullShare d)
        ∗ (iprop(owns c.tc arg1 fullShare x0 ∗ owns c.tc arg2 fullShare x1
            ∗ owns c.tc arg3 fullShare (k6_pay1 x0 x1)) -∗ K ⟨⟩))
      ⊢ wp frame (wpE defs₀ Variants.none c none) Set.univ (cc6_node_transform_kernel i arg1 harg1 arg2 harg2 arg3 harg3) K := by
  sl_unfold [cc6_node_transform_kernel]; unfold owns
  iintro ⟨⟨%f0, %hf0, H0⟩, ⟨%f1, %hf1, H1⟩, ⟨%d2, %f2, -, H2⟩, Hk⟩
  subst hf0 hf1
  sl_exec!
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_junk_eq_canon _ _).trans ((View.canon_unit_zero (by decide) _ _).trans
    (congrArg₂ k6_pay1 (View.ld_unit_zero (by decide) _ _) (View.ld_unit_zero (by decide) _ _)))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => k6_pay1 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := rfl

-- at every point the inputs are the point's blocks of the two arrays, so the body's triple applies to them
theorem body_obligation6 (c : Dev nD) : BodyObligation (dat6 V c) defs₀ Variants.none () Set.univ := fun t => by
  have b0 : ∀ d, (dat6 V c).before 0 t d = iblk6 V c 0 t :=
    (dat6 V c).before_in_eq_fetched 0 rfl (fun _ => rfl) (fun _ _ _ => rfl) (fun _ => rfl) t
  have b1 : ∀ d, (dat6 V c).before 1 t d = iblk6 V c 1 t :=
    (dat6 V c).before_in_eq_fetched 1 rfl (fun _ => rfl) (fun _ _ _ => rfl) (fun _ => rfl) t
  rw [bigSep_W6, bigSep_W6]
  simp only [b0, b1]
  dsimp only [dat6, Dat.owesAt, Dat.bound]
  sl_whnfR [defs₀, Defs.onTc]
  iintro ⟨HΦ, Ho, ⟨%_, H0⟩, ⟨%_, H1⟩, %_, H2⟩
  iapply sound_kernel6 c (iblk6 V c 0 t) (iblk6 V c 1 t)
  iframe H0 H1
  isplitl [H2]; · iexists _; iexact H2
  iintro H
  iframe

end Cert.KernelIdeal.Hand
-- ==== Proof.KI.RegGRU7.lean ====
import proofs.«427383_j1159641169925_2_alg».proof.Proof.Gen.KernelIdeal.Launch
import proofs.«427383_j1159641169925_2_alg».proof.Proof.Gen.KernelIdeal.Skeleton
import proofs.«427383_j1159641169925_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S1000x512 := Rect.unit (s := S1000x512) ![0, 0] S1000x512.size inb_S1000x512_S1000x512_0_0
abbrev r7_1 : Rect S512x1536 := Rect.unit (s := S512x1536) ![0, 0] S512x1536.size inb_S512x1536_S512x1536_0_0
abbrev r7_2 : Rect S1x1536 := Rect.unit (s := S1x1536) ![0, 0] S1x1536.size inb_S1x1536_S1x1536_0_0

/-- What the body leaves in the output buffer, as a function of the six input buffers' contents. -/
def out7_6 (x0 x1 : Vec F S1000x512 .f32) (x2 x3 : Vec F S512x1536 .bf16) (x4 x5 : Vec F S1x1536 .f32) : Vec F S1000x512 .f32 :=
  View.canon [⟨r7_0, k7_pay1 (View.ld x0 r7_0) (View.ld x1 r7_0) (View.ld x2 r7_1) (View.ld x3 r7_1) (View.ld x4 r7_2) (View.ld x5 r7_2)⟩]

theorem cover7_6 (p0 : Vec F S1000x512 .f32) (y : S1000x512.Idx) :
    ∃ pc ∈ ([⟨r7_0, p0⟩] : List (View.Piece (Elt F) S1000x512 .f32)), y ∈ pc.1.set :=
  View.cover_of_tiled [⟨r7_0, p0⟩] S1000x512.size (by rfl) y

set_option maxHeartbeats 1000000 in
/-- The body returns its six inputs as read and leaves the output at `out7_6` of them: its one store covers the buffer. -/
theorem sound_kernel7 (c : Dev nD) (E : Set ℕ) {i : grid7.Coords}
    {arg1 arg2 arg7 : Memref sig .tc .vmem S1000x512 .f32} {arg3 arg4 : Memref sig .tc .vmem S512x1536 .bf16}
    {arg5 arg6 : Memref sig .tc .vmem S1x1536 .f32} {harg1 : arg1.IsWhole} {harg2 : arg2.IsWhole} {harg3 : arg3.IsWhole}
    {harg4 : arg4.IsWhole} {harg5 : arg5.IsWhole} {harg6 : arg6.IsWhole} {harg7 : arg7.IsWhole}
    {x0 x1 : Vec F S1000x512 .f32} {x2 x3 : Vec F S512x1536 .bf16} {x4 x5 : Vec F S1x1536 .f32} {K : PUnit → sProp 𝕄} :
    iprop(owns c.tc arg1 fullShare x0 ∗ owns c.tc arg2 fullShare x1
        ∗ owns c.tc arg3 fullShare x2 ∗ owns c.tc arg4 fullShare x3
        ∗ owns c.tc arg5 fullShare x4 ∗ owns c.tc arg6 fullShare x5
        ∗ (∃ d, owns c.tc arg7 fullShare d)
        ∗ (iprop(owns c.tc arg1 fullShare x0 ∗ owns c.tc arg2 fullShare x1
            ∗ owns c.tc arg3 fullShare x2 ∗ owns c.tc arg4 fullShare x3
            ∗ owns c.tc arg5 fullShare x4 ∗ owns c.tc arg6 fullShare x5
            ∗ owns c.tc arg7 fullShare (out7_6 x0 x1 x2 x3 x4 x5)) -∗ K ⟨⟩))
      ⊢ wp frame (wpE (defs₀ (F := F)) Variants.none c none) E
          (cc7_gru_kernel i arg1 harg1 arg2 harg2 arg3 harg3 arg4 harg4 arg5 harg5 arg6 harg6 arg7 harg7) K := by
  simp only [cc7_gru_kernel_eq_skeleton]; unfold cc7_gru_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  isplitl [H5]; · iexists f5; iframe; ipureintro; rfl
  iexists _; isplitr
  swap; · iexact H6
  ipureintro
  exact View.read_writes_eq_canon _ _ _ (cover7_6 _)

/-- The region's proof data: arrays as found, each input buffer left at its block, the output's at `out7_6` of the input blocks. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_6 (c : Dev nD) (t : Fin cfg7.N) : (dat7 V c).after 6 t =
    out7_6 (iblk7 V c 0 t) (iblk7 V c 1 t) (iblk7 V c 2 t) (iblk7 V c 3 t) (iblk7 V c 4 t) (iblk7 V c 5 t) := by dsimp only [dat7]

/-- The body leaves each input's block in place, so before the body an input's buffer already holds what it holds after. -/
theorem before7 (c : Dev nD) {w : Fin cfg7.W} (hw : w ≠ 6) (t : Fin cfg7.N) (d) : (dat7 V c).before w t d = (dat7 V c).after w t := by
  fin_cases w <;> first
    | exact absurd rfl hw
    | exact ((dat7 V c).before_in_eq_fetched _ rfl (fun _ => rfl) (fun _ _ _ => rfl) (fun _ => rfl) t d).trans rfl

/-- At every point the inputs' buffers hold their blocks, so the body's triple applies; invariant and debts pass through unread. -/
theorem body_obligation7 (c : Dev nD) : BodyObligation (dat7 (F := F) V c) (defs₀ (F := F)) Variants.none () Set.univ := fun t => by
  rw [bigSep_W7, bigSep_W7, show (dat7 V c).owesAt () t.succ = (dat7 V c).owesAt () t.castSucc from rfl]
  simp (disch := decide) only [before7 V c]
  dsimp only [dat7]
  sl_whnfR [defs₀, Defs.onTc]
  iintro ⟨HΦ, Ho, ⟨%_, H0⟩, ⟨%_, H1⟩, ⟨%_, H2⟩, ⟨%_, H3⟩, ⟨%_, H4⟩, ⟨%_, H5⟩, %_, H6⟩
  iapply sound_kernel7 c Set.univ
  iframe
  isplitl [H6]; · iexists _; iexact H6
  iintro H; iexact H

end Cert.KernelIdeal.Hand
-- ==== Proof.KI.RegFC8.lean ====
import proofs.«427383_j1159641169925_2_alg».proof.Proof.Gen.KernelIdeal.Launch
import proofs.«427383_j1159641169925_2_alg».proof.Proof.Gen.KernelIdeal.Skeleton
import proofs.«427383_j1159641169925_2_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The carried row before point n: the first store's payload, then each point's update of it. -/
def acc8 (c : Dev nD) : (n : ℕ) → n ≤ cfg8.N → Vec F S1x512 .f32
  | 0, _ => k8_pay1
  | n + 1, h => k8_pay2 (iblk8 V c 0 ⟨n, h⟩) (iblk8 V c 1 ⟨n, h⟩) (iblk8 V c 2 ⟨n, h⟩) (acc8 c n (Nat.le_of_succ_le h))

theorem acc8_succ (c : Dev nD) (t : Fin cfg8.N) : acc8 V c (t.val + 1) t.isLt
    = k8_pay2 (iblk8 V c 0 t) (iblk8 V c 1 t) (iblk8 V c 2 t) (acc8 V c t.val (Nat.le_of_lt t.isLt)) := rfl

abbrev scM8 : Memref sig .tc .vmem S1x512 .f32 := Memref.whole cc8_scratch0

abbrev rest8 (c : Dev nD) : sProp 𝕄 := Pipeline.scopedRestBut (Ix := Unit) (Name := ℕ) (U := UR sig nD τ) (Lvl := ℕ) (Val := Elt F) spec8 c [cc8_scratch0]

/-- The invariant before position n: past the first point the scratch row holds the carried row. -/
def Phi8 (c : Dev nD) : (n : ℕ) → n ≤ cfg8.N → sProp 𝕄
  | 0, _ => Pipeline.ΦA spec8 c
  | n + 1, h => iprop(iprop(owns (c : Thread nD τ) scM8 fullShare (acc8 V c (n + 1) h) ∗ rest8 c) ∗ (∃ r, prngReg c r))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => acc8 V c (t.val + 1) t.isLt
  Φ t := Phi8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = acc8 V c (t.val + 1) t.isLt := by dsimp only [dat8]

abbrev cond8_0 (i : grid8.Coords) : Prop :=
  (Scalar.cmpi .ne (Scalar.extui (Scalar.cmpi .eq (BitVec.ofNat 32 (i 0).val) 0#32)) 0#32) = 1#1
theorem hcond8_0 : ∀ t : Fin cfg8.N, cond8_0 (grid8.coords t) ↔ t.val = 0 :=
  (by decide +kernel : ∀ t : Fin grid8.N, cond8_0 (grid8.coords t) ↔ t.val = 0)

abbrev cond8_1 (i : grid8.Coords) : Prop := k8_cond2 i = 1#1

theorem idleAt8_3 : ∀ t : Fin cfg8.N, ¬cond8_1 (grid8.coords t) → cfg8.idle 3 (grid8.coords t) = true ∧ (cfg8.win 3).flush t = false := by
  decide +kernel
theorem liveAt8_3 : ∀ t : Fin cfg8.N, cond8_1 (grid8.coords t) → cfg8.idle 3 (grid8.coords t) = false := by decide +kernel

theorem hz8 : (![0, 0] : Fin 2 → ℕ) = fun _ => 0 := by
  funext a; fin_cases a <;> rfl

/-- A one-row buffer whose last store covers it whole reads that store's value. -/
theorem read_writes_row8 {κ : Kind} {sp : Space} (v : View sig κ sp S1x512 .f32) (f : v.ty.Contents (Elt F))
    (w : S1x512.Idx → Elt F .f32) (L : List (View.Piece (Elt F) S1x512 .f32)) :
    v.read (Elt F) (v.writes (Elt F) f (⟨Rect.unit ![0, 0] S1x512.size inb_S1x512_S1x512_0_0, w⟩ :: L)) = w := by
  rw [View.read_writes_eq_canon _ _ _ (fun y => ⟨_, List.mem_cons_self, View.mem_set_unit_zero hz8 inb_S1x512_S1x512_0_0 y⟩),
    View.canon_cons_unit_zero hz8]

/-- One point: the scratch row, refilled first under the first condition, is updated from the three blocks; under the second the output row takes its value. -/
theorem sound_kernel8 (c : Dev nD) (E : Set ℕ) (i : grid8.Coords)
    (arg1 : Memref sig .tc .vmem S1000x512 .f32) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole)
    (x0 : Vec F S1000x512 .f32) (x1 : Vec F S512x512 .bf16) (x2 d4 d5 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare d4 ∗ owns (c : Thread nD τ) arg5 fullShare d5
        ∗ (iprop(owns (c : Thread nD τ) arg1 fullShare x0 ∗ owns (c : Thread nD τ) arg2 fullShare x1 ∗ owns (c : Thread nD τ) arg3 fullShare x2
            ∗ owns (c : Thread nD τ) arg4 fullShare (if cond8_1 i then k8_pay2 x0 x1 x2 (if cond8_0 i then k8_pay1 else d5) else d4)
            ∗ owns (c : Thread nD τ) arg5 fullShare (k8_pay2 x0 x1 x2 (if cond8_0 i then k8_pay1 else d5))) -∗ K ⟨⟩))
      ⊢ wp frame (wpE (defs₀ (F := F)) Variants.none c none) E
          (cc8_fc_maxpool_kernel i arg1 harg1 arg2 harg2 arg3 harg3 arg4 harg4 arg5 harg5) K := by
  simp only [cc8_fc_maxpool_kernel_eq_skeleton]; unfold cc8_fc_maxpool_kernel_skel owns
  iintro ⟨⟨%f0, %hf0, H0⟩, ⟨%f1, %hf1, H1⟩, ⟨%f2, %hf2, H2⟩, ⟨%f4, %hf4, H4⟩, ⟨%fs, %hfs, HS⟩, Hk⟩
  by_cases hc0 : cond8_0 i <;> by_cases hc1 : cond8_1 i <;>
  · first | rw [if_pos hc0] | rw [if_neg hc0]
    first | rw [if_pos hc1] | rw [if_neg hc1]
    sl_exec (disch := first | exact hc0 | exact hc1)
    sl_step
    iapply Hk
    isplitl [H0]; swap; isplitl [H1]; swap; isplitl [H2]; swap; isplitl [H4]
    all_goals
      iexists _; isplitr
      swap; · iassumption
      ipureintro; sl_unfold_run_names; try rw [read_writes_row8]
      simp only [View.readCov_cons_toLoadRect, View.readAt_eq_ld, hf0, hf1, hf2, hf4, hfs, View.ld_unit_zero (S := S1000x512) hz8,
        View.ld_unit_zero (S := S512x512) hz8, View.ld_unit_zero (S := S1x512) hz8]

theorem before8_0 (c : Dev nD) (t : Fin cfg8.N) (d) : (dat8 V c).before 0 t d = iblk8 V c 0 t :=
  (dat8 V c).before_in_eq_fetched 0 rfl (fun _ => rfl) (fun _ _ _ => rfl) (fun _ => rfl) t d
theorem before8_1 (c : Dev nD) (t : Fin cfg8.N) (d) : (dat8 V c).before 1 t d = iblk8 V c 1 t :=
  (dat8 V c).before_in_eq_fetched 1 rfl (fun _ => rfl) (fun _ _ _ => rfl) (fun _ => rfl) t d
theorem before8_2 (c : Dev nD) (t : Fin cfg8.N) (d) : (dat8 V c).before 2 t d = iblk8 V c 2 t :=
  (dat8 V c).before_in_eq_fetched 2 rfl (fun _ => rfl) (fun _ _ _ => rfl) (fun _ => rfl) t d

/-- The entry invariant with the scratch row split off. -/
theorem PhiA8_eq (c : Dev nD) :
    (Pipeline.ΦA spec8 c : sProp 𝕄)
      = iprop(iprop((∃ d, owns (c : Thread nD τ) scM8 fullShare d) ∗ rest8 c) ∗ (∃ r, prngReg c r)) := by
  unfold Pipeline.ΦA; rw [scopedRest8_split]; simp only [scM8, owns_whole]; rfl

/-- At a point the invariant holds the scratch row at some contents: the carried row, once the first condition's refill is taken. -/
theorem Phi8_open (c : Dev nD) (t : Fin cfg8.N) : (dat8 V c).Φ t.castSucc ⊢
    iprop(∃ d, ⌜(if cond8_0 (grid8.coords t) then k8_pay1 else d) = acc8 V c t.val (Nat.le_of_lt t.isLt)⌝
      ∗ iprop(owns (c : Thread nD τ) scM8 fullShare d ∗ rest8 c) ∗ (∃ r, prngReg c r)) := by
  obtain ⟨n, hn⟩ := t
  cases n with
  | zero =>
    show Pipeline.ΦA spec8 c ⊢ _
    rw [PhiA8_eq]
    iintro ⟨⟨⟨%d, HS⟩, HR⟩, Hg⟩
    iexists d; isplitr; · ipureintro; exact if_pos ((hcond8_0 ⟨0, hn⟩).mpr rfl)
    iframe
  | succ n =>
    show Phi8 V c (n + 1) _ ⊢ _
    unfold Phi8; iintro H; iexists _; isplitr
    · ipureintro; exact if_neg (mt (hcond8_0 ⟨n + 1, hn⟩).mp (Nat.succ_ne_zero n))
    iexact H

/-- At any position the invariant gives back the entry invariant. -/
theorem Phi8_le (c : Dev nD) : ∀ (n : ℕ) (h : n ≤ cfg8.N), Phi8 V c n h ⊢ Pipeline.ΦA spec8 c
  | 0, _ => by unfold Phi8; iintro H; iexact H
  | n + 1, h => by
    unfold Phi8; rw [PhiA8_eq]
    iintro ⟨⟨HS, HR⟩, Hg⟩
    iframe HR Hg
    iexists _; iexact HS

/-- The output row: written at the last point, else as found. -/
theorem leaves8_3 (c : Dev nD) (t : Fin cfg8.N) (d) :
    owns (c : Thread nD τ) (st8_3 t) fullShare (if cond8_1 (grid8.coords t) then acc8 V c (t.val + 1) t.isLt else (dat8 V c).before 3 t d)
      ⊢ (dat8 V c).leavesExact 3 t := by
  by_cases hc1 : cond8_1 (grid8.coords t)
  · rw [if_pos hc1]; unfold Dat.leavesExact; rw [liveAt8_3 t hc1, after8_3]
  · rw [if_neg hc1, Dat.leavesExact_idle (dat8 V c) 3 t (idleAt8_3 t hc1).1 (idleAt8_3 t hc1).2]
    iintro H; iexists d; iexact H

theorem body_obligation8 (c : Dev nD) : BodyObligation (dat8 (F := F) V c) (defs₀ (F := F)) Variants.none () Set.univ := fun t => by
  rw [bigSep_W8, bigSep_W8]
  dsimp only
  show _ ⊢ wp frame _ _ (bodyAt8 t) _
  unfold bodyAt8
  simp only [before8_0, before8_1, before8_2, after8_0, after8_1, after8_2]
  rw [show (dat8 V c).owesAt () t.succ = (dat8 V c).owesAt () t.castSucc from rfl,
    show (dat8 V c).Φ t.succ = Phi8 V c (t.val + 1) t.isLt from rfl, Phi8]
  iintro ⟨HΦ, Ho, ⟨%d0, H0⟩, ⟨%d1, H1⟩, ⟨%d2, H2⟩, ⟨%d3, H3⟩⟩
  ihave HΦ := Phi8_open V c t $$ HΦ
  icases HΦ with ⟨%d5, %e, ⟨HS, HR⟩, Hg⟩
  iapply (sound_kernel8 c Set.univ (grid8.coords t) (stage8_0 (cfg8.slots t 0)) _ (stage8_1 (cfg8.slots t 1)) _
    (stage8_2 (cfg8.slots t 2)) _ (stage8_3 (cfg8.slots t 3)) _ scM8 _
    (iblk8 V c 0 t) (iblk8 V c 1 t) (iblk8 V c 2 t) ((dat8 V c).before 3 t d3) d5 _)
  iframe H0 H1 H2 H3 HS
  rw [e, ← acc8_succ]
  iintro ⟨H0, H1, H2, H3, HS⟩
  iframe HS HR Hg Ho H0 H1 H2
  iapply (leaves8_3 V c t d3)
  iexact H3

theorem Phi8_zero (c : Dev nD) : (dat8 V c).Φ 0 = Pipeline.ΦA spec8 c := rfl

theorem Phi8_last (c : Dev nD) : (dat8 V c).Φ (Fin.last _) ⊢ Pipeline.ΦA spec8 c := Phi8_le V c cfg8.N le_rfl

end Cert.KernelIdeal.Hand

end
-- ==== Proof.KI.Fold.lean ====
import proofs.«427383_j1159641169925_2_alg».proof.Proof.Gen.KernelIdeal.Regions
import proofs.«427383_j1159641169925_2_alg».proof.Proof.KI.RegNT0
import proofs.«427383_j1159641169925_2_alg».proof.Proof.KI.RegGRU1
import proofs.«427383_j1159641169925_2_alg».proof.Proof.KI.RegNT2
import proofs.«427383_j1159641169925_2_alg».proof.Proof.KI.RegGRU3
import proofs.«427383_j1159641169925_2_alg».proof.Proof.KI.RegNT4
import proofs.«427383_j1159641169925_2_alg».proof.Proof.KI.RegGRU5
import proofs.«427383_j1159641169925_2_alg».proof.Proof.KI.RegNT6
import proofs.«427383_j1159641169925_2_alg».proof.Proof.KI.RegGRU7
import proofs.«427383_j1159641169925_2_alg».proof.Proof.KI.RegFC8
import Idealize.ShloMosaic.Lib.Pipeline.FrameSuffix

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

variable (m : (ℓ : Loc nD τ sig) → Buf (Elt F) ℓ) (ρ : Dev nD → PrngReg)

-- A core's buffer contents, read at its `.tc` references.
abbrev atTc (W : Dev nD → Valuation τ sig (Elt F)) : (c : Dev nD) → (b : Ref sig .tc) → Buf (Elt F) ((c : Thread nD τ).loc b) :=
  fun c b => W c b

abbrev W0 : Dev nD → Valuation τ sig (Elt F) := fun c b => (s₀ m ρ).mem ((c : Dev nD), b)

abbrev W1 : Dev nD → Valuation τ sig (Elt F) := fun c => StableHlo.after hostOps0 (W0 m ρ c)

theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

abbrev V1 := atTc (W1 m ρ)

def W2 (c : Dev nD) : Valuation τ sig (Elt F) :=
  Pipeline.withArrays spec0 c (W1 m ρ c) fun w => (dat0 (V1 m ρ) c).arrAt w cfg0.N

theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w

theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

abbrev V2 := atTc (W2 m ρ)

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h

abbrev W4 : Dev nD → Valuation τ sig (Elt F) := fun c => StableHlo.after hostOps1_1 (W3 m ρ c)

theorem W4_keep (c : Dev nD) (r : Ref sig .tc) (h : r ∉ hostOps1_1_W) :
    W4 m ρ c (Proc.devRef .tc r) = W3 m ρ c (Proc.devRef .tc r) :=
  StableHlo.after_of_writes_sub hostOps1_1 _ hostOps1_1_writes h

abbrev W5 : Dev nD → Valuation τ sig (Elt F) := fun c => StableHlo.after hostOps1_2 (W4 m ρ c)

theorem W5_keep (c : Dev nD) (r : Ref sig .tc) (h : r ∉ hostOps1_2_W) :
    W5 m ρ c (Proc.devRef .tc r) = W4 m ρ c (Proc.devRef .tc r) :=
  StableHlo.after_of_writes_sub hostOps1_2 _ hostOps1_2_writes h

abbrev V5 := atTc (W5 m ρ)

def W6 (c : Dev nD) : Valuation τ sig (Elt F) :=
  Pipeline.withArrays spec1 c (W5 m ρ c) fun w => (dat1 (V5 m ρ) c).arrAt w cfg1.N

theorem W6_arr (c : Dev nD) (w : Fin cfg1.W) :
    W6 m ρ c (Proc.devRef .tc (Pipeline.arrRef spec1 w)) = (dat1 (V5 m ρ) c).arrAt w cfg1.N :=
  Pipeline.withArrays_arr spec1 launch1.win.arr_inj c _ _ w

theorem W6_of_ne (c : Dev nD) (b : Ref sig .tc) (hb : ∀ w, Pipeline.arrRef spec1 w ≠ b) :
    W6 m ρ c (Proc.devRef .tc b) = W5 m ρ c (Proc.devRef .tc b) :=
  Pipeline.withArrays_of_ne spec1 c _ _ b hb

theorem W6_in (c : Dev nD) (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hw _).trans (A_eq1 (V5 m ρ) c w))

abbrev V6 := atTc (W6 m ρ)

theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

def W7 (c : Dev nD) : Valuation τ sig (Elt F) :=
  Pipeline.withArrays spec2 c (W6 m ρ c) fun w => (dat2 (V6 m ρ) c).arrAt w cfg2.N

theorem W7_arr (c : Dev nD) (w : Fin cfg2.W) :
    W7 m ρ c (Proc.devRef .tc (Pipeline.arrRef spec2 w)) = (dat2 (V6 m ρ) c).arrAt w cfg2.N :=
  Pipeline.withArrays_arr spec2 launch2.win.arr_inj c _ _ w

theorem W7_of_ne (c : Dev nD) (b : Ref sig .tc) (hb : ∀ w, Pipeline.arrRef spec2 w ≠ b) :
    W7 m ρ c (Proc.devRef .tc b) = W6 m ρ c (Proc.devRef .tc b) :=
  Pipeline.withArrays_of_ne spec2 c _ _ b hb

theorem W7_in (c : Dev nD) (w : Fin cfg2.W) (hw : (cfg2.win w).isOut = false) :
    W7 m ρ c (Proc.devRef .tc (Pipeline.arrRef spec2 w)) = W6 m ρ c (Proc.devRef .tc (Pipeline.arrRef spec2 w)) :=
  (W7_arr m ρ c w).trans (((dat2 (V6 m ρ) c).arrAt_in w hw _).trans (A_eq2 (V6 m ρ) c w))

abbrev V7 := atTc (W7 m ρ)

theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

abbrev W8 : Dev nD → Valuation τ sig (Elt F) := fun c => StableHlo.after hostOps3 (W7 m ρ c)

theorem W8_keep (c : Dev nD) (r : Ref sig .tc) (h : r ∉ hostOps3_W) :
    W8 m ρ c (Proc.devRef .tc r) = W7 m ρ c (Proc.devRef .tc r) :=
  StableHlo.after_of_writes_sub hostOps3 _ hostOps3_writes h

abbrev W9 : Dev nD → Valuation τ sig (Elt F) := fun c => StableHlo.after hostOps3_1 (W8 m ρ c)

theorem W9_keep (c : Dev nD) (r : Ref sig .tc) (h : r ∉ hostOps3_1_W) :
    W9 m ρ c (Proc.devRef .tc r) = W8 m ρ c (Proc.devRef .tc r) :=
  StableHlo.after_of_writes_sub hostOps3_1 _ hostOps3_1_writes h

abbrev W10 : Dev nD → Valuation τ sig (Elt F) := fun c => StableHlo.after hostOps3_2 (W9 m ρ c)

theorem W10_keep (c : Dev nD) (r : Ref sig .tc) (h : r ∉ hostOps3_2_W) :
    W10 m ρ c (Proc.devRef .tc r) = W9 m ρ c (Proc.devRef .tc r) :=
  StableHlo.after_of_writes_sub hostOps3_2 _ hostOps3_2_writes h

abbrev V10 := atTc (W10 m ρ)

def W11 (c : Dev nD) : Valuation τ sig (Elt F) :=
  Pipeline.withArrays spec3 c (W10 m ρ c) fun w => (dat3 (V10 m ρ) c).arrAt w cfg3.N

theorem W11_arr (c : Dev nD) (w : Fin cfg3.W) :
    W11 m ρ c (Proc.devRef .tc (Pipeline.arrRef spec3 w)) = (dat3 (V10 m ρ) c).arrAt w cfg3.N :=
  Pipeline.withArrays_arr spec3 launch3.win.arr_inj c _ _ w

theorem W11_of_ne (c : Dev nD) (b : Ref sig .tc) (hb : ∀ w, Pipeline.arrRef spec3 w ≠ b) :
    W11 m ρ c (Proc.devRef .tc b) = W10 m ρ c (Proc.devRef .tc b) :=
  Pipeline.withArrays_of_ne spec3 c _ _ b hb

abbrev V11 := atTc (W11 m ρ)

theorem hF3 (c : Dev nD) (w : Fin cfg3.W) : (dat3 (V10 m ρ) c).arrAt w cfg3.N = V11 m ρ c (Pipeline.arrRef spec3 w) :=
  (W11_arr m ρ c w).symm
theorem hrest3 (c : Dev nD) : ∀ b, b ∉ Finset.univ.image (Pipeline.arrRef spec3) → V11 m ρ c b = V10 m ρ c b :=
  fun b hb => W11_of_ne m ρ c b fun w e => hb (Finset.mem_image.mpr ⟨w, Finset.mem_univ _, e⟩)

abbrev W12 : Dev nD → Valuation τ sig (Elt F) := fun c => StableHlo.after hostOps4 (W11 m ρ c)

theorem W12_keep (c : Dev nD) (r : Ref sig .tc) (h : r ∉ hostOps4_W) :
    W12 m ρ c (Proc.devRef .tc r) = W11 m ρ c (Proc.devRef .tc r) :=
  StableHlo.after_of_writes_sub hostOps4 _ hostOps4_writes h

abbrev V12 := atTc (W12 m ρ)

def W13 (c : Dev nD) : Valuation τ sig (Elt F) :=
  Pipeline.withArrays spec4 c (W12 m ρ c) fun w => (dat4 (V12 m ρ) c).arrAt w cfg4.N

theorem W13_arr (c : Dev nD) (w : Fin cfg4.W) :
    W13 m ρ c (Proc.devRef .tc (Pipeline.arrRef spec4 w)) = (dat4 (V12 m ρ) c).arrAt w cfg4.N :=
  Pipeline.withArrays_arr spec4 launch4.win.arr_inj c _ _ w

theorem W13_of_ne (c : Dev nD) (b : Ref sig .tc) (hb : ∀ w, Pipeline.arrRef spec4 w ≠ b) :
    W13 m ρ c (Proc.devRef .tc b) = W12 m ρ c (Proc.devRef .tc b) :=
  Pipeline.withArrays_of_ne spec4 c _ _ b hb

theorem W13_in (c : Dev nD) (w : Fin cfg4.W) (hw : (cfg4.win w).isOut = false) :
    W13 m ρ c (Proc.devRef .tc (Pipeline.arrRef spec4 w)) = W12 m ρ c (Proc.devRef .tc (Pipeline.arrRef spec4 w)) :=
  (W13_arr m ρ c w).trans (((dat4 (V12 m ρ) c).arrAt_in w hw _).trans (A_eq4 (V12 m ρ) c w))

abbrev V13 := atTc (W13 m ρ)

theorem hF4 (c : Dev nD) (w : Fin cfg4.W) : (dat4 (V12 m ρ) c).arrAt w cfg4.N = V13 m ρ c (Pipeline.arrRef spec4 w) :=
  (W13_arr m ρ c w).symm
theorem hrest4 (c : Dev nD) : ∀ b, b ∉ Finset.univ.image (Pipeline.arrRef spec4) → V13 m ρ c b = V12 m ρ c b :=
  fun b hb => W13_of_ne m ρ c b fun w e => hb (Finset.mem_image.mpr ⟨w, Finset.mem_univ _, e⟩)

abbrev W14 : Dev nD → Valuation τ sig (Elt F) := fun c => StableHlo.after hostOps5 (W13 m ρ c)

theorem W14_keep (c : Dev nD) (r : Ref sig .tc) (h : r ∉ hostOps5_W) :
    W14 m ρ c (Proc.devRef .tc r) = W13 m ρ c (Proc.devRef .tc r) :=
  StableHlo.after_of_writes_sub hostOps5 _ hostOps5_writes h

abbrev W15 : Dev nD → Valuation τ sig (Elt F) := fun c => StableHlo.after hostOps5_1 (W14 m ρ c)

theorem W15_keep (c : Dev nD) (r : Ref sig .tc) (h : r ∉ hostOps5_1_W) :
    W15 m ρ c (Proc.devRef .tc r) = W14 m ρ c (Proc.devRef .tc r) :=
  StableHlo.after_of_writes_sub hostOps5_1 _ hostOps5_1_writes h

abbrev W16 : Dev nD → Valuation τ sig (Elt F) := fun c => StableHlo.after hostOps5_2 (W15 m ρ c)

theorem W16_keep (c : Dev nD) (r : Ref sig .tc) (h : r ∉ hostOps5_2_W) :
    W16 m ρ c (Proc.devRef .tc r) = W15 m ρ c (Proc.devRef .tc r) :=
  StableHlo.after_of_writes_sub hostOps5_2 _ hostOps5_2_writes h

abbrev V16 := atTc (W16 m ρ)

def W17 (c : Dev nD) : Valuation τ sig (Elt F) :=
  Pipeline.withArrays spec5 c (W16 m ρ c) fun w => (dat5 (V16 m ρ) c).arrAt w cfg5.N

theorem W17_arr (c : Dev nD) (w : Fin cfg5.W) :
    W17 m ρ c (Proc.devRef .tc (Pipeline.arrRef spec5 w)) = (dat5 (V16 m ρ) c).arrAt w cfg5.N :=
  Pipeline.withArrays_arr spec5 launch5.win.arr_inj c _ _ w

theorem W17_of_ne (c : Dev nD) (b : Ref sig .tc) (hb : ∀ w, Pipeline.arrRef spec5 w ≠ b) :
    W17 m ρ c (Proc.devRef .tc b) = W16 m ρ c (Proc.devRef .tc b) :=
  Pipeline.withArrays_of_ne spec5 c _ _ b hb

theorem W17_in (c : Dev nD) (w : Fin cfg5.W) (hw : (cfg5.win w).isOut = false) :
    W17 m ρ c (Proc.devRef .tc (Pipeline.arrRef spec5 w)) = W16 m ρ c (Proc.devRef .tc (Pipeline.arrRef spec5 w)) :=
  (W17_arr m ρ c w).trans (((dat5 (V16 m ρ) c).arrAt_in w hw _).trans (A_eq5 (V16 m ρ) c w))

abbrev V17 := atTc (W17 m ρ)

theorem hF5 (c : Dev nD) (w : Fin cfg5.W) : (dat5 (V16 m ρ) c).arrAt w cfg5.N = V17 m ρ c (Pipeline.arrRef spec5 w) :=
  (W17_arr m ρ c w).symm
theorem hrest5 (c : Dev nD) : ∀ b, b ∉ Finset.univ.image (Pipeline.arrRef spec5) → V17 m ρ c b = V16 m ρ c b :=
  fun b hb => W17_of_ne m ρ c b fun w e => hb (Finset.mem_image.mpr ⟨w, Finset.mem_univ _, e⟩)

def W18 (c : Dev nD) : Valuation τ sig (Elt F) :=
  Pipeline.withArrays spec6 c (W17 m ρ c) fun w => (dat6 (V17 m ρ) c).arrAt w cfg6.N

theorem W18_arr (c : Dev nD) (w : Fin cfg6.W) :
    W18 m ρ c (Proc.devRef .tc (Pipeline.arrRef spec6 w)) = (dat6 (V17 m ρ) c).arrAt w cfg6.N :=
  Pipeline.withArrays_arr spec6 launch6.win.arr_inj c _ _ w

theorem W18_of_ne (c : Dev nD) (b : Ref sig .tc) (hb : ∀ w, Pipeline.arrRef spec6 w ≠ b) :
    W18 m ρ c (Proc.devRef .tc b) = W17 m ρ c (Proc.devRef .tc b) :=
  Pipeline.withArrays_of_ne spec6 c _ _ b hb

theorem W18_in (c : Dev nD) (w : Fin cfg6.W) (hw : (cfg6.win w).isOut = false) :
    W18 m ρ c (Proc.devRef .tc (Pipeline.arrRef spec6 w)) = W17 m ρ c (Proc.devRef .tc (Pipeline.arrRef spec6 w)) :=
  (W18_arr m ρ c w).trans (((dat6 (V17 m ρ) c).arrAt_in w hw _).trans (A_eq6 (V17 m ρ) c w))

abbrev V18 := atTc (W18 m ρ)

theorem hF6 (c : Dev nD) (w : Fin cfg6.W) : (dat6 (V17 m ρ) c).arrAt w cfg6.N = V18 m ρ c (Pipeline.arrRef spec6 w) :=
  (W18_arr m ρ c w).symm
theorem hrest6 (c : Dev nD) : ∀ b, b ∉ Finset.univ.image (Pipeline.arrRef spec6) → V18 m ρ c b = V17 m ρ c b :=
  fun b hb => W18_of_ne m ρ c b fun w e => hb (Finset.mem_image.mpr ⟨w, Finset.mem_univ _, e⟩)

abbrev W19 : Dev nD → Valuation τ sig (Elt F) := fun c => StableHlo.after hostOps7 (W18 m ρ c)

theorem W19_keep (c : Dev nD) (r : Ref sig .tc) (h : r ∉ hostOps7_W) :
    W19 m ρ c (Proc.devRef .tc r) = W18 m ρ c (Proc.devRef .tc r) :=
  StableHlo.after_of_writes_sub hostOps7 _ hostOps7_writes h

abbrev W20 : Dev nD → Valuation τ sig (Elt F) := fun c => StableHlo.after hostOps7_1 (W19 m ρ c)

theorem W20_keep (c : Dev nD) (r : Ref sig .tc) (h : r ∉ hostOps7_1_W) :
    W20 m ρ c (Proc.devRef .tc r) = W19 m ρ c (Proc.devRef .tc r) :=
  StableHlo.after_of_writes_sub hostOps7_1 _ hostOps7_1_writes h

abbrev W21 : Dev nD → Valuation τ sig (Elt F) := fun c => StableHlo.after hostOps7_2 (W20 m ρ c)

theorem W21_keep (c : Dev nD) (r : Ref sig .tc) (h : r ∉ hostOps7_2_W) :
    W21 m ρ c (Proc.devRef .tc r) = W20 m ρ c (Proc.devRef .tc r) :=
  StableHlo.after_of_writes_sub hostOps7_2 _ hostOps7_2_writes h

abbrev V21 := atTc (W21 m ρ)

def W22 (c : Dev nD) : Valuation τ sig (Elt F) :=
  Pipeline.withArrays spec7 c (W21 m ρ c) fun w => (dat7 (V21 m ρ) c).arrAt w cfg7.N

theorem W22_arr (c : Dev nD) (w : Fin cfg7.W) :
    W22 m ρ c (Proc.devRef .tc (Pipeline.arrRef spec7 w)) = (dat7 (V21 m ρ) c).arrAt w cfg7.N :=
  Pipeline.withArrays_arr spec7 launch7.win.arr_inj c _ _ w

theorem W22_of_ne (c : Dev nD) (b : Ref sig .tc) (hb : ∀ w, Pipeline.arrRef spec7 w ≠ b) :
    W22 m ρ c (Proc.devRef .tc b) = W21 m ρ c (Proc.devRef .tc b) :=
  Pipeline.withArrays_of_ne spec7 c _ _ b hb

abbrev V22 := atTc (W22 m ρ)

theorem hF7 (c : Dev nD) (w : Fin cfg7.W) : (dat7 (V21 m ρ) c).arrAt w cfg7.N = V22 m ρ c (Pipeline.arrRef spec7 w) :=
  (W22_arr m ρ c w).symm
theorem hrest7 (c : Dev nD) : ∀ b, b ∉ Finset.univ.image (Pipeline.arrRef spec7) → V22 m ρ c b = V21 m ρ c b :=
  fun b hb => W22_of_ne m ρ c b fun w e => hb (Finset.mem_image.mpr ⟨w, Finset.mem_univ _, e⟩)

abbrev W23 : Dev nD → Valuation τ sig (Elt F) := fun c => StableHlo.after hostOps8 (W22 m ρ c)

theorem W23_keep (c : Dev nD) (r : Ref sig .tc) (h : r ∉ hostOps8_W) :
    W23 m ρ c (Proc.devRef .tc r) = W22 m ρ c (Proc.devRef .tc r) :=
  StableHlo.after_of_writes_sub hostOps8 _ hostOps8_writes h

abbrev V23 := atTc (W23 m ρ)

def W24 (c : Dev nD) : Valuation τ sig (Elt F) :=
  Pipeline.withArrays spec8 c (W23 m ρ c) fun w => (dat8 (V23 m ρ) c).arrAt w cfg8.N

theorem W24_arr (c : Dev nD) (w : Fin cfg8.W) :
    W24 m ρ c (Proc.devRef .tc (Pipeline.arrRef spec8 w)) = (dat8 (V23 m ρ) c).arrAt w cfg8.N :=
  Pipeline.withArrays_arr spec8 launch8.win.arr_inj c _ _ w

theorem W24_of_ne (c : Dev nD) (b : Ref sig .tc) (hb : ∀ w, Pipeline.arrRef spec8 w ≠ b) :
    W24 m ρ c (Proc.devRef .tc b) = W23 m ρ c (Proc.devRef .tc b) :=
  Pipeline.withArrays_of_ne spec8 c _ _ b hb

abbrev V24 := atTc (W24 m ρ)

theorem hF8 (c : Dev nD) (w : Fin cfg8.W) : (dat8 (V23 m ρ) c).arrAt w cfg8.N = V24 m ρ c (Pipeline.arrRef spec8 w) :=
  (W24_arr m ρ c w).symm
theorem hrest8 (c : Dev nD) : ∀ b, b ∉ Finset.univ.image (Pipeline.arrRef spec8) → V24 m ρ c b = V23 m ρ c b :=
  fun b hb => W24_of_ne m ρ c b fun w e => hb (Finset.mem_image.mpr ⟨w, Finset.mem_univ _, e⟩)

abbrev W25 : Dev nD → Valuation τ sig (Elt F) := fun c => StableHlo.after hostOps9 (W24 m ρ c)

-- No item after region 1 touches `r`: no later stretch writes it and it is no later region's array.
abbrev Untouched7 (r : Ref sig .tc) : Prop :=
  (∀ w, Pipeline.arrRef spec2 w ≠ r) ∧ r ∉ hostOps3_W ∧ r ∉ hostOps3_1_W ∧ r ∉ hostOps3_2_W ∧
    (∀ w, Pipeline.arrRef spec3 w ≠ r) ∧ r ∉ hostOps4_W ∧ (∀ w, Pipeline.arrRef spec4 w ≠ r) ∧ r ∉ hostOps5_W ∧
    r ∉ hostOps5_1_W ∧ r ∉ hostOps5_2_W ∧ (∀ w, Pipeline.arrRef spec5 w ≠ r) ∧ (∀ w, Pipeline.arrRef spec6 w ≠ r) ∧
    r ∉ hostOps7_W ∧ r ∉ hostOps7_1_W ∧ r ∉ hostOps7_2_W ∧ (∀ w, Pipeline.arrRef spec7 w ≠ r) ∧ r ∉ hostOps8_W ∧
    (∀ w, Pipeline.arrRef spec8 w ≠ r) ∧ r ∉ hostOps9_W

-- From region 1's exit on, such a buffer is kept.
theorem W25_eq_W6 (c : Dev nD) (r : Ref sig .tc) (h : Untouched7 r) :
    W25 m ρ c (Proc.devRef .tc r) = W6 m ρ c (Proc.devRef .tc r) := by
  obtain ⟨h7, h8, h9, h10, h11, h12, h13, h14, h15, h16, h17, h18, h19, h20, h21, h22, h23, h24, h25⟩ := h
  exact (StableHlo.after_of_writes_sub hostOps9 _ hostOps9_writes h25).trans <|
    (W24_of_ne m ρ c r h24).trans <| (W23_keep m ρ c r h23).trans <|
    (W22_of_ne m ρ c r h22).trans <| (W21_keep m ρ c r h21).trans <| (W20_keep m ρ c r h20).trans <|
    (W19_keep m ρ c r h19).trans <| (W18_of_ne m ρ c r h18).trans <| (W17_of_ne m ρ c r h17).trans <|
    (W16_keep m ρ c r h16).trans <| (W15_keep m ρ c r h15).trans <| (W14_keep m ρ c r h14).trans <|
    (W13_of_ne m ρ c r h13).trans <| (W12_keep m ρ c r h12).trans <| (W11_of_ne m ρ c r h11).trans <|
    (W10_keep m ρ c r h10).trans <| (W9_keep m ρ c r h9).trans <| (W8_keep m ρ c r h8).trans <| (W7_of_ne m ρ c r h7)

-- A buffer that no stretch writes and that is no region's array holds its launch contents to the end.
theorem W25_launch (c : Dev nD) (r : Ref sig .tc)
    (h : r ∉ hostOps0_W ∧ (∀ w, Pipeline.arrRef spec0 w ≠ r) ∧ r ∉ hostOps1_W ∧ r ∉ hostOps1_1_W ∧ r ∉ hostOps1_2_W ∧
      (∀ w, Pipeline.arrRef spec1 w ≠ r)) (h' : Untouched7 r) :
    W25 m ρ c (Proc.devRef .tc r) = m ((c : Thread nD τ).loc r) := by
  obtain ⟨h1, h2, h3, h4, h5, h6⟩ := h
  exact (W25_eq_W6 m ρ c r h').trans <| (W6_of_ne m ρ c r h6).trans <| (W5_keep m ρ c r h5).trans <| (W4_keep m ρ c r h4).trans <|
    (W3_keep m ρ c r h3).trans <| (W2_of_ne m ρ c r h2).trans <| (W1_keep m ρ c r h1).trans <| rfl

-- `main_arg0` is an input array of regions 0 and 1 (`W2_in`, `W6_in`); no other item touches it.
theorem W25_main_arg0 (c : Dev nD) : W25 m ρ c (Proc.devRef .tc main_arg0) = m ((c : Thread nD τ).loc main_arg0) :=
  (W25_eq_W6 m ρ c main_arg0 (by decide)).trans <| (W6_in m ρ c 1 rfl).trans <| (W5_keep m ρ c main_arg0 (by decide)).trans <|
  (W4_keep m ρ c main_arg0 (by decide)).trans <| (W3_keep m ρ c main_arg0 (by decide)).trans <| (W2_in m ρ c 0 rfl).trans <|
  (W1_keep m ρ c main_arg0 (by decide)).trans rfl
theorem W25_main_arg1 (c : Dev nD) : W25 m ρ c (Proc.devRef .tc main_arg1) = m ((c : Thread nD τ).loc main_arg1) :=
  W25_launch m ρ c main_arg1 (by decide) (by decide)
theorem W25_main_arg2 (c : Dev nD) : W25 m ρ c (Proc.devRef .tc main_arg2) = m ((c : Thread nD τ).loc main_arg2) :=
  W25_launch m ρ c main_arg2 (by decide) (by decide)
theorem W25_main_arg3 (c : Dev nD) : W25 m ρ c (Proc.devRef .tc main_arg3) = m ((c : Thread nD τ).loc main_arg3) :=
  W25_launch m ρ c main_arg3 (by decide) (by decide)
theorem W25_main_arg4 (c : Dev nD) : W25 m ρ c (Proc.devRef .tc main_arg4) = m ((c : Thread nD τ).loc main_arg4) :=
  W25_launch m ρ c main_arg4 (by decide) (by decide)
theorem W25_main_arg5 (c : Dev nD) : W25 m ρ c (Proc.devRef .tc main_arg5) = m ((c : Thread nD τ).loc main_arg5) :=
  W25_launch m ρ c main_arg5 (by decide) (by decide)
theorem W25_main_arg6 (c : Dev nD) : W25 m ρ c (Proc.devRef .tc main_arg6) = m ((c : Thread nD τ).loc main_arg6) :=
  W25_launch m ρ c main_arg6 (by decide) (by decide)
theorem W25_main_arg7 (c : Dev nD) : W25 m ρ c (Proc.devRef .tc main_arg7) = m ((c : Thread nD τ).loc main_arg7) :=
  W25_launch m ρ c main_arg7 (by decide) (by decide)
theorem W25_main_arg8 (c : Dev nD) : W25 m ρ c (Proc.devRef .tc main_arg8) = m ((c : Thread nD τ).loc main_arg8) :=
  W25_launch m ρ c main_arg8 (by decide) (by decide)
theorem W25_main_arg9 (c : Dev nD) : W25 m ρ c (Proc.devRef .tc main_arg9) = m ((c : Thread nD τ).loc main_arg9) :=
  W25_launch m ρ c main_arg9 (by decide) (by decide)

end Cert.KernelIdeal.Hand

end
-- ==== Proof.KI.Regs.lean ====
import proofs.«427383_j1159641169925_2_alg».proof.Proof.KI.Fold
import Idealize.ShloMosaic.Lib.Pipeline.RegionsLoop
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
  | ⟨2, _⟩ => fun c => dat2 (V6 m ρ) c
  | ⟨3, _⟩ => fun c => dat3 (V10 m ρ) c
  | ⟨4, _⟩ => fun c => dat4 (V12 m ρ) c
  | ⟨5, _⟩ => fun c => dat5 (V16 m ρ) c
  | ⟨6, _⟩ => fun c => dat6 (V17 m ρ) c
  | ⟨7, _⟩ => fun c => dat7 (V21 m ρ) c
  | ⟨8, _⟩ => fun c => dat8 (V23 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- One region between two contents of the fold: entered holding every buffer at Wi, left holding them at Wo.
def regOf (p : Fin 9) (hl : Pipeline.LaunchFacts (nD := nD) (τ := τ) cfgs p)
    (hb : ∀ c, BodyObligation (pdats m ρ p c) (defs₀ (F := F)) 𝒱₀ () Set.univ)
    (Wi Wo : Dev nD → Valuation τ sig (Elt F))
    (hF : ∀ c w, (pdats m ρ p c).arrAt w (cfgs p).N = Wo c (Pipeline.arrRef (cfgs p).spec w))
    (hrest : ∀ c b, b ∉ Finset.univ.image (Pipeline.arrRef (cfgs p).spec) → Wo c b = Wi c b)
    (hΦ : ∀ c, (pdats m ρ p c).Φ 0 = Pipeline.ΦA (cfgs p).spec c := by exact fun _ => rfl)
    (hΦ' : ∀ c, (pdats m ρ p c).Φ (Fin.last _) ⊢ Pipeline.ΦA (cfgs p).spec c := by exact fun _ => .rfl)
    (hq : ∀ c w, (pdats m ρ p c).q w = fullShare := by exact fun _ _ => rfl)
    (hA : ∀ c w, (pdats m ρ p c).A w = Wi c (Pipeline.arrRef (cfgs p).spec w) := by exact fun _ _ => rfl)
    (h0 : ∀ c t, (pdats m ρ p c).owed t = 0 := by exact fun _ _ => rfl)
    (hr : ∀ c, (pdats m ρ p c).recorded 0 = Set.univ := by exact fun _ => rfl) :
    Pipeline.RegionSeg (pcfgs (F := F)) adm (pdats m ρ) () defs₀ 𝒱₀ L lv p where
  win := hl.win.to₀
  block_pos := hl.block_pos
  stage_whole := hl.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m ρ) hl.win hl.arr_whole c
      ((pdats m ρ p c).share_full (hq c)) (fun b => Wi c b) (hA c)
    rw [Pipeline.unscopedBufs_held] at hsplit
    unfold Pipeline.Dat.owesAt Pipeline.owesWithin Pipeline.Dat.bound Pipeline.prefHeld
    rw [h0 c, hr c, show (Finset.univ : Finset (Fin 0)) = ∅ from rfl, BI.bigSep_empty]
    iintro ⟨⟨Hub, Hp, %W, HO⟩, -, -⟩
    ihave H := hsplit $$ Hub
    icases H with ⟨Ha, Hrest⟩
    imodintro
    isplitl [Ha]; · iexact Ha
    isplitr; · iempintro
    isplitl [HO]
    · iexists W; isplitr; · ipureintro; exact fun _ _ => Or.inl trivial
      iexact HO
    isplitl [Hp]; · iexact Hp
    iexact Hrest
  hin c := by
    rw [hΦ c]; unfold Pipeline.ΦA
    iintro ⟨Hp, -, Hr⟩
    isplitl [Hr]; · iexact Hr
    iexact Hp
  hout c := by
    rw [Pipeline.ownSems0_none]
    refine (hΦ' c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c (pdats m ρ) ((pdats m ρ p c).share_full (hq c))
      (fun b => Wi c b) (fun b => Wo c b) ((pdats m ρ p c).arrAt · (cfgs p).N) (hF c) (hrest c)
    rw [Pipeline.unscopedBufs_held] at hjoin
    unfold Pipeline.Dat.owesAt Pipeline.owesWithin
    rw [h0 c]
    iintro ⟨Ha, ⟨%W, -, HO⟩, HY, Hrest⟩
    imodintro
    isplitl [Ha Hrest]
    · iapply hjoin; isplitl [Ha] <;> iassumption
    isplitl [HY]; · iexact HY
    iexists W; iexact HO

def reg0 := regOf m ρ 0 launch0 (body_obligation0 (V1 m ρ)) (W1 m ρ) (W2 m ρ) (hF0 m ρ) (hrest0 m ρ)
def reg1 := regOf m ρ 1 launch1 (body_obligation1 (V5 m ρ)) (W5 m ρ) (W6 m ρ) (hF1 m ρ) (hrest1 m ρ)
def reg2 := regOf m ρ 2 launch2 (body_obligation2 (V6 m ρ)) (W6 m ρ) (W7 m ρ) (hF2 m ρ) (hrest2 m ρ)
def reg3 := regOf m ρ 3 launch3 (body_obligation3 (V10 m ρ)) (W10 m ρ) (W11 m ρ) (hF3 m ρ) (hrest3 m ρ)
def reg4 := regOf m ρ 4 launch4 (body_obligation4 (V12 m ρ)) (W12 m ρ) (W13 m ρ) (hF4 m ρ) (hrest4 m ρ)
def reg5 := regOf m ρ 5 launch5 (body_obligation5 (V16 m ρ)) (W16 m ρ) (W17 m ρ) (hF5 m ρ) (hrest5 m ρ)
def reg6 := regOf m ρ 6 launch6 (body_obligation6 (V17 m ρ)) (W17 m ρ) (W18 m ρ) (hF6 m ρ) (hrest6 m ρ)
def reg7 := regOf m ρ 7 launch7 (body_obligation7 (V21 m ρ)) (W21 m ρ) (W22 m ρ) (hF7 m ρ) (hrest7 m ρ)
def reg8 := regOf m ρ 8 launch8 (body_obligation8 (V23 m ρ)) (W23 m ρ) (W24 m ρ) (hF8 m ρ) (hrest8 m ρ)
  (Phi8_zero (V23 m ρ)) (Phi8_last (V23 m ρ))

end Cert.KernelIdeal.Hand

end
-- ==== Proof.KI.Run.lean ====
import proofs.«427383_j1159641169925_2_alg».proof.Proof.KI.Regs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .region (reg2 m ρ),
    .host (hseg hostOps3 hostOps3_sub hostOps3_fresh (W7 m ρ)),
    .host (hseg hostOps3_1 hostOps3_1_sub hostOps3_1_fresh (W8 m ρ)),
    .host (hseg hostOps3_2 hostOps3_2_sub hostOps3_2_fresh (W9 m ρ)),
    .region (reg3 m ρ),
    .host (hseg hostOps4 hostOps4_sub hostOps4_fresh (W11 m ρ)),
    .region (reg4 m ρ),
    .host (hseg hostOps5 hostOps5_sub hostOps5_fresh (W13 m ρ)),
    .host (hseg hostOps5_1 hostOps5_1_sub hostOps5_1_fresh (W14 m ρ)),
    .host (hseg hostOps5_2 hostOps5_2_sub hostOps5_2_fresh (W15 m ρ)),
    .region (reg5 m ρ),
    .region (reg6 m ρ),
    .host (hseg hostOps7 hostOps7_sub hostOps7_fresh (W18 m ρ)),
    .host (hseg hostOps7_1 hostOps7_1_sub hostOps7_1_fresh (W19 m ρ)),
    .host (hseg hostOps7_2 hostOps7_2_sub hostOps7_2_fresh (W20 m ρ)),
    .region (reg7 m ρ),
    .host (hseg hostOps8 hostOps8_sub hostOps8_fresh (W22 m ρ)),
    .region (reg8 m ρ),
    .host (hseg hostOps9 hostOps9_sub hostOps9_fresh (W24 m ρ)) ]

-- @main is the run of its 25 segments: both are the chain of the same 25 items.
theorem main_run (c : Dev nD) : main (F := F) c = Pipeline.Seg.run (segs m ρ) :=
  (main_chain c).trans (Pipeline.Seg.run_eq_chain (segs m ρ)).symm

abbrev Tₙ (c : Dev nD) : sProp 𝕄 := iprop(StableHlo.held (c : Thread nD τ) (Pipeline.ucRefs τ sig) (W25 m ρ c) ∗ ∃ r, prngReg c r)

-- Every weakly fair execution of @main terminates, and each unscoped buffer of each core ends at `W25`.
set_option backward.isDefEq.respectTransparency.types false in
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W25 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := by
      repeat refine ⟨fun _ => .rfl, ?_⟩
      exact fun _ => sep_assoc')
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := hQ)

theorem run_all : θ_run defs (onTc (τ := τ) (main (F := F))) ⟨m, fun _ => 0, ρ⟩
    (fun r => ∀ c : Dev nD, ∀ b ∈ Pipeline.ucRefs τ sig, r.2.mem (((c : Thread nD τ)).1, b) = W25 m ρ c b) :=
  run_post m ρ fun _ h => h

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_post m ρ fun s h c =>
    have k (r : Ref sig .tc) hr (e : W25 m ρ c (Proc.devRef .tc r) = m ((c : Thread nD τ).loc r)) := (h c _ (mem_uc r hr)).trans e
    ⟨k main_arg0 (by decide) (W25_main_arg0 m ρ c),
    k main_arg1 (by decide) (W25_main_arg1 m ρ c),
    k main_arg2 (by decide) (W25_main_arg2 m ρ c),
    k main_arg3 (by decide) (W25_main_arg3 m ρ c),
    k main_arg4 (by decide) (W25_main_arg4 m ρ c),
    k main_arg5 (by decide) (W25_main_arg5 m ρ c),
    k main_arg6 (by decide) (W25_main_arg6 m ρ c),
    k main_arg7 (by decide) (W25_main_arg7 m ρ c),
    k main_arg8 (by decide) (W25_main_arg8 m ρ c),
    k main_arg9 (by decide) (W25_main_arg9 m ρ c)⟩

end Cert.KernelIdeal.Hand

end
-- ==== Proof.Ref.RefFrame.lean ====
import proofs.«427383_j1159641169925_2_alg».proof.Defs
import proofs.«427383_j1159641169925_2_alg».proof.Proof.Gen.ReferenceIdeal.Run
import proofs.«427383_j1159641169925_2_alg».proof.Proof.Gen.Pre_finite_inputs

noncomputable section

namespace Cert.ReferenceIdeal.Hand

open Idealize.ShloMosaic Idealize.ShloMosaic.TcCoe Idealize.SL.Sem

-- The run's statement gives the result and the arguments together; the frame keeps the arguments.
theorem ref_frame : Cert.frame_ReferenceIdeal :=
  fun m ρ _ => (θ_run Cert.ReferenceIdeal.defs _ _).mono (fun _ h c => (h c).2)
    (Cert.ReferenceIdeal.Value.run (F := Ideal) m ρ)

end Cert.ReferenceIdeal.Hand

end
-- ==== Proof.Spec.lean ====
import Idealize.ShloMosaic.PureOps.Ideal

noncomputable section

open scoped BigOperators

namespace Cert.Spec

open Idealize.ShloMosaic

-- Edge `j` of the concatenated list has type `j / 40000`.
def ty (j : Fin 160000) : Fin 4 := ⟨j.val / 40000, by omega⟩

def nt {C : Nat} (h : Fin 10000 → Fin 512 → EReal) (w : Fin 512 → Fin C → EReal) (r : Fin 10000) (q : Fin C) : EReal :=
  ∑ k : Fin 512, h r k * w k q

-- The four types' message weights side by side: column `t * 512 + o` of row `i` is `Wm t o i`.
def wcat (Wm : Fin 4 → Fin 512 → Fin 512 → EReal) (i : Fin 512) (q : Fin 2048) : EReal :=
  Wm ⟨q.val / 512, by omega⟩ ⟨q.val % 512, Nat.mod_lt _ (by norm_num)⟩ i

-- Per type, the number of that type's edges into `r`, times the type's bias.
def cntb (tgt : Fin 160000 → Fin 10000) (bm : Fin 4 → Fin 512 → EReal) (r : Fin 10000) (q : Fin 512) : EReal :=
  ∑ t : Fin 4, (∑ _j ∈ Finset.univ.filter (fun j : Fin 160000 => tgt j = r ∧ ty j = t), (1 : EReal)) * bm t q

-- The incoming sum when every node is first transformed against all four types' weights.
def incK (src tgt : Fin 160000 → Fin 10000) (y : Fin 10000 → Fin 2048 → EReal) (cb : Fin 10000 → Fin 512 → EReal)
    (r : Fin 10000) (q : Fin 512) : EReal :=
  (∑ j ∈ Finset.univ.filter (fun j : Fin 160000 => tgt j = r),
      y (src j) ⟨(ty j).val * 512 + q.val, by have := (ty j).isLt; have := q.isLt; omega⟩) + cb r q

-- The incoming sum when each edge transforms its source's state by its own type.
def incR (src tgt : Fin 160000 → Fin 10000) (h : Fin 10000 → Fin 512 → EReal)
    (Wm : Fin 4 → Fin 512 → Fin 512 → EReal) (bm : Fin 4 → Fin 512 → EReal) (r : Fin 10000) (q : Fin 512) : EReal :=
  ∑ j ∈ Finset.univ.filter (fun j : Fin 160000 => tgt j = r),
    ((∑ k : Fin 512, h (src j) k * Wm (ty j) q k) + bm (ty j) q)

-- The gated recurrent cell at one node and one feature; the three gates' columns follow one another, 512 each.
def gru (inc h : Fin 10000 → Fin 512 → EReal) (wih whh : Fin 512 → Fin 1536 → EReal) (bih bhh : Fin 1536 → EReal)
    (r : Fin 10000) (q : Fin 512) : EReal :=
  let gi : Fin 1536 → EReal := fun g => (∑ k : Fin 512, inc r k * wih k g) + bih g
  let gh : Fin 1536 → EReal := fun g => (∑ k : Fin 512, h r k * whh k g) + bhh g
  let g0 : Fin 1536 := ⟨q.val, by have := q.isLt; omega⟩
  let g1 : Fin 1536 := ⟨512 + q.val, by have := q.isLt; omega⟩
  let g2 : Fin 1536 := ⟨1024 + q.val, by have := q.isLt; omega⟩
  let rr := Ideal.logistic (gi g0 + gh g0)
  let z := Ideal.logistic (gi g1 + gh g1)
  let n := Ideal.tanh (gi g2 + rr * gh g2)
  ((1 : EReal) - z) * n + z * h r q

def stepK (src tgt : Fin 160000 → Fin 10000) (Wm : Fin 4 → Fin 512 → Fin 512 → EReal) (bm : Fin 4 → Fin 512 → EReal)
    (wih whh : Fin 512 → Fin 1536 → EReal) (bih bhh : Fin 1536 → EReal) (h : Fin 10000 → Fin 512 → EReal) :
    Fin 10000 → Fin 512 → EReal :=
  gru (incK src tgt (nt h (wcat Wm)) (cntb tgt bm)) h wih whh bih bhh

def stepR (src tgt : Fin 160000 → Fin 10000) (Wm : Fin 4 → Fin 512 → Fin 512 → EReal) (bm : Fin 4 → Fin 512 → EReal)
    (wih whh : Fin 512 → Fin 1536 → EReal) (bih bhh : Fin 1536 → EReal) (h : Fin 10000 → Fin 512 → EReal) :
    Fin 10000 → Fin 512 → EReal :=
  gru (incR src tgt h Wm bm) h wih whh bih bhh

-- The last layer, then per feature the maximum over the nodes.
def fc (h : Fin 10000 → Fin 512 → EReal) (w : Fin 512 → Fin 512 → EReal) (b : Fin 512 → EReal) (q : Fin 512) : EReal :=
  Finset.univ.sup fun r : Fin 10000 => (∑ k : Fin 512, h r k * w k q) + b q

-- Two steps with each layer's weights, then the last layer and the pooling.
def net (step : (Fin 4 → Fin 512 → Fin 512 → EReal) → (Fin 4 → Fin 512 → EReal) → (Fin 512 → Fin 1536 → EReal)
      → (Fin 512 → Fin 1536 → EReal) → (Fin 1536 → EReal) → (Fin 1536 → EReal) → (Fin 10000 → Fin 512 → EReal)
      → Fin 10000 → Fin 512 → EReal)
    (x : Fin 10000 → Fin 512 → EReal) (Wmsg : Fin 2 → Fin 4 → Fin 512 → Fin 512 → EReal) (bmsg : Fin 2 → Fin 4 → Fin 512 → EReal)
    (Wih Whh : Fin 2 → Fin 1536 → Fin 512 → EReal) (bih bhh : Fin 2 → Fin 1536 → EReal)
    (fcW : Fin 512 → Fin 512 → EReal) (fcb : Fin 512 → EReal) : Fin 512 → EReal :=
  let s (l : Fin 2) := step (Wmsg l) (bmsg l) (fun k g => Wih l g k) (fun k g => Whh l g k) (bih l) (bhh l)
  fc (s 1 (s 1 (s 0 (s 0 x)))) (fun k o => fcW o k) fcb

end Cert.Spec

end
-- ==== Proof.Math.Step.lean ====
import proofs.«427383_j1159641169925_2_alg».proof.Proof.Spec
import Mathlib.Data.EReal.Operations
import Mathlib.Algebra.BigOperators.Group.Finset.Basic

noncomputable section

open scoped BigOperators

namespace Cert.Spec

-- A sum of (product + bias) splits; the bias sum regroups by edge type, and a count times a bias is the bias added that often.
theorem stepK_eq_stepR (src tgt : Fin 160000 → Fin 10000) : stepK src tgt = stepR src tgt := by
  funext Wm bm wih whh b1 b2 h
  have e : incK src tgt (nt h (wcat Wm)) (cntb tgt bm) = incR src tgt h Wm bm := by
    funext r q
    unfold incK incR cntb nt wcat
    rw [Finset.sum_add_distrib, ← Finset.sum_fiberwise' _ ty fun t => bm t q]
    refine congrArg₂ (· + ·) (Finset.sum_congr rfl fun j _ => Finset.sum_congr rfl fun k _ => ?_)
      (Finset.sum_congr rfl fun t _ => ?_)
    · exact congrArg (h (src j) k * ·) (congrArg₂ (fun a b => Wm a b k)
        (Fin.ext (by dsimp only; omega)) (Fin.ext (by dsimp only; omega)))
    · rw [Finset.filter_filter, Finset.sum_const, Finset.sum_const, EReal.nsmul_eq_mul, EReal.nsmul_eq_mul, mul_one]
  unfold stepK stepR
  rw [e]

end Cert.Spec

end
-- ==== Proof.PreFacts.lean ====
import proofs.«427383_j1159641169925_2_alg».proof.Pre_finite_inputs
import Idealize.ShloMosaic.Lib.ReduceAll
import Idealize.ShloMosaic.Lib.StableHlo.Predicate
import Idealize.ShloMosaic.Lib.ValueIdx

namespace Cert.Proof.PreFacts

open Idealize.ShloMosaic
open Cert.Pre_finite_inputs

instance : Subsingleton S_.Idx := ⟨fun a b => funext fun d => d.elim0⟩

-- The precondition's last two clauses, read at one entry of the edge array: the entry is a node number.
theorem edges_in_range {F : FTy → Type} [FloatOps F] [Facts] {a0 a1 a2 a3 a4 a5 a6 a7 a8 a9}
    (h : fn (F := F) a0 a1 a2 a3 a4 a5 a6 a7 a8 a9 = fun _ => 1#1) (i : S4x40000x2.Idx) :
    0 ≤ (a1 i).toInt ∧ (a1 i).toInt < 10000 := by
  have h0 := congrFun h ValueIdx.ix0
  dsimp only [fn, fn_part1, fn_part2, fn_part3] at h0
  obtain ⟨hrest, hlt⟩ := IntOp.andi_eq_one.1 h0
  obtain ⟨_, hge⟩ := IntOp.andi_eq_one.1 hrest
  have hge' := IntOp.cmpi_sge.1 (Host.reduce_andi_all _ _ _ _ _ hge i)
  have hlt' := IntOp.cmpi_slt.1 (Host.reduce_andi_all _ _ _ _ _ hlt i)
  rw [StableHlo.Predicate.bcast_scalar _ Facts.h_S_] at hge' hlt'
  exact ⟨hge', hlt'⟩

end Cert.Proof.PreFacts
-- ==== Proof.SpecArgs.lean ====
import proofs.«427383_j1159641169925_2_alg».proof.Proof.Spec
import Idealize.ShloMosaic.Lib.ValueIdx

noncomputable section

namespace Cert.Spec

open Idealize.ShloMosaic Idealize.ShloMosaic.ValueIdx

-- Entry `(t, e, 0)` of the edge array is the source of edge `t * 40000 + e`, entry `(t, e, 1)` its target.
def EdgesAre (a1 : IVec ⟨3, ![4, 40000, 2]⟩ 32) (src tgt : Fin 160000 → Fin 10000) : Prop :=
  ∀ (t : Fin 4) (e : Fin 40000),
    (a1 (ix3 t e (0 : Fin 2))).toInt = ((src ⟨t.val * 40000 + e.val, by have := t.isLt; have := e.isLt; omega⟩).val : ℤ)
    ∧ (a1 (ix3 t e (1 : Fin 2))).toInt = ((tgt ⟨t.val * 40000 + e.val, by have := t.isLt; have := e.isLt; omega⟩).val : ℤ)

-- The network over the argument arrays, each read at its coordinates.
def netOf (step : (Fin 4 → Fin 512 → Fin 512 → EReal) → (Fin 4 → Fin 512 → EReal) → (Fin 512 → Fin 1536 → EReal)
      → (Fin 512 → Fin 1536 → EReal) → (Fin 1536 → EReal) → (Fin 1536 → EReal) → (Fin 10000 → Fin 512 → EReal)
      → Fin 10000 → Fin 512 → EReal)
    (a0 : (⟨2, ![10000, 512]⟩ : Shape).Idx → EReal) (a2 : (⟨4, ![2, 4, 512, 512]⟩ : Shape).Idx → EReal)
    (a3 : (⟨3, ![2, 4, 512]⟩ : Shape).Idx → EReal) (a4 a5 : (⟨3, ![2, 1536, 512]⟩ : Shape).Idx → EReal)
    (a6 a7 : (⟨2, ![2, 1536]⟩ : Shape).Idx → EReal) (a8 : (⟨2, ![512, 512]⟩ : Shape).Idx → EReal)
    (a9 : (⟨1, ![512]⟩ : Shape).Idx → EReal) (q : Fin 512) : EReal :=
  net step (fun r k => a0 (ix2 r k)) (fun l t o i => a2 (ix4 l t o i)) (fun l t o => a3 (ix3 l t o))
    (fun l g k => a4 (ix3 l g k)) (fun l g k => a5 (ix3 l g k)) (fun l g => a6 (ix2 l g)) (fun l g => a7 (ix2 l g))
    (fun o k => a8 (ix2 o k)) (fun o => a9 (ix1 o)) q

end Cert.Spec

end
-- ==== Proof.Edges.lean ====
import proofs.«427383_j1159641169925_2_alg».proof.Proof.SpecArgs

noncomputable section

namespace Cert.Spec

open Idealize.ShloMosaic Idealize.ShloMosaic.ValueIdx

-- An edge array whose entries all lie in [0, 10000) is an edge list: edge `j` is row `j % 40000` of type `j / 40000`.
theorem exists_edges (a1 : IVec ⟨3, ![4, 40000, 2]⟩ 32)
    (h : ∀ i : (⟨3, ![4, 40000, 2]⟩ : Shape).Idx, 0 ≤ (a1 i).toInt ∧ (a1 i).toInt < 10000) :
    ∃ src tgt : Fin 160000 → Fin 10000, EdgesAre a1 src tgt := by
  have hn : ∀ i, ∃ n : Fin 10000, (a1 i).toInt = (n.val : ℤ) := fun i =>
    ⟨⟨(a1 i).toInt.toNat, by have := h i; omega⟩, by have := h i; show _ = ((a1 i).toInt.toNat : ℤ); omega⟩
  choose f hf using hn
  refine ⟨fun j => f (ix3 (ty j) ⟨j.val % 40000, Nat.mod_lt _ (by norm_num)⟩ 0),
    fun j => f (ix3 (ty j) ⟨j.val % 40000, Nat.mod_lt _ (by norm_num)⟩ 1), fun t e => ?_⟩
  have ht : ty ⟨t.val * 40000 + e.val, by omega⟩ = t := Fin.ext (by show (t.val * 40000 + e.val) / 40000 = t.val; omega)
  have he : (⟨(t.val * 40000 + e.val) % 40000, Nat.mod_lt _ (by norm_num)⟩ : Fin 40000) = e :=
    Fin.ext (by show (t.val * 40000 + e.val) % 40000 = e.val; omega)
  dsimp only
  rw [ht, he]
  exact ⟨hf _, hf _⟩

end Cert.Spec

end
-- ==== Proof.KI.GlueOps.lean ====
import proofs.«427383_j1159641169925_2_alg».proof.KernelIdeal

noncomputable section

namespace Cert.KernelIdeal.Hand

open Cert.KernelIdeal
open Idealize.ShloMosaic

variable {F : FTy → Type} [FloatOps F]
variable [Facts]
open Facts₀ Facts

-- Component `c` of every entry of the edge array, the four types' rows laid end to end.
def kCol (c : Nat) (h : S4x40000x2.Slices ![0, 0, c] S4x40000x1) (a1 : IVec S4x40000x2 32) : IVec S160000 32 :=
  shapeCast S160000
    (shapeCast S4x40000 (extractStridedSlice S4x40000x1 ![0, 0, c] a1 h) shapeCasts_S4x40000x1_S4x40000)
    shapeCasts_S4x40000_S160000

def kSrcW (a1 : IVec S4x40000x2 32) := kCol 0 slices_S4x40000x2_S4x40000x1_0_0_0 a1
def kTgtW (a1 : IVec S4x40000x2 32) := kCol 1 slices_S4x40000x2_S4x40000x1_0_0_1 a1

def kTyW : IVec S160000 32 :=
  shapeCast S160000 (broadcastInDim S4x40000 ![0] bcast_S4_S4x40000_0 (iotaInDim S4 32 0)) shapeCasts_S4x40000_S160000

def kFlat (a1 : IVec S4x40000x2 32) : IVec S160000 32 :=
  addi (muli (kSrcW a1) (broadcastInDim S160000 ![] bcast_S_S160000 (constantI S_ 32 4#32))) kTyW

-- A word list with every word below zero moved up by `n`.
def kWrap (x : IVec S160000 32) (n : BitVec 32) : IVec S160000 32 :=
  select (cmpi .slt x (broadcastInDim S160000 ![] bcast_S_S160000 (constantI S_ 32 0#32)))
    (addi x (broadcastInDim S160000 ![] bcast_S_S160000 (constantI S_ 32 n)))
    x

def kCntIdx (a1 : IVec S4x40000x2 32) : IVec S160000x2 32 :=
  concatenate S160000x2 1
    [⟨S160000x1, broadcastInDim S160000x1 ![0] bcast_S160000_S160000x1_0 (kWrap (kTgtW a1) 10000#32)⟩,
     ⟨S160000x1, broadcastInDim S160000x1 ![0] bcast_S160000_S160000x1_0 (kWrap kTyW 4#32)⟩]
    concatenates_S160000x1_S160000x1_S160000x2_d1

def kCounts (a1 : IVec S4x40000x2 32) : FVec F S10000x4 .f32 :=
  Host.scatterAdd scatter_S10000x4_S160000x2_S160000_n_01_01_1
    (broadcastInDim S10000x4 ![] bcast_S_S10000x4 (constant S_ .f32 0x00000000#32))
    (kCntIdx a1)
    (broadcastInDim S160000 ![] bcast_S_S160000 (constant S_ .f32 0x3F800000#32))

def kBias (a1 : IVec S4x40000x2 32) (bm : FVec F S4x512 .f32) : FVec F S10000x512 .f32 :=
  Host.dotGeneral dot_S10000x4_S4x512_S10000x512_1_0_0_1_n_n none (kCounts a1) bm

def kTakeCol (flat : IVec S160000 32) : IVec S160000x1 32 :=
  broadcastInDim S160000x1 ![0] bcast_S160000_S160000x1_0 (kWrap flat 40000#32)

def kTakeMask (flat : IVec S160000 32) : IVec S160000 1 :=
  Host.reduce IntOp.andi
    (andi
      (cmpi .sge (kTakeCol flat) (broadcastInDim S160000x1 ![] bcast_S_S160000x1 (constantI S_ 32 0#32)))
      (cmpi .sle (kTakeCol flat)
        (broadcastInDim S160000x1 ![0, 1] bcast_S1x1_S160000x1_0_1
          (broadcastInDim S1x1 ![1] bcast_S1_S1x1_1 (constantI S1 32 39999#32)))))
    (constantI S_ 1 1#1) reducesTo_S160000x1_S160000_d1 h_S_

def kTake (y2 : FVec F S40000x512 .f32) (flat : IVec S160000 32) : FVec F S160000x512 .f32 :=
  select (broadcastInDim S160000x512 ![0] bcast_S160000_S160000x512_0 (kTakeMask flat))
    (Host.gather gather_S40000x512_S160000x1_S160000x512_1_0_n_n_0_1_1512 y2 (kTakeCol flat))
    (broadcastInDim S160000x512 ![] bcast_S_S160000x512 (constant S_ .f32 0x7FC00000#32))

def kInc (y : FVec F S10000x2048 .f32) (a1 : IVec S4x40000x2 32) (bias : FVec F S10000x512 .f32) : FVec F S10000x512 .f32 :=
  addf
    (Host.scatterAdd scatter_S10000x512_S160000x1_S160000x512_1_0_0_1
      (broadcastInDim S10000x512 ![] bcast_S_S10000x512 (constant S_ .f32 0x00000000#32))
      (broadcastInDim S160000x1 ![0] bcast_S160000_S160000x1_0 (kTgtW a1))
      (kTake (shapeCast S40000x512 y shapeCasts_S10000x2048_S40000x512) (kFlat a1)))
    bias

end Cert.KernelIdeal.Hand

end
-- ==== Proof.KI.PrepOps.lean ====
import proofs.«427383_j1159641169925_2_alg».proof.KernelIdeal

noncomputable section

namespace Cert.KernelIdeal.Hand

open Cert.KernelIdeal
open Idealize.ShloMosaic

variable {F : FTy → Type} [FloatOps F]
variable [Facts]
open Facts₀ Facts

-- The four edge types' message weights of the layer cut at `o`: input axis first, (type, output) flattened, rounded.
def kWcat (o : Nat) (h : S2x4x512x512.Slices ![o, 0, 0, 0] S1x4x512x512) (a : FVec F S2x4x512x512 .f32) :
    FVec F S512x2048 .bf16 :=
  truncf .bf16
    (shapeCast S512x2048
      (transpose S512x4x512 [2, 0, 1]
        (shapeCast S4x512x512 (extractStridedSlice S1x4x512x512 ![o, 0, 0, 0] a h) shapeCasts_S1x4x512x512_S4x512x512)
        transposes_S4x512x512_S512x4x512_2_0_1)
      shapeCasts_S512x4x512_S512x2048)
    bitsLt_bf16_f32

def kWcat0 (a2 : FVec F S2x4x512x512 .f32) := kWcat 0 slices_S2x4x512x512_S1x4x512x512_0_0_0_0 a2
def kWcat1 (a2 : FVec F S2x4x512x512 .f32) := kWcat 1 slices_S2x4x512x512_S1x4x512x512_1_0_0_0 a2

-- A cell weight matrix of the layer cut at `o`, transposed and rounded.
def kWT (o : Nat) (h : S2x1536x512.Slices ![o, 0, 0] S1x1536x512) (a : FVec F S2x1536x512 .f32) : FVec F S512x1536 .bf16 :=
  truncf .bf16
    (transpose S512x1536 [1, 0]
      (shapeCast S1536x512 (extractStridedSlice S1x1536x512 ![o, 0, 0] a h) shapeCasts_S1x1536x512_S1536x512)
      transposes_S1536x512_S512x1536_1_0)
    bitsLt_bf16_f32

def kWihT0 (a4 : FVec F S2x1536x512 .f32) := kWT 0 slices_S2x1536x512_S1x1536x512_0_0_0 a4
def kWihT1 (a4 : FVec F S2x1536x512 .f32) := kWT 1 slices_S2x1536x512_S1x1536x512_1_0_0 a4
def kWhhT0 (a5 : FVec F S2x1536x512 .f32) := kWT 0 slices_S2x1536x512_S1x1536x512_0_0_0 a5
def kWhhT1 (a5 : FVec F S2x1536x512 .f32) := kWT 1 slices_S2x1536x512_S1x1536x512_1_0_0 a5

-- A cell bias of the layer cut at `o`, as one row.
def kB (o : Nat) (h : S2x1536.Slices ![o, 0] S1x1536) (a : FVec F S2x1536 .f32) : FVec F S1x1536 .f32 :=
  shapeCast S1x1536 (shapeCast S1536 (extractStridedSlice S1x1536 ![o, 0] a h) shapeCasts_S1x1536_S1536)
    shapeCasts_S1536_S1x1536

def kBih0 (a6 : FVec F S2x1536 .f32) := kB 0 slices_S2x1536_S1x1536_0_0 a6
def kBih1 (a6 : FVec F S2x1536 .f32) := kB 1 slices_S2x1536_S1x1536_1_0 a6
def kBhh0 (a7 : FVec F S2x1536 .f32) := kB 0 slices_S2x1536_S1x1536_0_0 a7
def kBhh1 (a7 : FVec F S2x1536 .f32) := kB 1 slices_S2x1536_S1x1536_1_0 a7

def kBm0 (a3 : FVec F S2x4x512 .f32) : FVec F S4x512 .f32 :=
  shapeCast S4x512 (extractStridedSlice S1x4x512 ![0, 0, 0] a3 slices_S2x4x512_S1x4x512_0_0_0) shapeCasts_S1x4x512_S4x512

def kBm1 (a3 : FVec F S2x4x512 .f32) : FVec F S4x512 .f32 :=
  shapeCast S4x512 (extractStridedSlice S1x4x512 ![1, 0, 0] a3 slices_S2x4x512_S1x4x512_1_0_0) shapeCasts_S1x4x512_S4x512

def kFcWT (a8 : FVec F S512x512 .f32) : FVec F S512x512 .bf16 :=
  truncf .bf16 (transpose S512x512 [1, 0] a8 transposes_S512x512_S512x512_1_0) bitsLt_bf16_f32

def kFcb (a9 : FVec F S512 .f32) : FVec F S1x512 .f32 :=
  shapeCast S1x512 a9 shapeCasts_S512_S1x512

def kOut (v : FVec F S1x512 .f32) : FVec F S512 .f32 :=
  shapeCast S512 v shapeCasts_S1x512_S512

end Cert.KernelIdeal.Hand

end
-- ==== Proof.KI.ValueHost0.lean ====
import proofs.«427383_j1159641169925_2_alg».proof.Proof.KI.Fold
import proofs.«427383_j1159641169925_2_alg».proof.Proof.KI.GlueOps
import proofs.«427383_j1159641169925_2_alg».proof.Proof.KI.PrepOps
import Idealize.ShloMosaic.Lib.StableHlo.Run
import Idealize.ShloMosaic.PureOps.Ideal

noncomputable section

namespace Cert.KernelIdeal.Hand

open Cert.KernelIdeal Cert.KernelIdeal.Gen
open Idealize.ShloMosaic Idealize.ShloMosaic.TcCoe Idealize.ShloMosaic.StableHlo
open Facts₀ Facts

variable (m : (ℓ : Loc nD τ sig) → Buf (Elt Ideal) ℓ) (ρ : Dev nD → PrngReg) (c : Dev nD)

-- What the first stretch leaves in the buffers the later items read: its operations, read back to the arguments.
theorem W1_v5 : (StableHlo.after hostOps0 (W0 m ρ c) (Proc.devRef .tc main_v5) : IVec S160000 32) = kTgtW (m ((c : Thread nD τ).loc main_arg1)) := by
  after_results_simp
  rfl
theorem W1_v11 : (StableHlo.after hostOps0 (W0 m ρ c) (Proc.devRef .tc main_v11) : IVec S160000 32) = kFlat (m ((c : Thread nD τ).loc main_arg1)) := by
  after_results_simp
  rfl
theorem W1_v27 : (StableHlo.after hostOps0 (W0 m ρ c) (Proc.devRef .tc main_v27) : FVec Ideal S10000x4 .f32) = kCounts (F := Ideal) (m ((c : Thread nD τ).loc main_arg1)) := by
  after_results_simp
  rfl
theorem W1_v32 : (StableHlo.after hostOps0 (W0 m ρ c) (Proc.devRef .tc main_v32) : FVec Ideal S512x2048 .bf16) = kWcat0 (F := Ideal) (m ((c : Thread nD τ).loc main_arg2)) := by
  after_results_simp
  rfl
theorem W1_v36 : (StableHlo.after hostOps0 (W0 m ρ c) (Proc.devRef .tc main_v36) : FVec Ideal S512x1536 .bf16) = kWihT0 (F := Ideal) (m ((c : Thread nD τ).loc main_arg4)) := by
  after_results_simp
  rfl
theorem W1_v40 : (StableHlo.after hostOps0 (W0 m ρ c) (Proc.devRef .tc main_v40) : FVec Ideal S512x1536 .bf16) = kWhhT0 (F := Ideal) (m ((c : Thread nD τ).loc main_arg5)) := by
  after_results_simp
  rfl
theorem W1_v43 : (StableHlo.after hostOps0 (W0 m ρ c) (Proc.devRef .tc main_v43) : FVec Ideal S1x1536 .f32) = kBih0 (F := Ideal) (m ((c : Thread nD τ).loc main_arg6)) := by
  after_results_simp
  rfl
theorem W1_v46 : (StableHlo.after hostOps0 (W0 m ρ c) (Proc.devRef .tc main_v46) : FVec Ideal S1x1536 .f32) = kBhh0 (F := Ideal) (m ((c : Thread nD τ).loc main_arg7)) := by
  after_results_simp
  rfl
theorem W1_v49 : (StableHlo.after hostOps0 (W0 m ρ c) (Proc.devRef .tc main_v49) : FVec Ideal S10000x512 .f32) = kBias (F := Ideal) (m ((c : Thread nD τ).loc main_arg1)) (kBm0 (F := Ideal) (m ((c : Thread nD τ).loc main_arg3))) := by
  after_results_simp
  rfl

end Cert.KernelIdeal.Hand

end
-- ==== Proof.KI.HostGlueRun.lean ====
import proofs.«427383_j1159641169925_2_alg».proof.Proof.Gen.KernelIdeal.Launch
import proofs.«427383_j1159641169925_2_alg».proof.Proof.KI.GlueOps
import Idealize.ShloMosaic.Lib.StableHlo.Run

set_option maxRecDepth 1648

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

variable (V : Valuation τ sig (Elt F))

theorem hostOps1_v51 :
    (StableHlo.after hostOps1 V (Proc.devRef .tc main_v51) : FVec F S40000x512 .f32)
      = shapeCast S40000x512 (V (Proc.devRef .tc main_v50) : FVec F S10000x2048 .f32) Facts₀.shapeCasts_S10000x2048_S40000x512 := by
  after_results
  rfl

theorem hostOps1_1_v52 :
    (StableHlo.after hostOps1_1 V (Proc.devRef .tc main_v52) : FVec F S160000x512 .f32)
      = kTake (V (Proc.devRef .tc main_v51)) (V (Proc.devRef .tc main_v11)) := by
  after_results_simp
  simp only [TRef.ofBuf, TRef.toBuf, cast_eq]
  rfl

theorem hostOps1_2_v56 :
    (StableHlo.after hostOps1_2 V (Proc.devRef .tc main_v56) : FVec F S10000x512 .f32)
      = addf
          (Host.scatterAdd scatter_S10000x512_S160000x1_S160000x512_1_0_0_1
            (broadcastInDim S10000x512 ![] Facts₀.bcast_S_S10000x512 (constant S_ .f32 0x00000000#32))
            (broadcastInDim S160000x1 ![0] Facts₀.bcast_S160000_S160000x1_0 (V (Proc.devRef .tc main_v5)))
            (V (Proc.devRef .tc main_v52)))
          (V (Proc.devRef .tc main_v49)) := by
  after_results

theorem hostOps3_v59 :
    (StableHlo.after hostOps3 V (Proc.devRef .tc main_v59) : FVec F S40000x512 .f32)
      = shapeCast S40000x512 (V (Proc.devRef .tc main_v58) : FVec F S10000x2048 .f32) Facts₀.shapeCasts_S10000x2048_S40000x512 := by
  after_results
  rfl

theorem hostOps3_1_v60 :
    (StableHlo.after hostOps3_1 V (Proc.devRef .tc main_v60) : FVec F S160000x512 .f32)
      = kTake (V (Proc.devRef .tc main_v59)) (V (Proc.devRef .tc main_v11)) := by
  after_results_simp
  simp only [TRef.ofBuf, TRef.toBuf, cast_eq]
  rfl

theorem hostOps3_2_v64 :
    (StableHlo.after hostOps3_2 V (Proc.devRef .tc main_v64) : FVec F S10000x512 .f32)
      = addf
          (Host.scatterAdd scatter_S10000x512_S160000x1_S160000x512_1_0_0_1
            (broadcastInDim S10000x512 ![] Facts₀.bcast_S_S10000x512 (constant S_ .f32 0x00000000#32))
            (broadcastInDim S160000x1 ![0] Facts₀.bcast_S160000_S160000x1_0 (V (Proc.devRef .tc main_v5)))
            (V (Proc.devRef .tc main_v60)))
          (V (Proc.devRef .tc main_v49)) := by
  after_results

end Cert.KernelIdeal.Hand

end
-- ==== Proof.KI.HostStepRun.lean ====
import proofs.«427383_j1159641169925_2_alg».proof.Proof.Gen.KernelIdeal.Launch
import proofs.«427383_j1159641169925_2_alg».proof.Proof.KI.GlueOps
import proofs.«427383_j1159641169925_2_alg».proof.Proof.KI.PrepOps
import Idealize.ShloMosaic.Lib.StableHlo.Run

set_option maxRecDepth 1648

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

def kScat (tgtw : IVec S160000 32) (rows : FVec F S160000x512 .f32) (bias : FVec F S10000x512 .f32) : FVec F S10000x512 .f32 :=
  addf
    (Host.scatterAdd scatter_S10000x512_S160000x1_S160000x512_1_0_0_1
      (broadcastInDim S10000x512 ![] Facts₀.bcast_S_S10000x512 (constant S_ .f32 0x00000000#32))
      (broadcastInDim S160000x1 ![0] Facts₀.bcast_S160000_S160000x1_0 tgtw)
      rows)
    bias

theorem kInc_eq_kScat (y : FVec F S10000x2048 .f32) (a1 : IVec S4x40000x2 32) (bias : FVec F S10000x512 .f32) :
    kInc y a1 bias = kScat (kTgtW a1) (kTake (shapeCast S40000x512 y Facts₀.shapeCasts_S10000x2048_S40000x512) (kFlat a1)) bias := rfl

variable (V : Valuation τ sig (Elt F))

theorem hostOps4_v87 :
    (StableHlo.after hostOps4 V (Proc.devRef .tc main_v87) : FVec F S10000x512 .f32)
      = Host.dotGeneral dot_S10000x4_S4x512_S10000x512_1_0_0_1_n_n none
          (V (Proc.devRef .tc main_v27) : FVec F S10000x4 .f32) (kBm1 (V (Proc.devRef .tc main_arg3))) := by
  after_results
  rfl

theorem hostOps5_v89 :
    (StableHlo.after hostOps5 V (Proc.devRef .tc main_v89) : FVec F S40000x512 .f32)
      = shapeCast S40000x512 (V (Proc.devRef .tc main_v88) : FVec F S10000x2048 .f32) Facts₀.shapeCasts_S10000x2048_S40000x512 := by
  after_results
  rfl

theorem hostOps5_1_v90 :
    (StableHlo.after hostOps5_1 V (Proc.devRef .tc main_v90) : FVec F S160000x512 .f32)
      = kTake (V (Proc.devRef .tc main_v89)) (V (Proc.devRef .tc main_v11)) := by
  after_results_simp
  simp only [TRef.ofBuf, TRef.toBuf, cast_eq]
  rfl

theorem hostOps5_2_v94 :
    (StableHlo.after hostOps5_2 V (Proc.devRef .tc main_v94) : FVec F S10000x512 .f32)
      = kScat (V (Proc.devRef .tc main_v5)) (V (Proc.devRef .tc main_v90)) (V (Proc.devRef .tc main_v87)) := by
  after_results
  rfl

theorem hostOps7_v97 :
    (StableHlo.after hostOps7 V (Proc.devRef .tc main_v97) : FVec F S40000x512 .f32)
      = shapeCast S40000x512 (V (Proc.devRef .tc main_v96) : FVec F S10000x2048 .f32) Facts₀.shapeCasts_S10000x2048_S40000x512 := by
  after_results
  rfl

theorem hostOps7_1_v98 :
    (StableHlo.after hostOps7_1 V (Proc.devRef .tc main_v98) : FVec F S160000x512 .f32)
      = kTake (V (Proc.devRef .tc main_v97)) (V (Proc.devRef .tc main_v11)) := by
  after_results_simp
  simp only [TRef.ofBuf, TRef.toBuf, cast_eq]
  rfl

theorem hostOps7_2_v102 :
    (StableHlo.after hostOps7_2 V (Proc.devRef .tc main_v102) : FVec F S10000x512 .f32)
      = kScat (V (Proc.devRef .tc main_v5)) (V (Proc.devRef .tc main_v98)) (V (Proc.devRef .tc main_v87)) := by
  after_results
  rfl

end Cert.KernelIdeal.Hand

end
-- ==== Proof.KI.ArgKept.lean ====
import proofs.«427383_j1159641169925_2_alg».proof.Proof.KI.Fold

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (ρ : Dev nD → PrngReg)

-- The contents after the first `n` items of the run.
def Wn : ℕ → Dev nD → Valuation τ sig (Elt F)
  | 0 => W0 m ρ | 1 => W1 m ρ | 2 => W2 m ρ | 3 => W3 m ρ | 4 => W4 m ρ | 5 => W5 m ρ | 6 => W6 m ρ | 7 => W7 m ρ | 8 => W8 m ρ
  | 9 => W9 m ρ | 10 => W10 m ρ | 11 => W11 m ρ | 12 => W12 m ρ | 13 => W13 m ρ | 14 => W14 m ρ | 15 => W15 m ρ | 16 => W16 m ρ | 17 => W17 m ρ
  | 18 => W18 m ρ | 19 => W19 m ρ | 20 => W20 m ρ | 21 => W21 m ρ | 22 => W22 m ρ | 23 => W23 m ρ | 24 => W24 m ρ | _ => W25 m ρ

-- `r` is the array of no output window of the region.
noncomputable def keepsReg {gr : ℕ} (cfg : Pipeline.Cfg sig Λ₀) (win : Fin cfg.W → Pipeline.WinSpec sig gr) (r : Ref sig .tc) : Bool :=
  decide (∀ w, Pipeline.arrRef win w = r → (cfg.win w).isOut = false)

theorem kept_of {gr : ℕ} {cfg : Pipeline.Cfg sig Λ₀} {win : Fin cfg.W → Pipeline.WinSpec sig gr} {X Y : Valuation τ sig (Elt F)}
    (hin : ∀ w, (cfg.win w).isOut = false →
      X (Proc.devRef .tc (Pipeline.arrRef win w)) = Y (Proc.devRef .tc (Pipeline.arrRef win w)))
    (hne : ∀ b, (∀ w, Pipeline.arrRef win w ≠ b) → X (Proc.devRef .tc b) = Y (Proc.devRef .tc b))
    {r : Ref sig .tc} (h : keepsReg cfg win r = true) : X (Proc.devRef .tc r) = Y (Proc.devRef .tc r) := by
  by_cases e : ∃ w, Pipeline.arrRef win w = r
  · obtain ⟨w, rfl⟩ := e
    exact hin w (of_decide_eq_true h w rfl)
  · exact hne r fun w hw => e ⟨w, hw⟩

-- Item `k` of the run does not change `r`: no operation of a stretch writes it, no output window of a region (for the last three regions: no window) has it as array.
noncomputable def keeps (r : Ref sig .tc) : ℕ → Bool
  | 0 => r ∉ hostOps0_W | 1 => keepsReg cfg0 spec0 r | 2 => r ∉ hostOps1_W | 3 => r ∉ hostOps1_1_W | 4 => r ∉ hostOps1_2_W
  | 5 => keepsReg cfg1 spec1 r | 6 => keepsReg cfg2 spec2 r | 7 => r ∉ hostOps3_W | 8 => r ∉ hostOps3_1_W | 9 => r ∉ hostOps3_2_W
  | 10 => ∀ w, Pipeline.arrRef spec3 w ≠ r | 11 => r ∉ hostOps4_W | 12 => keepsReg cfg4 spec4 r | 13 => r ∉ hostOps5_W | 14 => r ∉ hostOps5_1_W
  | 15 => r ∉ hostOps5_2_W | 16 => keepsReg cfg5 spec5 r | 17 => keepsReg cfg6 spec6 r | 18 => r ∉ hostOps7_W | 19 => r ∉ hostOps7_1_W
  | 20 => r ∉ hostOps7_2_W | 21 => ∀ w, Pipeline.arrRef spec7 w ≠ r | 22 => r ∉ hostOps8_W | 23 => ∀ w, Pipeline.arrRef spec8 w ≠ r | 24 => r ∉ hostOps9_W
  | _ => true

theorem Wn_succ (c : Dev nD) (r : Ref sig .tc) : ∀ k, keeps r k = true →
    Wn m ρ (k + 1) c (Proc.devRef .tc r) = Wn m ρ k c (Proc.devRef .tc r)
  | 0, h => W1_keep m ρ c r (of_decide_eq_true h)
  | 1, h => kept_of (W2_in m ρ c) (W2_of_ne m ρ c) h
  | 2, h => W3_keep m ρ c r (of_decide_eq_true h)
  | 3, h => W4_keep m ρ c r (of_decide_eq_true h)
  | 4, h => W5_keep m ρ c r (of_decide_eq_true h)
  | 5, h => kept_of (W6_in m ρ c) (W6_of_ne m ρ c) h
  | 6, h => kept_of (W7_in m ρ c) (W7_of_ne m ρ c) h
  | 7, h => W8_keep m ρ c r (of_decide_eq_true h)
  | 8, h => W9_keep m ρ c r (of_decide_eq_true h)
  | 9, h => W10_keep m ρ c r (of_decide_eq_true h)
  | 10, h => W11_of_ne m ρ c r (of_decide_eq_true h)
  | 11, h => W12_keep m ρ c r (of_decide_eq_true h)
  | 12, h => kept_of (W13_in m ρ c) (W13_of_ne m ρ c) h
  | 13, h => W14_keep m ρ c r (of_decide_eq_true h)
  | 14, h => W15_keep m ρ c r (of_decide_eq_true h)
  | 15, h => W16_keep m ρ c r (of_decide_eq_true h)
  | 16, h => kept_of (W17_in m ρ c) (W17_of_ne m ρ c) h
  | 17, h => kept_of (W18_in m ρ c) (W18_of_ne m ρ c) h
  | 18, h => W19_keep m ρ c r (of_decide_eq_true h)
  | 19, h => W20_keep m ρ c r (of_decide_eq_true h)
  | 20, h => W21_keep m ρ c r (of_decide_eq_true h)
  | 21, h => W22_of_ne m ρ c r (of_decide_eq_true h)
  | 22, h => W23_keep m ρ c r (of_decide_eq_true h)
  | 23, h => W24_of_ne m ρ c r (of_decide_eq_true h)
  | 24, h => StableHlo.after_of_writes_sub hostOps9 (W24 m ρ c) hostOps9_writes (of_decide_eq_true h)
  | _ + 25, _ => rfl

-- A buffer that none of the `n` items from item `i` on changes holds after them what it held before.
theorem kept (c : Dev nD) (r : Ref sig .tc) (i n : ℕ) (h : ∀ k < n, keeps r (i + k) = true) :
    Wn m ρ (i + n) c (Proc.devRef .tc r) = Wn m ρ i c (Proc.devRef .tc r) := by
  induction n with
  | zero => rfl
  | succ n ih => exact (Wn_succ m ρ c r _ (h n n.lt_succ_self)).trans (ih fun k hk => h k (Nat.lt_succ_of_lt hk))

end Cert.KernelIdeal.Hand

end
-- ==== Proof.LibRows.lean ====
import Idealize.ShloMosaic.Lib.ValueIdx
import Idealize.ShloMosaic.PureOps.Ideal

noncomputable section

open scoped BigOperators

namespace Cert.LibRows

open Idealize.ShloMosaic Idealize.ShloMosaic.ValueIdx

-- Rows of a rank-2 table gathered under any index shape: result index `j` reads the row its clamped start index names.
theorem gather_row {α : Type} {N C w : Nat} {si t : Shape} (d : GatherDims ⟨2, ![N, C]⟩ si t)
    (hcoll : d.collapsedSliceDims = [0]) (hob : d.operandBatchingDims = []) (hsim : d.startIndexMap = [0])
    (x : (⟨2, ![N, C]⟩ : Shape).Idx → α) (idx : IVec si w) (j : t.Idx) (i : si.Idx) (q : Fin C)
    (hi : ∀ c, d.siIdx j c = i) (hq : d.offCoord j 1 = q.val) (hN : 0 < N) :
    Host.gather d x idx j = x (ix2 (⟨min (idx i).toInt.toNat (N - 1), by omega⟩ : Fin N) q) := by
  have h0 : (0 : Fin 2) ∈ d.collapsedSliceDims := by rw [hcoll]; exact List.mem_singleton.mpr rfl
  have hm : (0 : Fin 2) ∈ d.startIndexMap := by rw [hsim]; exact List.mem_singleton.mpr rfl
  have h1 : (1 : Fin 2) ∉ d.startIndexMap := by rw [hsim]; exact (by decide : (1 : Fin 2) ∉ ([0] : List (Fin 2)))
  have hb : ∀ a, d.batchCoord j a = 0 := fun a => d.batchCoord_eq_zero j a (by rw [hob]; exact List.not_mem_nil)
  refine congrArg x (funext (Fin.forall_fin_two.mpr ⟨Fin.ext ?_, Fin.ext ?_⟩))
  · show d.start j idx 0 + d.batchCoord j 0 + d.offCoord j 0 = _
    unfold GatherDims.start
    rw [hb, dif_pos hm, hi, d.slice_collapsed 0 h0, d.offCoord_eq_zero j 0 fun h => ((d.mem_sKept 0).mp h).1 h0]
    rfl
  · show d.start j idx 1 + d.batchCoord j 1 + d.offCoord j 1 = _
    unfold GatherDims.start
    rw [hb, dif_neg h1, hq, Nat.zero_add]

theorem gather_rows_apply {α : Type} {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q)
      = x (ix2 (⟨min (idx (ix2 e (0 : Fin 1))).toInt.toNat (N - 1), by omega⟩ : Fin N) q) := by
  refine gather_row d hcoll hob hsim x idx _ _ q ?_ ?_ hN <;>
    obtain ⟨od, cd, ob, sb, sm, iv, ss, wf⟩ := d <;> dsimp only at hoff hcoll hob hsim hivd ⊢ <;>
    subst hoff hcoll hob hsim hivd
  · exact fun c => funext fun b => Fin.ext (match b with | ⟨0, _⟩ => rfl | ⟨1, _⟩ => Nat.lt_one_iff.mp c.isLt)
  · rfl

-- An update lands at `(n, q)` exactly when start plus window coordinate is `n` on axis 0 and `q` on axis 1.
theorem resultIdx_iff {N C w : Nat} {si u : Shape} (d : ScatterDims ⟨2, ![N, C]⟩ si u) (idx : IVec si w) (j : u.Idx)
    (n : Fin N) (q : Fin C) :
    d.resultIdx? j idx = some (ix2 n q)
      ↔ d.start j idx 0 + d.window j 0 = n.val ∧ d.start j idx 1 + d.window j 1 = q.val := by
  have hN : (⟨2, ![N, C]⟩ : Shape).size 0 = N := rfl
  have hC : (⟨2, ![N, C]⟩ : Shape).size 1 = C := rfl
  unfold ScatterDims.resultIdx?
  split
  · next h =>
    have h0 := h 0
    have h1 := h 1
    refine ⟨fun e => ?_, fun ⟨e0, e1⟩ => congrArg some (funext (Fin.forall_fin_two.mpr ⟨Fin.ext ?_, Fin.ext ?_⟩))⟩
    · have c0 : (d.start j idx 0 + d.window j 0).toNat = n.val := congrArg (fun f => (f 0).val) (Option.some.inj e)
      have c1 : (d.start j idx 1 + d.window j 1).toNat = q.val := congrArg (fun f => (f 1).val) (Option.some.inj e)
      omega
    · show (d.start j idx 0 + d.window j 0).toNat = n.val
      omega
    · show (d.start j idx 1 + d.window j 1).toNat = q.val
      omega
  · next h =>
    refine ⟨fun e => (nomatch e), fun ⟨e0, e1⟩ => absurd (Fin.forall_fin_two.mpr ⟨?_, ?_⟩) h⟩
    · rw [hN]; omega
    · rw [hC]; omega

theorem scatterAdd_rows_apply {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w)
    (upd : (⟨2, ![E, C]⟩ : Shape).Idx → EReal) (n : Fin N) (q : Fin C) :
    (Host.scatterAdd (F := Ideal) (φ := .f32) d x idx upd : (⟨2, ![N, C]⟩ : Shape).Idx → EReal) (ix2 n q)
      = x (ix2 n q)
        + ∑ e ∈ Finset.univ.filter (fun e : Fin E => (idx (ix2 e (0 : Fin 1))).toInt = (n.val : ℤ)), upd (ix2 e q) := by
  have key : ∀ j : (⟨2, ![E, C]⟩ : Shape).Idx, d.resultIdx? j idx = some (ix2 n q)
      ↔ ((idx (ix2 (j 0) (0 : Fin 1))).toInt = (n.val : ℤ) ∧ j 1 = q) := fun j => by
    have f : d.start j idx 0 + d.window j 0 = (idx (d.siIdx j ⟨0, by rw [hsd]; exact Nat.one_pos⟩)).toInt
        ∧ d.siIdx j ⟨0, by rw [hsd]; exact Nat.one_pos⟩ = ix2 (j 0) (0 : Fin 1)
        ∧ d.start j idx 1 + d.window j 1 = (j 1).val := by
      obtain ⟨uw, iw, sd, iv, wf⟩ := d
      dsimp only at huw hiw hsd hivd ⊢
      subst huw hiw hsd hivd
      exact ⟨Int.add_zero _, funext fun b => Fin.ext (match b with | ⟨0, _⟩ => rfl | ⟨1, _⟩ => rfl), Int.zero_add _⟩
    rw [resultIdx_iff, f.1, f.2.1, f.2.2]
    exact and_congr Iff.rfl (Nat.cast_inj.trans Fin.ext_iff.symm)
  have back : ∀ j : (⟨2, ![E, C]⟩ : Shape).Idx, d.resultIdx? j idx = some (ix2 n q) → ix2 (j 0) q = j := fun j hj => by
    rw [← ((key j).mp hj).2]; exact (eq_ix2 j).symm
  show x (ix2 n q) + ∑ j ∈ Finset.univ.filter (fun j => d.resultIdx? j idx = some (ix2 n q)), upd j = _
  congr 1
  exact Finset.sum_bij' (fun j _ => j 0) (fun e _ => ix2 e q)
    (fun j hj => Finset.mem_filter.mpr ⟨Finset.mem_univ _, ((key j).mp (Finset.mem_filter.mp hj).2).1⟩)
    (fun e he => Finset.mem_filter.mpr ⟨Finset.mem_univ _, (key (ix2 e q)).mpr ⟨(Finset.mem_filter.mp he).2, rfl⟩⟩)
    (fun j hj => back j (Finset.mem_filter.mp hj).2) (fun _ _ => rfl)
    (fun j hj => congrArg upd (back j (Finset.mem_filter.mp hj).2).symm)

end Cert.LibRows

end
-- ==== Proof.KI.GlueAt.lean ====
import proofs.«427383_j1159641169925_2_alg».proof.Proof.KI.GlueOps
import proofs.«427383_j1159641169925_2_alg».proof.Proof.SpecArgs
import proofs.«427383_j1159641169925_2_alg».proof.Proof.LibRows
import Idealize.ShloMosaic.Lib.ValueIdx
import Idealize.ShloMosaic.Lib.Pipeline.Value
import Idealize.ShloMosaic.Lib.WordArith
import Idealize.ShloMosaic.PureOps.Reduce
import Idealize.ShloMosaic.Lib.DynamicIndex
import Idealize.ShloMosaic.Lib.Affine

noncomputable section

namespace Cert.KernelIdeal.Hand

open Cert.KernelIdeal
open Idealize.ShloMosaic Idealize.ShloMosaic.ValueIdx

variable {F : FTy → Type} [FloatOps F]
variable [Facts]
open Facts₀ Facts

-- Edge `t * 40000 + e` of a flat list is entry `(t, e)` of the edge array: both reshapes keep the row-major position.
theorem kCol_apply (c : Nat) (h : S4x40000x2.Slices ![0, 0, c] S4x40000x1) (a1 : IVec S4x40000x2 32) (t : Fin 4)
    (e : Fin 40000) (j : Fin 160000) (hj : j.val = t.val * 40000 + e.val) (k : Fin 2) (hk : k.val = c) :
    kCol c h a1 (ix1 j) = a1 (ix3 t e k) := by
  unfold kCol
  refine (shapeCast_apply _ _ (ix1 j) (ix2 t e)
    (by rw [Shape.rowMajor_val_two, Shape.rowMajor_val_one]; show t.val * 40000 + e.val = j.val; omega)).trans ?_
  refine (shapeCast_apply _ _ (ix2 t e) (ix3 t e (0 : Fin 1))
    (by rw [Shape.rowMajor_val_three, Shape.rowMajor_val_two]
        show (t.val * 40000 + e.val) * 1 + 0 = t.val * 40000 + e.val; omega)).trans ?_
  exact extractStridedSlice_apply _ _ _ (ix3 t e (0 : Fin 1)) (ix3 t e k) fun a => by
    match a with
    | ⟨0, _⟩ => exact (Nat.zero_add _).symm
    | ⟨1, _⟩ => exact (Nat.zero_add _).symm
    | ⟨2, _⟩ => exact hk

theorem kTyW_apply (j : Fin 160000) : kTyW (ix1 j) = BitVec.ofNat 32 (j.val / 40000) := by
  unfold kTyW
  refine (shapeCast_apply _ _ (ix1 j)
    (ix2 (⟨j.val / 40000, by omega⟩ : Fin 4) (⟨j.val % 40000, Nat.mod_lt _ (by norm_num)⟩ : Fin 40000))
    (by rw [Shape.rowMajor_val_two, Shape.rowMajor_val_one]; exact Nat.div_add_mod' _ _)).trans ?_
  exact broadcastInDim_apply _ _ _ _ (ix1 (⟨j.val / 40000, by omega⟩ : Fin 4)) (fun a => match a with | ⟨0, _⟩ => rfl)

section Edges
variable {a1 : IVec S4x40000x2 32} {src tgt : Fin 160000 → Fin 10000}

theorem kSrcW_toInt (hE : Cert.Spec.EdgesAre a1 src tgt) (j : Fin 160000) :
    (kSrcW a1 (ix1 j)).toInt = ((src j).val : ℤ) := by
  unfold kSrcW
  rw [kCol_apply 0 _ a1 ⟨j.val / 40000, by omega⟩ ⟨j.val % 40000, Nat.mod_lt _ (by norm_num)⟩ j (Nat.div_add_mod' _ _).symm 0 rfl]
  exact (hE _ _).1.trans (congrArg (fun x => ((src x).val : ℤ)) (Fin.ext (Nat.div_add_mod' _ _)))

theorem kTgtW_toInt (hE : Cert.Spec.EdgesAre a1 src tgt) (j : Fin 160000) :
    (kTgtW a1 (ix1 j)).toInt = ((tgt j).val : ℤ) := by
  unfold kTgtW
  rw [kCol_apply 1 _ a1 ⟨j.val / 40000, by omega⟩ ⟨j.val % 40000, Nat.mod_lt _ (by norm_num)⟩ j (Nat.div_add_mod' _ _).symm 1 rfl]
  exact (hE _ _).2.trans (congrArg (fun x => ((tgt x).val : ℤ)) (Fin.ext (Nat.div_add_mod' _ _)))

theorem kTyW_toInt (j : Fin 160000) : (kTyW (ix1 j)).toInt = (((Cert.Spec.ty j).val : ℕ) : ℤ) := by
  rw [kTyW_apply]
  exact WordArith.toInt_ofNat_small _ (by have := j.isLt; omega)

-- Source and type are small, so neither the product nor the sum of words wraps.
theorem kFlat_toInt (hE : Cert.Spec.EdgesAre a1 src tgt) (j : Fin 160000) :
    (kFlat a1 (ix1 j)).toInt = ((src j).val : ℤ) * 4 + (((Cert.Spec.ty j).val : ℕ) : ℤ) := by
  have hs := kSrcW_toInt hE j
  have hsl := (src j).isLt
  have hty := kTyW_toInt j
  have htl := (Cert.Spec.ty j).isLt
  have h4 : (4#32 : BitVec 32).toInt = 4 := by decide
  have hm : (kSrcW a1 (ix1 j) * 4#32).toInt = ((src j).val : ℤ) * 4 := by
    rw [WordArith.toInt_mul_of_bounds _ _ (by rw [hs, h4]; omega) (by rw [hs, h4]; omega), hs, h4]
  show (kSrcW a1 (ix1 j) * 4#32 + kTyW (ix1 j)).toInt = _
  rw [WordArith.toInt_add_of_bounds _ _ (by rw [hm, hty]; omega) (by rw [hm, hty]; omega), hm, hty]

end Edges

-- A word that reads non-negative is kept.
theorem kWrap_apply (x : IVec S160000 32) (n : BitVec 32) (j : S160000.Idx) (h : 0 ≤ (x j).toInt) : kWrap x n j = x j :=
  select_slt_zero_of_nonneg x _ _ j h

theorem kTakeCol_apply (flat : IVec S160000 32) (i : S160000x1.Idx) : kTakeCol flat i = kWrap flat 40000#32 (ix1 (i 0)) :=
  broadcastInDim_apply _ _ _ _ (ix1 (i 0)) (fun a => match a with | ⟨0, _⟩ => rfl)

theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1) (1#1) = 1#1 by decide]
    exact foldl_andi_ones f l (fun n hn => h n (List.mem_cons_of_mem _ hn))

-- A row word inside the table passes the range test.
theorem kTakeMask_apply (flat : IVec S160000 32) (e : Fin 160000) (h0 : 0 ≤ (flat (ix1 e)).toInt)
    (h1 : (flat (ix1 e)).toInt < 40000) : kTakeMask flat (ix1 e) = 1#1 := by
  unfold kTakeMask
  rw [Host.reduce_eq_foldl]
  refine foldl_andi_ones _ _ (fun i hi => ?_)
  have hd : reducesTo_S160000x1_S160000_d1.drop i = ix1 e := by simpa using (List.mem_filter.mp hi).2
  have hv : ((reducesTo_S160000x1_S160000_d1.drop i) 0 : Nat) = i 0 := Shape.ReducesTo.drop_apply_val _ i 0
  have hi0 : i 0 = e := Fin.ext (by rw [← hv, hd])
  show IntOp.andi (IntOp.cmpi .sge (kTakeCol flat i) 0#32) (IntOp.cmpi .sle (kTakeCol flat i) 39999#32) = 1#1
  rw [kTakeCol_apply, hi0, kWrap_apply _ _ _ h0]
  exact IntOp.andi_eq_one.mpr ⟨IntOp.cmpi_sge.mpr h0,
    IntOp.cmpi_sle.mpr (by rw [show (39999#32 : BitVec 32).toInt = 39999 by decide]; omega)⟩

-- Edge `e`'s row of the take is the table's row named by the edge's row word, when that word is inside the table.
theorem kTake_apply (y2 : FVec F S40000x512 .f32) (flat : IVec S160000 32) (e : Fin 160000) (q : Fin 512) (n : Fin 40000)
    (hn : (flat (ix1 e)).toInt = (n.val : ℤ)) : kTake y2 flat (ix2 e q) = y2 (ix2 n q) := by
  have hnl := n.isLt
  have hm : broadcastInDim S160000x512 ![0] bcast_S160000_S160000x512_0 (kTakeMask flat) (ix2 e q) = 1#1 :=
    (broadcastInDim_apply _ _ _ _ (ix1 e) (fun a => match a with | ⟨0, _⟩ => rfl)).trans
      (kTakeMask_apply flat e (by rw [hn]; omega) (by rw [hn]; omega))
  unfold kTake
  rw [select_apply, hm, select_one,
    Cert.LibRows.gather_rows_apply _ rfl rfl rfl rfl rfl y2 (kTakeCol flat) e q (by norm_num)]
  refine congrArg y2 (congrArg (fun k => ix2 k q) (Fin.ext ?_))
  show min (kTakeCol flat (ix2 e (0 : Fin 1))).toInt.toNat (40000 - 1) = n.val
  rw [kTakeCol_apply, kWrap_apply _ _ _ (by rw [hn]; omega), hn]
  omega

end Cert.KernelIdeal.Hand

end
-- ==== Proof.LibPointScatter.lean ====
import proofs.«427383_j1159641169925_2_alg».proof.Proof.LibRows
import Idealize.ShloMosaic.Lib.ValueIdxRank1

noncomputable section

open scoped BigOperators

namespace Cert.LibPointScatter

open Idealize.ShloMosaic Idealize.ShloMosaic.ValueIdx

theorem scatterAdd_points_apply {N M E w : Nat} (d : ScatterDims ⟨2, ![N, M]⟩ ⟨2, ![E, 2]⟩ ⟨1, ![E]⟩)
    (huw : d.updateWindowDims = []) (hiw : d.insertedWindowDims = [0, 1])
    (hsd : d.scatterDimsToOperandDims = [0, 1]) (hivd : d.indexVectorDim = 1)
    (x : (⟨2, ![N, M]⟩ : Shape).Idx → EReal) (idx : IVec ⟨2, ![E, 2]⟩ w)
    (upd : (⟨1, ![E]⟩ : Shape).Idx → EReal) (n : Fin N) (k : Fin M) :
    (Host.scatterAdd (F := Ideal) (φ := .f32) d x idx upd : (⟨2, ![N, M]⟩ : Shape).Idx → EReal) (ix2 n k)
      = x (ix2 n k)
        + ∑ e ∈ Finset.univ.filter (fun e : Fin E =>
            (idx (ix2 e (0 : Fin 2))).toInt = (n.val : ℤ) ∧ (idx (ix2 e (1 : Fin 2))).toInt = (k.val : ℤ)),
            upd (ix1 e) := by
  have key : ∀ j : (⟨1, ![E]⟩ : Shape).Idx, d.resultIdx? j idx = some (ix2 n k)
      ↔ ((idx (ix2 (j 0) (0 : Fin 2))).toInt = (n.val : ℤ) ∧ (idx (ix2 (j 0) (1 : Fin 2))).toInt = (k.val : ℤ)) :=
    fun j => by
      have s : ∀ c : Fin 2, d.start j idx c + d.window j c = (idx (ix2 (j 0) c)).toInt := fun c => by
        refine Eq.trans (b := (idx (d.siIdx j ⟨c.val, by rw [hsd]; exact c.isLt⟩)).toInt) ?_ (congrArg (fun i => (idx i).toInt) ?_) <;>
          obtain ⟨uw, iw, sd, iv, wf⟩ := d <;> dsimp only at huw hiw hsd hivd ⊢ <;> subst huw hiw hsd hivd
        · match c with
          | ⟨0, _⟩ => exact Int.add_zero _
          | ⟨1, _⟩ => exact Int.add_zero _
        · exact funext fun b => Fin.ext (match b with | ⟨0, _⟩ => rfl | ⟨1, _⟩ => rfl)
      rw [Cert.LibRows.resultIdx_iff, s, s]
  show x (ix2 n k) + ∑ j ∈ Finset.univ.filter (fun j => d.resultIdx? j idx = some (ix2 n k)), upd j = _
  congr 1
  exact Finset.sum_equiv idxEquiv1
    (fun j => by simp only [Finset.mem_filter, Finset.mem_univ, true_and]; exact key j) fun j _ => congrArg upd (eq_ix1 j)

end Cert.LibPointScatter

end
-- ==== Proof.KI.GlueBias.lean ====
import proofs.«427383_j1159641169925_2_alg».proof.Proof.KI.GlueAt
import proofs.«427383_j1159641169925_2_alg».proof.Proof.LibPointScatter
import Idealize.ShloMosaic.PureOps.Ideal.Laws
import Idealize.ShloMosaic.PureOps.IdealRules

noncomputable section

open scoped BigOperators

namespace Cert.KernelIdeal.Hand

open Cert.KernelIdeal
open Idealize.ShloMosaic Idealize.ShloMosaic.ValueIdx

variable [Facts]
open Facts₀ Facts

section Edges
variable {a1 : IVec S4x40000x2 32} {src tgt : Fin 160000 → Fin 10000}

-- Component 0 of edge `e`'s point is the edge's target word.
theorem kCntIdx_row (hE : Cert.Spec.EdgesAre a1 src tgt) (e : Fin 160000) :
    kCntIdx a1 (ix2 e (0 : Fin 2)) = kTgtW a1 (ix1 e) := by
  unfold kCntIdx
  refine (concatenate_pair_apply_left (1 : Fin S160000x2.rank) _ _ concatenates_S160000x1_S160000x1_S160000x2_d1
    (ix2 e (0 : Fin 2)) rfl (ix2 e (0 : Fin 1)) (fun b => match b with | ⟨0, _⟩ => rfl | ⟨1, _⟩ => rfl)).trans ?_
  refine (broadcastInDim_apply _ _ _ _ (ix1 e) (fun a => match a with | ⟨0, _⟩ => rfl)).trans ?_
  exact kWrap_apply _ _ _ (by rw [kTgtW_toInt hE e]; omega)

-- Component 1 is the edge's type word.
theorem kCntIdx_col (a1 : IVec S4x40000x2 32) (e : Fin 160000) : kCntIdx a1 (ix2 e (1 : Fin 2)) = kTyW (ix1 e) := by
  unfold kCntIdx
  refine (concatenate_pair_apply_right (1 : Fin S160000x2.rank) _ _ concatenates_S160000x1_S160000x1_S160000x2_d1
    (ix2 e (1 : Fin 2)) rfl rfl (ix2 e (0 : Fin 1))
    (fun b hb => match b, hb with | ⟨0, _⟩, _ => rfl | ⟨1, _⟩, hb => absurd (Fin.ext rfl) hb) rfl).trans ?_
  refine (broadcastInDim_apply _ _ _ _ (ix1 e) (fun a => match a with | ⟨0, _⟩ => rfl)).trans ?_
  exact kWrap_apply _ _ _ (by rw [kTyW_toInt e]; omega)

-- At node `r` and type `t` the counts hold a one for every edge of type `t` into `r`.
theorem kCounts_apply (hE : Cert.Spec.EdgesAre a1 src tgt) (r : Fin 10000) (t : Fin 4) :
    kCounts (F := Ideal) a1 (ix2 r t)
      = ∑ _j ∈ Finset.univ.filter (fun j : Fin 160000 => tgt j = r ∧ Cert.Spec.ty j = t), (1 : EReal) := by
  have hz : broadcastInDim S10000x4 ![] bcast_S_S10000x4 (constant (F := Ideal) S_ .f32 0x00000000#32) (ix2 r t) = 0 :=
    Ideal.ofBits_zero_f32
  have hf : (Finset.univ.filter fun e : Fin 160000 =>
        (kCntIdx a1 (ix2 e (0 : Fin 2))).toInt = (r.val : ℤ) ∧ (kCntIdx a1 (ix2 e (1 : Fin 2))).toInt = (t.val : ℤ))
      = Finset.univ.filter (fun j : Fin 160000 => tgt j = r ∧ Cert.Spec.ty j = t) := by
    refine Finset.filter_congr (fun e _ => ?_)
    rw [kCntIdx_row hE e, kCntIdx_col a1 e, kTgtW_toInt hE e, kTyW_toInt e]
    constructor
    · rintro ⟨h1, h2⟩; exact ⟨Fin.ext (by exact_mod_cast h1), Fin.ext (by exact_mod_cast h2)⟩
    · rintro ⟨h1, h2⟩; rw [h1, h2]; exact ⟨rfl, rfl⟩
  unfold kCounts
  rw [Cert.LibPointScatter.scatterAdd_points_apply _ rfl rfl rfl rfl, hz, zero_add, hf]
  refine Finset.sum_congr rfl (fun e _ => ?_)
  show Ideal.ofBits .f32 0x3F800000#32 = 1
  exact IdealRules.sign_bit.ideal_onePat .f32

end Edges

-- A [10000 × 4] array times a [4 × 512] one at (r, q): the sum over the four types.
theorem dotB_apply (c : FVec Ideal S10000x4 .f32) (b : FVec Ideal S4x512 .f32) (r : Fin 10000) (q : Fin 512) :
    Host.dotGeneral (F := Ideal) dot_S10000x4_S4x512_S10000x512_1_0_0_1_n_n none c b (ix2 r q)
      = ∑ k : Fin 4, c (ix2 r k) * b (ix2 k q) := by
  simp only [Host.dotGeneral]
  rw [Ideal.dotGeneral_apply, ← Equiv.sum_comp (contrEquiv1 dot_S10000x4_S4x512_S10000x512_1_0_0_1_n_n 4 rfl rfl).symm]
  refine Finset.sum_congr rfl fun k _ => ?_
  congr 2 <;> refine funext fun x => Fin.ext ?_ <;> match x with
    | ⟨0, _⟩ => rfl
    | ⟨1, _⟩ => rfl

theorem kBias_apply (a1 : IVec S4x40000x2 32) (bm : FVec Ideal S4x512 .f32) (src tgt : Fin 160000 → Fin 10000)
    (hE : Cert.Spec.EdgesAre a1 src tgt) (r : Fin 10000) (q : Fin 512) :
    kBias (F := Ideal) a1 bm (ix2 r q) = Cert.Spec.cntb tgt (fun t o => bm (ix2 t o)) r q := by
  unfold kBias Cert.Spec.cntb
  rw [dotB_apply]
  exact Finset.sum_congr rfl (fun t _ => by rw [kCounts_apply hE r t])

end Cert.KernelIdeal.Hand

end
-- ==== Proof.KI.GlueInc.lean ====
import proofs.«427383_j1159641169925_2_alg».proof.Proof.KI.GlueAt
import Idealize.ShloMosaic.PureOps.Ideal.Laws

noncomputable section

open scoped BigOperators

namespace Cert.KernelIdeal.Hand

open Cert.KernelIdeal
open Idealize.ShloMosaic Idealize.ShloMosaic.ValueIdx

variable [Facts]
open Facts₀ Facts

-- At node `r` the rows added at the targets are those of the edges into `r`; an edge's row is its source's state against its type's weights.
theorem kInc_apply (y : FVec Ideal S10000x2048 .f32) (a1 : IVec S4x40000x2 32) (bias : FVec Ideal S10000x512 .f32)
    (src tgt : Fin 160000 → Fin 10000) (hE : Cert.Spec.EdgesAre a1 src tgt) (r : Fin 10000) (q : Fin 512) :
    kInc (F := Ideal) y a1 bias (ix2 r q)
      = Cert.Spec.incK src tgt (fun r q => y (ix2 r q)) (fun r q => bias (ix2 r q)) r q := by
  have hz : broadcastInDim S10000x512 ![] bcast_S_S10000x512 (constant (F := Ideal) S_ .f32 0x00000000#32) (ix2 r q) = 0 :=
    Ideal.ofBits_zero_f32
  have hf : (Finset.univ.filter fun e : Fin 160000 =>
        (broadcastInDim S160000x1 ![0] bcast_S160000_S160000x1_0 (kTgtW a1) (ix2 e (0 : Fin 1))).toInt = (r.val : ℤ))
      = Finset.univ.filter (fun j : Fin 160000 => tgt j = r) := by
    refine Finset.filter_congr (fun e _ => ?_)
    rw [broadcastInDim_apply _ _ _ _ (ix1 e) (fun a => match a with | ⟨0, _⟩ => rfl), kTgtW_toInt hE e]
    exact ⟨fun h => Fin.ext (by exact_mod_cast h), fun h => by rw [h]⟩
  unfold kInc Cert.Spec.incK
  rw [addf_apply, Cert.LibRows.scatterAdd_rows_apply _ rfl rfl rfl rfl, hz, zero_add, hf]
  refine congrArg (fun s => s + bias (ix2 r q)) (Finset.sum_congr rfl (fun e _ => ?_))
  have hs := (src e).isLt
  have ht := (Cert.Spec.ty e).isLt
  rw [kTake_apply _ _ e q (⟨(src e).val * 4 + (Cert.Spec.ty e).val, by omega⟩ : Fin 40000)
    (by rw [kFlat_toInt hE e]; show _ = (((src e).val * 4 + (Cert.Spec.ty e).val : ℕ) : ℤ); omega)]
  exact shapeCast_apply _ _ _ _ (by
    rw [Shape.rowMajor_val_two, Shape.rowMajor_val_two]
    show (src e).val * 2048 + ((Cert.Spec.ty e).val * 512 + q.val) = ((src e).val * 4 + (Cert.Spec.ty e).val) * 512 + q.val
    omega)

end Cert.KernelIdeal.Hand

end
-- ==== Proof.KI.PrepAt.lean ====
import proofs.«427383_j1159641169925_2_alg».proof.Proof.KI.PrepOps
import proofs.«427383_j1159641169925_2_alg».proof.Proof.Spec
import Idealize.ShloMosaic.Lib.ValueIdx
import Idealize.ShloMosaic.Lib.ValueLayout
import Idealize.ShloMosaic.Lib.Pipeline.Value
import Idealize.ShloMosaic.PureOps.Ideal

noncomputable section

namespace Cert.KernelIdeal.Hand

open Cert.KernelIdeal
open Idealize.ShloMosaic Idealize.ShloMosaic.ValueIdx

variable [Facts]
open Facts₀ Facts

-- One layer `o` cut off a rank-3 stack, its unit axis dropped, reads the stack at `(o, b, e)`.
theorem layer3_apply {α : Type} {n0 n1 n2 : Nat} (o : Nat) (X : (⟨3, ![n0, n1, n2]⟩ : Shape).Idx → α)
    (h : (⟨3, ![n0, n1, n2]⟩ : Shape).Slices ![o, 0, 0] ⟨3, ![1, n1, n2]⟩)
    (hc : (⟨3, ![1, n1, n2]⟩ : Shape).ShapeCasts ⟨2, ![n1, n2]⟩) (b : Fin n1) (e : Fin n2) (k : Fin n0) (hk : k.val = o) :
    shapeCast ⟨2, ![n1, n2]⟩ (extractStridedSlice ⟨3, ![1, n1, n2]⟩ ![o, 0, 0] X h) hc (ix2 b e) = X (ix3 k b e) :=
  (shapeCast_1ab_ab_apply _ _ _ _).trans (extractStridedSlice_apply _ _ _ _ _ fun ax => by
    match ax with
    | ⟨0, _⟩ => exact hk
    | ⟨1, _⟩ => exact (Nat.zero_add _).symm
    | ⟨2, _⟩ => exact (Nat.zero_add _).symm)

-- Column `q` of the prepared message weights is edge type `q / 512`, output `q % 512`: the flattening keeps the row-major position.
theorem kWcat_apply (o : Nat) (h : S2x4x512x512.Slices ![o, 0, 0, 0] S1x4x512x512) (a : FVec Ideal S2x4x512x512 .f32)
    (l : Fin 2) (hl : l.val = o) (i : Fin 512) (q : Fin 2048) :
    kWcat (F := Ideal) o h a (ix2 i q) = Cert.Spec.wcat (fun t o k => a (ix4 l t o k)) i q := by
  unfold kWcat Cert.Spec.wcat
  refine (truncf_apply (φ := .f32) (ψ := .bf16) _ bitsLt_bf16_f32 _).trans ?_
  refine (shapeCast_apply _ _ _ (ix3 i ⟨q.val / 512, by omega⟩ ⟨q.val % 512, Nat.mod_lt _ (by norm_num)⟩) (by
    rw [Shape.rowMajor_val_three, Shape.rowMajor_val_two]
    show (i.val * 4 + q.val / 512) * 512 + q.val % 512 = i.val * 2048 + q.val
    omega)).trans ?_
  refine (transpose_apply _ _ _ _ (ix3 _ _ i) fun d => match d with | ⟨0, _⟩ => rfl | ⟨1, _⟩ => rfl | ⟨2, _⟩ => rfl).trans ?_
  refine (shapeCast_1abc_abc_apply _ _ _ _ _).trans ?_
  exact extractStridedSlice_apply _ _ _ (ix4 (0 : Fin 1) _ _ _) (ix4 l _ _ _) fun ax => by
    match ax with
    | ⟨0, _⟩ => exact hl
    | ⟨1, _⟩ => exact (Nat.zero_add _).symm
    | ⟨2, _⟩ => exact (Nat.zero_add _).symm
    | ⟨3, _⟩ => exact (Nat.zero_add _).symm

theorem kWcat0_apply (a2 : FVec Ideal S2x4x512x512 .f32) (i : Fin 512) (q : Fin 2048) :
    kWcat0 (F := Ideal) a2 (ix2 i q) = Cert.Spec.wcat (fun t o k => a2 (ix4 0 t o k)) i q :=
  kWcat_apply 0 _ a2 0 rfl i q

theorem kWcat1_apply (a2 : FVec Ideal S2x4x512x512 .f32) (i : Fin 512) (q : Fin 2048) :
    kWcat1 (F := Ideal) a2 (ix2 i q) = Cert.Spec.wcat (fun t o k => a2 (ix4 1 t o k)) i q :=
  kWcat_apply 1 _ a2 1 rfl i q

theorem kWT_apply (o : Nat) (h : S2x1536x512.Slices ![o, 0, 0] S1x1536x512) (a : FVec Ideal S2x1536x512 .f32)
    (l : Fin 2) (hl : l.val = o) (k : Fin 512) (g : Fin 1536) : kWT (F := Ideal) o h a (ix2 k g) = a (ix3 l g k) := by
  unfold kWT
  refine (truncf_apply (φ := .f32) (ψ := .bf16) _ bitsLt_bf16_f32 _).trans ?_
  exact (transpose_ix2_apply _ _ _ _).trans (layer3_apply o a h _ g k l hl)

theorem kWihT0_apply (a4 : FVec Ideal S2x1536x512 .f32) (k : Fin 512) (g : Fin 1536) :
    kWihT0 (F := Ideal) a4 (ix2 k g) = a4 (ix3 0 g k) := kWT_apply 0 _ a4 0 rfl k g

theorem kWihT1_apply (a4 : FVec Ideal S2x1536x512 .f32) (k : Fin 512) (g : Fin 1536) :
    kWihT1 (F := Ideal) a4 (ix2 k g) = a4 (ix3 1 g k) := kWT_apply 1 _ a4 1 rfl k g

theorem kWhhT0_apply (a5 : FVec Ideal S2x1536x512 .f32) (k : Fin 512) (g : Fin 1536) :
    kWhhT0 (F := Ideal) a5 (ix2 k g) = a5 (ix3 0 g k) := kWT_apply 0 _ a5 0 rfl k g

theorem kWhhT1_apply (a5 : FVec Ideal S2x1536x512 .f32) (k : Fin 512) (g : Fin 1536) :
    kWhhT1 (F := Ideal) a5 (ix2 k g) = a5 (ix3 1 g k) := kWT_apply 1 _ a5 1 rfl k g

theorem kB_apply (o : Nat) (h : S2x1536.Slices ![o, 0] S1x1536) (a : FVec Ideal S2x1536 .f32) (l : Fin 2) (hl : l.val = o)
    (g : Fin 1536) : kB (F := Ideal) o h a (ix2 0 g) = a (ix2 l g) :=
  (shapeCast_a_1a_apply _ _ _ _).trans ((shapeCast_1a_a_apply _ _ _).trans (slice2_axis0_apply o a h (0 : Fin 1) g l hl))

theorem kBih0_apply (a6 : FVec Ideal S2x1536 .f32) (g : Fin 1536) : kBih0 (F := Ideal) a6 (ix2 0 g) = a6 (ix2 0 g) :=
  kB_apply 0 _ a6 0 rfl g

theorem kBih1_apply (a6 : FVec Ideal S2x1536 .f32) (g : Fin 1536) : kBih1 (F := Ideal) a6 (ix2 0 g) = a6 (ix2 1 g) :=
  kB_apply 1 _ a6 1 rfl g

theorem kBhh0_apply (a7 : FVec Ideal S2x1536 .f32) (g : Fin 1536) : kBhh0 (F := Ideal) a7 (ix2 0 g) = a7 (ix2 0 g) :=
  kB_apply 0 _ a7 0 rfl g

theorem kBhh1_apply (a7 : FVec Ideal S2x1536 .f32) (g : Fin 1536) : kBhh1 (F := Ideal) a7 (ix2 0 g) = a7 (ix2 1 g) :=
  kB_apply 1 _ a7 1 rfl g

theorem kBm0_apply (a3 : FVec Ideal S2x4x512 .f32) (t : Fin 4) (o : Fin 512) :
    kBm0 (F := Ideal) a3 (ix2 t o) = a3 (ix3 0 t o) := layer3_apply 0 a3 _ _ t o 0 rfl

theorem kBm1_apply (a3 : FVec Ideal S2x4x512 .f32) (t : Fin 4) (o : Fin 512) :
    kBm1 (F := Ideal) a3 (ix2 t o) = a3 (ix3 1 t o) := layer3_apply 1 a3 _ _ t o 1 rfl

theorem kFcWT_apply (a8 : FVec Ideal S512x512 .f32) (k o : Fin 512) :
    kFcWT (F := Ideal) a8 (ix2 k o) = a8 (ix2 o k) := by
  unfold kFcWT
  refine (truncf_apply (φ := .f32) (ψ := .bf16) _ bitsLt_bf16_f32 _).trans ?_
  exact transpose_ix2_apply _ _ _ _

theorem kFcb_apply (a9 : FVec Ideal S512 .f32) (o : Fin 512) :
    kFcb (F := Ideal) a9 (ix2 0 o) = a9 (ix1 o) := shapeCast_a_1a_apply _ _ _ _

theorem kOut_apply (v : FVec Ideal S1x512 .f32) (q : Fin 512) :
    kOut (F := Ideal) v (ix1 q) = v (ix2 0 q) := shapeCast_1a_a_apply _ _ _

end Cert.KernelIdeal.Hand

end
-- ==== Proof.KI.NTProduct.lean ====
import proofs.«427383_j1159641169925_2_alg».proof.Proof.Gen.KernelIdeal
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Idealize.ShloMosaic Idealize.ShloMosaic.ValueIdx

-- into zero, entry (p, q) of the product is ∑ₖ a(p, k) · b(k, q): the one contracted axis is re-indexed by its coordinate
theorem matmul_nt_apply (a : FVec Ideal S1000x512 .bf16) (b : FVec Ideal S512x2048 .bf16) (p : Fin 1000) (q : Fin 2048) :
    matmul dot_S1000x512_S512x2048_S1000x2048_1_0_0_1_n_n none a b (constant (F := Ideal) S1000x2048 .f32 0x00000000#32) (ix2 p q)
      = ∑ k : Fin 512, a (ix2 p k) * b (ix2 k q) := by
  show FloatOps.matmul _ none a b _ (ix2 p q) = _
  rw [Ideal.matmul_constant_zero_apply, ← Equiv.sum_comp (contrEquiv1 _ 512 rfl rfl).symm]
  refine Finset.sum_congr rfl fun k _ => ?_
  have hk := contrEquiv1_symm_val dot_S1000x512_S512x2048_S1000x2048_1_0_0_1_n_n 512 rfl rfl k
  rw [show DotDims.lhsIdx _ (ix2 p q) _ = ix2 p k from Shape.idx_ext₂ rfl ((DotDims.lhsIdx_val_of_single _ rfl _ _).trans hk),
    show DotDims.rhsIdx _ (ix2 p q) _ = ix2 k q from Shape.idx_ext₂ ((DotDims.rhsIdx_val_of_single _ rfl _ _).trans hk) rfl]

end Cert.KernelIdeal.Hand
-- ==== Proof.KI.ValNT0.lean ====
import proofs.«427383_j1159641169925_2_alg».proof.Proof.KI.RegNT0
import proofs.«427383_j1159641169925_2_alg».proof.Proof.KI.NTProduct
import proofs.«427383_j1159641169925_2_alg».proof.Proof.Spec

noncomputable section

open scoped BigOperators

namespace Cert.KernelIdeal.Hand

open Cert.KernelIdeal Cert.KernelIdeal.Gen
open Idealize.ShloMosaic Idealize.ShloMosaic.TcCoe Idealize.ShloMosaic.ValueIdx

-- entry (p, q) of what the body leaves: the casts are identities at the ideal values, the rest is the product into zero
theorem pay0_apply (x0 : Vec Ideal S1000x512 .f32) (x1 : Vec Ideal S512x2048 .bf16) (p : Fin 1000) (q : Fin 2048) :
    k0_pay1 (F := Ideal) x0 x1 (ix2 p q) = ∑ k : Fin 512, x0 (ix2 p k) * x1 (ix2 k q) := by
  unfold k0_pay1; simp only [shapeCast_self]; exact matmul_nt_apply _ _ p q

variable (V : (c : Dev nD) → (b : Ref sig .tc) → Buf (Elt Ideal) ((c : Thread nD τ).loc b))

-- the product of the two input arrays: every point's output block is a block of rows of it
def tile0 (c : Dev nD) : S10000x2048.Idx → Elt Ideal .f32 := fun i =>
  Cert.Spec.nt (fun r k => (V c (Pipeline.arrRef spec0 0) : FVec Ideal S10000x512 .f32) (ix2 r k))
    (fun k q => (V c (Pipeline.arrRef spec0 1) : FVec Ideal S512x2048 .bf16) (ix2 k q)) (i 0) (i 1)

theorem idx_facts0 : ∀ t : Fin cfg0.N, win0_0.index t = ![t.val, 0] ∧ win0_1.index t = ![0, 0] ∧ win0_2.index t = ![t.val, 0] :=
  (by decide +kernel : ∀ t : Fin grid0.N, _)

theorem flushed_eq0 (c : Dev nD) (t : Fin cfg0.N) :
    (dat0 V c).flushed 2 t = ((cfg0.win 2).blk t).view.read (Elt Ideal) (tile0 V c) := by
  obtain ⟨e0, e1, e2⟩ := idx_facts0 t
  funext j
  obtain ⟨p, q, rfl⟩ : ∃ (p : Fin 1000) (q : Fin 2048), j = ix2 p q := ⟨j 0, j 1, eq_ix2 j⟩
  show k0_pay1 (iblk0 V c 0 t) (iblk0 V c 1 t) (ix2 p q) = tile0 V c (((cfg0.win 2).blk t).view.emb (ix2 p q))
  rw [pay0_apply]
  unfold tile0 Cert.Spec.nt iblk0
  refine Finset.sum_congr rfl fun k _ => ?_
  congr 1
  · refine congrArg (V c (Pipeline.arrRef spec0 0) : FVec Ideal S10000x512 .f32) (Shape.idx_ext₂ ?_ ?_)
    · show win0_0.index t 0 * 1000 + 1 * p.val = win0_2.index t 0 * 1000 + 1 * p.val; rw [e0, e2]
    · show win0_0.index t 1 * 512 + 1 * k.val = k.val; rw [e0]; exact (Nat.zero_add _).trans (Nat.one_mul _)
  · refine congrArg (V c (Pipeline.arrRef spec0 1) : FVec Ideal S512x2048 .bf16) (Shape.idx_ext₂ ?_ ?_)
    · show win0_1.index t 0 * 512 + 1 * k.val = k.val; rw [e1]; exact (Nat.zero_add _).trans (Nat.one_mul _)
    · show win0_1.index t 1 * 2048 + 1 * q.val = win0_2.index t 1 * 2048 + 1 * q.val; rw [e1, e2]; rfl

-- row r of the output array lies in the block of point r / 1000
theorem covered0 (i : S10000x2048.Idx) : ∃ t : Fin cfg0.N, (cfg0.win 2).flush t = true ∧ i ∈ ((cfg0.win 2).blk t).view.set := by
  have h0 := idx2_lt0 i
  have h1 := idx2_lt1 i
  obtain ⟨t, ht⟩ : ∃ t : Fin cfg0.N, t.val = (i 0).val / 1000 := ⟨⟨_, by have : cfg0.N = 10 := N_0; omega⟩, rfl⟩
  refine ⟨t, flush0_2 t, ?_⟩
  rw [show ((cfg0.win 2).blk t).view.set = (win0_2.rect t).set from View.set_slice_whole _ _, Rect.mem_set_unit, (idx_facts0 t).2.2]
  intro a
  match a with
  | ⟨0, _⟩ => show t.val * 1000 ≤ (i 0).val ∧ (i 0).val < t.val * 1000 + 1000; omega
  | ⟨1, _⟩ => show 0 * 2048 ≤ (i 1).val ∧ (i 1).val < 0 * 2048 + 2048; omega

theorem final0 (c : Dev nD) (r : Fin 10000) (q : Fin 2048) :
    (dat0 (F := Ideal) V c).arrAt 2 cfg0.N (ix2 r q)
      = Cert.Spec.nt (fun r k => (V c (Pipeline.arrRef spec0 0) : FVec Ideal S10000x512 .f32) (ix2 r k))
          (fun k q => (V c (Pipeline.arrRef spec0 1) : FVec Ideal S512x2048 .bf16) (ix2 k q)) r q :=
  congrFun ((dat0 V c).arrAt_eq_of_cover 2 (tile0 V c) (fun t _ => flushed_eq0 V c t) covered0) (ix2 r q)

end Cert.KernelIdeal.Hand
-- ==== Proof.KI.GRUOps.lean ====
import proofs.«427383_j1159641169925_2_alg».proof.Proof.Gen.KernelIdeal
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.KernelIdeal.Hand

open Cert.KernelIdeal
open Idealize.ShloMosaic Idealize.ShloMosaic.ValueIdx

-- The product into zero at row `p`, column `g` is the sum over the shared coordinate: the operands are read at (p, k) and (k, g).
theorem gruMM_apply (a : FVec Ideal S1000x512 .bf16) (b : FVec Ideal S512x1536 .bf16) (p : Fin 1000) (g : Fin 1536) :
    matmul dot_S1000x512_S512x1536_S1000x1536_1_0_0_1_n_n none a b (constant (F := Ideal) S1000x1536 .f32 0x00000000#32) (ix2 p g)
      = ∑ k : Fin 512, a (ix2 p k) * b (ix2 k g) := by
  simp only [matmul]
  rw [Ideal.matmul_constant_zero_apply, ← Equiv.sum_comp (contrEquiv1 dot_S1000x512_S512x1536_S1000x1536_1_0_0_1_n_n 512 rfl rfl).symm]
  refine Finset.sum_congr rfl fun k _ => ?_
  have hk := contrEquiv1_symm_val dot_S1000x512_S512x1536_S1000x1536_1_0_0_1_n_n 512 rfl rfl k
  have el : dot_S1000x512_S512x1536_S1000x1536_1_0_0_1_n_n.lhsIdx (ix2 p g) ((contrEquiv1 dot_S1000x512_S512x1536_S1000x1536_1_0_0_1_n_n 512 rfl rfl).symm k) = ix2 p k :=
    Shape.idx_ext₂ (by
      unfold DotDims.lhsIdx
      rw [dif_neg (show ¬(0 : Fin S1000x512.rank) ∈ dot_S1000x512_S512x1536_S1000x1536_1_0_0_1_n_n.lhsBatch by decide),
        dif_pos (show (0 : Fin S1000x512.rank) ∈ dot_S1000x512_S512x1536_S1000x1536_1_0_0_1_n_n.lhsNonContracting by decide)]
      rfl) ((dot_S1000x512_S512x1536_S1000x1536_1_0_0_1_n_n.lhsIdx_val_of_single rfl _ _).trans hk)
  have er : dot_S1000x512_S512x1536_S1000x1536_1_0_0_1_n_n.rhsIdx (ix2 p g) ((contrEquiv1 dot_S1000x512_S512x1536_S1000x1536_1_0_0_1_n_n 512 rfl rfl).symm k) = ix2 k g :=
    Shape.idx_ext₂ ((dot_S1000x512_S512x1536_S1000x1536_1_0_0_1_n_n.rhsIdx_val_of_single rfl _ _).trans hk) (by
      unfold DotDims.rhsIdx
      rw [dif_neg (show ¬(1 : Fin S512x1536.rank) ∈ dot_S1000x512_S512x1536_S1000x1536_1_0_0_1_n_n.rhsBatch by decide),
        dif_pos (show (1 : Fin S512x1536.rank) ∈ dot_S1000x512_S512x1536_S1000x1536_1_0_0_1_n_n.rhsNonContracting by decide)]
      rfl)
  rw [el, er]

theorem gruBias_apply (b : FVec Ideal S1x1536 .f32) (h : S1x1536.Broadcasts S1000x1536) (p : Fin 1000) (g : Fin 1536) :
    broadcastTo S1000x1536 b h (ix2 p g) = b (ix2 (0 : Fin 1) g) :=
  broadcastTo_1b_ab_apply b h p g

-- The three gates are the column ranges from 0, 512 and 1024: a range from `o` reads column `o + q`.
theorem gruGate0_apply (x : FVec Ideal S1000x1536 .f32) (h : S1000x1536.Slices ![0, 0] S1000x512) (p : Fin 1000) (q : Fin 512) :
    extractStridedSlice S1000x512 ![0, 0] x h (ix2 p q) = x (ix2 p (⟨q.val, by have := q.isLt; omega⟩ : Fin 1536)) :=
  slice2_axis1_apply 0 x h p q _ (Nat.zero_add _).symm

theorem gruGate1_apply (x : FVec Ideal S1000x1536 .f32) (h : S1000x1536.Slices ![0, 512] S1000x512) (p : Fin 1000) (q : Fin 512) :
    extractStridedSlice S1000x512 ![0, 512] x h (ix2 p q) = x (ix2 p (⟨512 + q.val, by have := q.isLt; omega⟩ : Fin 1536)) :=
  slice2_axis1_apply 512 x h p q _ rfl

theorem gruGate2_apply (x : FVec Ideal S1000x1536 .f32) (h : S1000x1536.Slices ![0, 1024] S1000x512) (p : Fin 1000) (q : Fin 512) :
    extractStridedSlice S1000x512 ![0, 1024] x h (ix2 p q) = x (ix2 p (⟨1024 + q.val, by have := q.isLt; omega⟩ : Fin 1536)) :=
  slice2_axis1_apply 1024 x h p q _ rfl

theorem gruLogistic_apply {s : Shape} (x : FVec Ideal s .f32) (i : s.Idx) : logistic x i = Ideal.logistic (x i) := rfl

theorem gruTanh_apply {s : Shape} (x : FVec Ideal s .f32) (i : s.Idx) : tanh x i = Ideal.tanh (x i) := rfl

theorem gruOne : (Scalar.ofBits (F := Ideal) .f32 0x3F800000#32 : EReal) = 1 := Ideal.ofBits_one_f32

end Cert.KernelIdeal.Hand

end
-- ==== Proof.KI.PayGRU1.lean ====
import proofs.«427383_j1159641169925_2_alg».proof.Proof.Gen.KernelIdeal.Skeleton
import proofs.«427383_j1159641169925_2_alg».proof.Proof.Spec
import proofs.«427383_j1159641169925_2_alg».proof.Proof.KI.GRUOps

noncomputable section

namespace Cert.KernelIdeal.Hand

open Cert.KernelIdeal Cert.KernelIdeal.Gen
open Idealize.ShloMosaic Idealize.ShloMosaic.ValueIdx

-- The stored block at row `p`, feature `q` is the cell over row `p` of the two row blocks: every operation read at the entry.
theorem pay1_apply (v0 v3 : Vec Ideal S1000x512 .f32) (v5 v7 : Vec Ideal S512x1536 .bf16) (v10 v15 : Vec Ideal S1x1536 .f32)
    (p : Fin 1000) (q : Fin 512) :
    k1_pay1 (F := Ideal) v0 v3 v5 v7 v10 v15 (ix2 p q)
      = Cert.Spec.gru (fun _ k => v0 (ix2 p k)) (fun _ k => v3 (ix2 p k)) (fun k g => v5 (ix2 k g)) (fun k g => v7 (ix2 k g))
          (fun g => v10 (ix2 (0 : Fin 1) g)) (fun g => v15 (ix2 (0 : Fin 1) g)) (0 : Fin 10000) q := by
  unfold k1_pay1
  simp only [shapeCast_self]
  simp only [addf_apply, mulf_apply, subf_apply, gruLogistic_apply, gruTanh_apply, broadcast_apply, gruOne,
    gruGate0_apply, gruGate1_apply, gruGate2_apply, gruMM_apply, gruBias_apply, truncf_apply]
  rfl

end Cert.KernelIdeal.Hand

end
-- ==== Proof.KI.GRURow.lean ====
import proofs.«427383_j1159641169925_2_alg».proof.Proof.Spec
import proofs.«427383_j1159641169925_2_alg».proof.Proof.Gen.KernelIdeal
import Idealize.ShloMosaic.Lib.ValueIdx
import Idealize.ShloMosaic.Lib.Pipeline.Value

noncomputable section

open scoped BigOperators

namespace Cert.KernelIdeal.Hand

open Cert.KernelIdeal
open Idealize.ShloMosaic Idealize.ShloMosaic.ValueIdx

theorem gruRow_congr {inc inc' h h' : Fin 10000 → Fin 512 → EReal} {wih wih' whh whh' : Fin 512 → Fin 1536 → EReal}
    {bih bih' bhh bhh' : Fin 1536 → EReal} {r r' : Fin 10000} (q : Fin 512)
    (e0 : ∀ k, inc r k = inc' r' k) (e1 : ∀ k, h r k = h' r' k)
    (e2 : ∀ k g, wih k g = wih' k g) (e3 : ∀ k g, whh k g = whh' k g)
    (e4 : ∀ g, bih g = bih' g) (e5 : ∀ g, bhh g = bhh' g) :
    Cert.Spec.gru inc h wih whh bih bhh r q = Cert.Spec.gru inc' h' wih' whh' bih' bhh' r' q := by
  obtain rfl : wih = wih' := funext fun k => funext (e2 k)
  obtain rfl : whh = whh' := funext fun k => funext (e3 k)
  obtain rfl : bih = bih' := funext e4
  obtain rfl : bhh = bhh' := funext e5
  unfold Cert.Spec.gru
  simp only [e0, e1]

-- The cell over six arrays, as one array: node `i 0`, feature `i 1`.
def gruArr (A0 A1 : FVec Ideal S10000x512 .f32) (A2 A3 : FVec Ideal S512x1536 .bf16) (A4 A5 : FVec Ideal S1x1536 .f32) :
    FVec Ideal S10000x512 .f32 := fun i =>
  Cert.Spec.gru (fun r k => A0 (ix2 r k)) (fun r k => A1 (ix2 r k)) (fun k g => A2 (ix2 k g)) (fun k g => A3 (ix2 k g))
    (fun g => A4 (ix2 (0 : Fin 1) g)) (fun g => A5 (ix2 (0 : Fin 1) g)) (i 0) (i 1)

theorem gruZeroOff : (![0, 0] : Fin 2 → Nat) = fun _ => 0 := funext fun a => by fin_cases a <;> rfl

-- An embedding whose block index is zero on both axes is the identity.
theorem idx_of_zero {s : Fin 2 → ℕ} {e : ((a : Fin 2) → Fin (s a)) → (a : Fin 2) → Fin (s a)} {i n : Fin 2 → ℕ}
    (h : ∀ y a, (e y a : ℕ) = i a * n a + y a) (hi : ∀ a, i a = 0) (y : (a : Fin 2) → Fin (s a)) : e y = y :=
  funext fun a => Fin.ext (by rw [h, hi, Nat.zero_mul, Nat.zero_add])

-- Blocks read through embeddings that sit at block index times size plus coordinate: with four blocks at index zero and the
-- two row blocks at the output block's index, the cell over row `p` of the blocks is the cell of the arrays at the output's element.
theorem gruBlk_congr {A0 A1 : FVec Ideal S10000x512 .f32} {A2 A3 : FVec Ideal S512x1536 .bf16} {A4 A5 : FVec Ideal S1x1536 .f32}
    {e0 e1 e6 : S1000x512.Idx → S10000x512.Idx} {e2 e3 : S512x1536.Idx → S512x1536.Idx} {e4 e5 : S1x1536.Idx → S1x1536.Idx}
    {i0 i1 i2 i3 i4 i5 i6 n n2 n3 n4 n5 : Fin 2 → ℕ}
    (h0 : ∀ y a, (e0 y a : ℕ) = i0 a * n a + y a) (h1 : ∀ y a, (e1 y a : ℕ) = i1 a * n a + y a)
    (h2 : ∀ y a, (e2 y a : ℕ) = i2 a * n2 a + y a) (h3 : ∀ y a, (e3 y a : ℕ) = i3 a * n3 a + y a)
    (h4 : ∀ y a, (e4 y a : ℕ) = i4 a * n4 a + y a) (h5 : ∀ y a, (e5 y a : ℕ) = i5 a * n5 a + y a)
    (h6 : ∀ y a, (e6 y a : ℕ) = i6 a * n a + y a)
    (hi : ∀ a, i2 a = 0 ∧ i3 a = 0 ∧ i4 a = 0 ∧ i5 a = 0 ∧ i0 a = i6 a ∧ i1 a = i6 a) (h61 : i6 1 = 0)
    (p : Fin 1000) (q : Fin 512) :
    Cert.Spec.gru (fun _ k => A0 (e0 (ix2 p k))) (fun _ k => A1 (e1 (ix2 p k))) (fun k g => A2 (e2 (ix2 k g)))
        (fun k g => A3 (e3 (ix2 k g))) (fun g => A4 (e4 (ix2 (0 : Fin 1) g))) (fun g => A5 (e5 (ix2 (0 : Fin 1) g))) (0 : Fin 10000) q
      = gruArr A0 A1 A2 A3 A4 A5 (e6 (ix2 p q)) := by
  unfold gruArr
  rw [show e6 (ix2 p q) 1 = q from Fin.ext (by rw [h6, h61, Nat.zero_mul, Nat.zero_add])]
  refine gruRow_congr q (fun k => congrArg A0 (Shape.idx_ext₂ ?_ ?_)) (fun k => congrArg A1 (Shape.idx_ext₂ ?_ ?_))
    (fun k g => congrArg A2 (idx_of_zero h2 (fun a => (hi a).1) _)) (fun k g => congrArg A3 (idx_of_zero h3 (fun a => (hi a).2.1) _))
    (fun g => congrArg A4 (idx_of_zero h4 (fun a => (hi a).2.2.1) _)) (fun g => congrArg A5 (idx_of_zero h5 (fun a => (hi a).2.2.2.1) _))
  · show (e0 (ix2 p k) 0 : ℕ) = (e6 (ix2 p q) 0 : ℕ)
    rw [h0, h6, (hi 0).2.2.2.2.1]
  · show (e0 (ix2 p k) 1 : ℕ) = k
    rw [h0, (hi 1).2.2.2.2.1, h61, Nat.zero_mul, Nat.zero_add]
  · show (e1 (ix2 p k) 0 : ℕ) = (e6 (ix2 p q) 0 : ℕ)
    rw [h1, h6, (hi 0).2.2.2.2.2]
  · show (e1 (ix2 p k) 1 : ℕ) = k
    rw [h1, (hi 1).2.2.2.2.2, h61, Nat.zero_mul, Nat.zero_add]

-- Ten row blocks of 1000 cover the 10000 rows: every element is some point's block element.
theorem gruCover {N : ℕ} (hN : N = 10) {e : Fin N → S1000x512.Idx → S10000x512.Idx} {i6 : Fin N → Fin 2 → ℕ} {n : Fin 2 → ℕ}
    (hn : n 0 = 1000 ∧ n 1 = 512) (h : ∀ t y a, (e t y a : ℕ) = i6 t a * n a + y a) (hi : ∀ t, i6 t 0 = t.val ∧ i6 t 1 = 0)
    (i : S10000x512.Idx) : ∃ t y, e t y = i := by
  have h0 := idx2_lt0 i
  have h1 := idx2_lt1 i
  refine ⟨⟨(i 0).val / 1000, by omega⟩, ix2 ⟨(i 0).val % 1000, by omega⟩ ⟨(i 1).val, h1⟩, Shape.idx_ext₂ ?_ ?_⟩
  · rw [h, (hi _).1, hn.1]; show (i 0).val / 1000 * 1000 + (i 0).val % 1000 = (i 0).val; omega
  · rw [h, (hi _).2, hn.2, Nat.zero_mul, Nat.zero_add]

end Cert.KernelIdeal.Hand

end
-- ==== Proof.KI.ValGRU1.lean ====
import proofs.«427383_j1159641169925_2_alg».proof.Proof.KI.RegGRU1
import proofs.«427383_j1159641169925_2_alg».proof.Proof.KI.PayGRU1
import proofs.«427383_j1159641169925_2_alg».proof.Proof.KI.GRURow
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

def new1 (c : Dev nD) : FVec Ideal S10000x512 .f32 :=
  gruArr (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))

theorem idx_facts1 : ∀ t : Fin cfg1.N,
    (∀ a : Fin 2, win1_2.index t a = 0 ∧ win1_3.index t a = 0 ∧ win1_4.index t a = 0 ∧ win1_5.index t a = 0
      ∧ win1_0.index t a = win1_6.index t a ∧ win1_1.index t a = win1_6.index t a)
    ∧ win1_6.index t (0 : Fin 2) = t.val ∧ win1_6.index t (1 : Fin 2) = 0 :=
  (by decide +kernel : ∀ t : Fin grid1.N, _)

-- A point writes back its rows of `new1`: the body's cell over the blocks' rows, which are the arrays' rows.
theorem flushed1_eq (c : Dev nD) (t : Fin cfg1.N) :
    (dat1 (F := Ideal) V c).flushed 6 t = ((cfg1.win 6).blk t).view.read (Elt Ideal) (new1 V c) := by
  show (cfg1.win 6).cut (grid1.coords t) ((dat1 (F := Ideal) V c).after 6 t) = _
  rw [after1_6]
  unfold out1_6
  rw [View.canon_unit_zero gruZeroOff]
  simp only [View.ld_unit_zero (S := S1000x512) gruZeroOff, View.ld_unit_zero (S := S512x1536) gruZeroOff, View.ld_unit_zero (S := S1x1536) gruZeroOff]
  funext j
  obtain ⟨p, q, rfl⟩ : ∃ (p : Fin 1000) (q : Fin 512), j = ix2 p q := ⟨j 0, j 1, eq_ix2 j⟩
  rw [View.read_apply]
  show k1_pay1 (F := Ideal) (iblk1 V c 0 t) (iblk1 V c 1 t) (iblk1 V c 2 t) (iblk1 V c 3 t) (iblk1 V c 4 t) (iblk1 V c 5 t) (ix2 p q)
    = new1 V c (((cfg1.win 6).blk t).view.emb (ix2 p q))
  refine (pay1_apply _ _ _ _ _ _ p q).trans ?_
  exact gruBlk_congr (A0 := V c (Pipeline.arrRef spec1 0)) (A1 := V c (Pipeline.arrRef spec1 1)) (A2 := V c (Pipeline.arrRef spec1 2)) (A3 := V c (Pipeline.arrRef spec1 3)) (A4 := V c (Pipeline.arrRef spec1 4)) (A5 := V c (Pipeline.arrRef spec1 5))
    (e0 := ((cfg1.win 0).blk t).view.emb) (e1 := ((cfg1.win 1).blk t).view.emb) (e2 := ((cfg1.win 2).blk t).view.emb) (e3 := ((cfg1.win 3).blk t).view.emb) (e4 := ((cfg1.win 4).blk t).view.emb) (e5 := ((cfg1.win 5).blk t).view.emb) (e6 := ((cfg1.win 6).blk t).view.emb)
    (win1_0.rect_emb_val t) (win1_1.rect_emb_val t) (win1_2.rect_emb_val t) (win1_3.rect_emb_val t) (win1_4.rect_emb_val t) (win1_5.rect_emb_val t) (win1_6.rect_emb_val t)
    (idx_facts1 t).1 (idx_facts1 t).2.2 p q

theorem cover1 (i : S10000x512.Idx) :
    ∃ t : Fin cfg1.N, (cfg1.win 6).flush t = true ∧ i ∈ ((cfg1.win 6).blk t).view.set := by
  obtain ⟨t, y, rfl⟩ := gruCover (N := cfg1.N) N_1 (e := fun t => ((cfg1.win 6).blk t).view.emb) (n := win1_6.size) ⟨rfl, rfl⟩
    (fun t => win1_6.rect_emb_val t) (fun t => (idx_facts1 t).2) i
  exact ⟨t, flush1_6 t, ((cfg1.win 6).blk t).view.emb_mem_set y⟩

theorem final1 (c : Dev nD) (r : Fin 10000) (q : Fin 512) :
    (dat1 (F := Ideal) V c).arrAt 6 cfg1.N (ix2 r q)
      = Cert.Spec.gru (fun r k => (V c (Pipeline.arrRef spec1 0) : FVec Ideal S10000x512 .f32) (ix2 r k))
          (fun r k => (V c (Pipeline.arrRef spec1 1) : FVec Ideal S10000x512 .f32) (ix2 r k))
          (fun k g => (V c (Pipeline.arrRef spec1 2) : FVec Ideal S512x1536 .bf16) (ix2 k g))
          (fun k g => (V c (Pipeline.arrRef spec1 3) : FVec Ideal S512x1536 .bf16) (ix2 k g))
          (fun g => (V c (Pipeline.arrRef spec1 4) : FVec Ideal S1x1536 .f32) (ix2 (0 : Fin 1) g))
          (fun g => (V c (Pipeline.arrRef spec1 5) : FVec Ideal S1x1536 .f32) (ix2 (0 : Fin 1) g)) r q :=
  congrFun ((dat1 (F := Ideal) V c).arrAt_eq_of_cover 6 (new1 V c) (fun t _ => flushed1_eq V c t) cover1) (ix2 r q)

end Cert.KernelIdeal.Hand

end
-- ==== Proof.KI.ValNT2.lean ====
import proofs.«427383_j1159641169925_2_alg».proof.Proof.KI.RegNT2
import proofs.«427383_j1159641169925_2_alg».proof.Proof.KI.NTProduct
import proofs.«427383_j1159641169925_2_alg».proof.Proof.Spec

noncomputable section

open scoped BigOperators

namespace Cert.KernelIdeal.Hand

open Cert.KernelIdeal Cert.KernelIdeal.Gen
open Idealize.ShloMosaic Idealize.ShloMosaic.TcCoe Idealize.ShloMosaic.ValueIdx

-- entry (p, q) of what the body leaves: the casts are identities at the ideal values, the rest is the product into zero
theorem pay2_apply (x0 : Vec Ideal S1000x512 .f32) (x1 : Vec Ideal S512x2048 .bf16) (p : Fin 1000) (q : Fin 2048) :
    k2_pay1 (F := Ideal) x0 x1 (ix2 p q) = ∑ k : Fin 512, x0 (ix2 p k) * x1 (ix2 k q) := by
  unfold k2_pay1; simp only [shapeCast_self]; exact matmul_nt_apply _ _ p q

variable (V : (c : Dev nD) → (b : Ref sig .tc) → Buf (Elt Ideal) ((c : Thread nD τ).loc b))

-- the product of the two input arrays: every point's output block is a block of rows of it
def tile2 (c : Dev nD) : S10000x2048.Idx → Elt Ideal .f32 := fun i =>
  Cert.Spec.nt (fun r k => (V c (Pipeline.arrRef spec2 0) : FVec Ideal S10000x512 .f32) (ix2 r k))
    (fun k q => (V c (Pipeline.arrRef spec2 1) : FVec Ideal S512x2048 .bf16) (ix2 k q)) (i 0) (i 1)

theorem idx_facts2 : ∀ t : Fin cfg2.N, win2_0.index t = ![t.val, 0] ∧ win2_1.index t = ![0, 0] ∧ win2_2.index t = ![t.val, 0] :=
  (by decide +kernel : ∀ t : Fin grid2.N, _)

theorem flushed_eq2 (c : Dev nD) (t : Fin cfg2.N) :
    (dat2 V c).flushed 2 t = ((cfg2.win 2).blk t).view.read (Elt Ideal) (tile2 V c) := by
  obtain ⟨e0, e1, e2⟩ := idx_facts2 t
  funext j
  obtain ⟨p, q, rfl⟩ : ∃ (p : Fin 1000) (q : Fin 2048), j = ix2 p q := ⟨j 0, j 1, eq_ix2 j⟩
  show k2_pay1 (iblk2 V c 0 t) (iblk2 V c 1 t) (ix2 p q) = tile2 V c (((cfg2.win 2).blk t).view.emb (ix2 p q))
  rw [pay2_apply]
  unfold tile2 Cert.Spec.nt iblk2
  refine Finset.sum_congr rfl fun k _ => ?_
  congr 1
  · refine congrArg (V c (Pipeline.arrRef spec2 0) : FVec Ideal S10000x512 .f32) (Shape.idx_ext₂ ?_ ?_)
    · show win2_0.index t 0 * 1000 + 1 * p.val = win2_2.index t 0 * 1000 + 1 * p.val; rw [e0, e2]
    · show win2_0.index t 1 * 512 + 1 * k.val = k.val; rw [e0]; exact (Nat.zero_add _).trans (Nat.one_mul _)
  · refine congrArg (V c (Pipeline.arrRef spec2 1) : FVec Ideal S512x2048 .bf16) (Shape.idx_ext₂ ?_ ?_)
    · show win2_1.index t 0 * 512 + 1 * k.val = k.val; rw [e1]; exact (Nat.zero_add _).trans (Nat.one_mul _)
    · show win2_1.index t 1 * 2048 + 1 * q.val = win2_2.index t 1 * 2048 + 1 * q.val; rw [e1, e2]; rfl

-- row r of the output array lies in the block of point r / 1000
theorem covered2 (i : S10000x2048.Idx) : ∃ t : Fin cfg2.N, (cfg2.win 2).flush t = true ∧ i ∈ ((cfg2.win 2).blk t).view.set := by
  have h0 := idx2_lt0 i
  have h1 := idx2_lt1 i
  obtain ⟨t, ht⟩ : ∃ t : Fin cfg2.N, t.val = (i 0).val / 1000 := ⟨⟨_, by have : cfg2.N = 10 := N_2; omega⟩, rfl⟩
  refine ⟨t, flush2_2 t, ?_⟩
  rw [show ((cfg2.win 2).blk t).view.set = (win2_2.rect t).set from View.set_slice_whole _ _, Rect.mem_set_unit, (idx_facts2 t).2.2]
  intro a
  match a with
  | ⟨0, _⟩ => show t.val * 1000 ≤ (i 0).val ∧ (i 0).val < t.val * 1000 + 1000; omega
  | ⟨1, _⟩ => show 0 * 2048 ≤ (i 1).val ∧ (i 1).val < 0 * 2048 + 2048; omega

theorem final2 (c : Dev nD) (r : Fin 10000) (q : Fin 2048) :
    (dat2 (F := Ideal) V c).arrAt 2 cfg2.N (ix2 r q)
      = Cert.Spec.nt (fun r k => (V c (Pipeline.arrRef spec2 0) : FVec Ideal S10000x512 .f32) (ix2 r k))
          (fun k q => (V c (Pipeline.arrRef spec2 1) : FVec Ideal S512x2048 .bf16) (ix2 k q)) r q :=
  congrFun ((dat2 V c).arrAt_eq_of_cover 2 (tile2 V c) (fun t _ => flushed_eq2 V c t) covered2) (ix2 r q)

end Cert.KernelIdeal.Hand
-- ==== Proof.KI.PayGRU3.lean ====
import proofs.«427383_j1159641169925_2_alg».proof.Proof.Gen.KernelIdeal.Skeleton
import proofs.«427383_j1159641169925_2_alg».proof.Proof.Spec
import proofs.«427383_j1159641169925_2_alg».proof.Proof.KI.PayGRU1

noncomputable section

namespace Cert.KernelIdeal.Hand

open Cert.KernelIdeal Cert.KernelIdeal.Gen
open Idealize.ShloMosaic Idealize.ShloMosaic.ValueIdx

-- The same payload as the first cell's, with one more cast to its own shape on the states.
theorem pay3_apply (v0 v3 : Vec Ideal S1000x512 .f32) (v5 v7 : Vec Ideal S512x1536 .bf16) (v10 v15 : Vec Ideal S1x1536 .f32)
    (p : Fin 1000) (q : Fin 512) :
    k3_pay1 (F := Ideal) v0 v3 v5 v7 v10 v15 (ix2 p q)
      = Cert.Spec.gru (fun _ k => v0 (ix2 p k)) (fun _ k => v3 (ix2 p k)) (fun k g => v5 (ix2 k g)) (fun k g => v7 (ix2 k g))
          (fun g => v10 (ix2 (0 : Fin 1) g)) (fun g => v15 (ix2 (0 : Fin 1) g)) (0 : Fin 10000) q := by
  unfold k3_pay1
  rw [shapeCast_self (s := S1000x512) v3]
  exact pay1_apply v0 v3 v5 v7 v10 v15 p q

end Cert.KernelIdeal.Hand

end
-- ==== Proof.KI.ValGRU3.lean ====
import proofs.«427383_j1159641169925_2_alg».proof.Proof.KI.RegGRU3
import proofs.«427383_j1159641169925_2_alg».proof.Proof.KI.PayGRU3
import proofs.«427383_j1159641169925_2_alg».proof.Proof.KI.GRURow
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

def new3 (c : Dev nD) : FVec Ideal S10000x512 .f32 :=
  gruArr (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))

theorem idx_facts3 : ∀ t : Fin cfg3.N,
    (∀ a : Fin 2, win3_2.index t a = 0 ∧ win3_3.index t a = 0 ∧ win3_4.index t a = 0 ∧ win3_5.index t a = 0
      ∧ win3_0.index t a = win3_6.index t a ∧ win3_1.index t a = win3_6.index t a)
    ∧ win3_6.index t (0 : Fin 2) = t.val ∧ win3_6.index t (1 : Fin 2) = 0 :=
  (by decide +kernel : ∀ t : Fin grid3.N, _)

-- A point writes back its rows of `new3`: the body's cell over the blocks' rows, which are the arrays' rows.
theorem flushed3_eq (c : Dev nD) (t : Fin cfg3.N) :
    (dat3 (F := Ideal) V c).flushed 6 t = ((cfg3.win 6).blk t).view.read (Elt Ideal) (new3 V c) := by
  show (cfg3.win 6).cut (grid3.coords t) ((dat3 (F := Ideal) V c).after 6 t) = _
  rw [after3_6]
  unfold out3_6
  rw [View.canon_unit_zero gruZeroOff]
  simp only [View.ld_unit_zero (S := S1000x512) gruZeroOff, View.ld_unit_zero (S := S512x1536) gruZeroOff, View.ld_unit_zero (S := S1x1536) gruZeroOff]
  funext j
  obtain ⟨p, q, rfl⟩ : ∃ (p : Fin 1000) (q : Fin 512), j = ix2 p q := ⟨j 0, j 1, eq_ix2 j⟩
  rw [View.read_apply]
  show k3_pay1 (F := Ideal) (iblk3 V c 0 t) (iblk3 V c 1 t) (iblk3 V c 2 t) (iblk3 V c 3 t) (iblk3 V c 4 t) (iblk3 V c 5 t) (ix2 p q)
    = new3 V c (((cfg3.win 6).blk t).view.emb (ix2 p q))
  refine (pay3_apply _ _ _ _ _ _ p q).trans ?_
  exact gruBlk_congr (A0 := V c (Pipeline.arrRef spec3 0)) (A1 := V c (Pipeline.arrRef spec3 1)) (A2 := V c (Pipeline.arrRef spec3 2)) (A3 := V c (Pipeline.arrRef spec3 3)) (A4 := V c (Pipeline.arrRef spec3 4)) (A5 := V c (Pipeline.arrRef spec3 5))
    (e0 := ((cfg3.win 0).blk t).view.emb) (e1 := ((cfg3.win 1).blk t).view.emb) (e2 := ((cfg3.win 2).blk t).view.emb) (e3 := ((cfg3.win 3).blk t).view.emb) (e4 := ((cfg3.win 4).blk t).view.emb) (e5 := ((cfg3.win 5).blk t).view.emb) (e6 := ((cfg3.win 6).blk t).view.emb)
    (win3_0.rect_emb_val t) (win3_1.rect_emb_val t) (win3_2.rect_emb_val t) (win3_3.rect_emb_val t) (win3_4.rect_emb_val t) (win3_5.rect_emb_val t) (win3_6.rect_emb_val t)
    (idx_facts3 t).1 (idx_facts3 t).2.2 p q

theorem cover3 (i : S10000x512.Idx) :
    ∃ t : Fin cfg3.N, (cfg3.win 6).flush t = true ∧ i ∈ ((cfg3.win 6).blk t).view.set := by
  obtain ⟨t, y, rfl⟩ := gruCover (N := cfg3.N) N_3 (e := fun t => ((cfg3.win 6).blk t).view.emb) (n := win3_6.size) ⟨rfl, rfl⟩
    (fun t => win3_6.rect_emb_val t) (fun t => (idx_facts3 t).2) i
  exact ⟨t, flush3_6 t, ((cfg3.win 6).blk t).view.emb_mem_set y⟩

theorem final3 (c : Dev nD) (r : Fin 10000) (q : Fin 512) :
    (dat3 (F := Ideal) V c).arrAt 6 cfg3.N (ix2 r q)
      = Cert.Spec.gru (fun r k => (V c (Pipeline.arrRef spec3 0) : FVec Ideal S10000x512 .f32) (ix2 r k))
          (fun r k => (V c (Pipeline.arrRef spec3 1) : FVec Ideal S10000x512 .f32) (ix2 r k))
          (fun k g => (V c (Pipeline.arrRef spec3 2) : FVec Ideal S512x1536 .bf16) (ix2 k g))
          (fun k g => (V c (Pipeline.arrRef spec3 3) : FVec Ideal S512x1536 .bf16) (ix2 k g))
          (fun g => (V c (Pipeline.arrRef spec3 4) : FVec Ideal S1x1536 .f32) (ix2 (0 : Fin 1) g))
          (fun g => (V c (Pipeline.arrRef spec3 5) : FVec Ideal S1x1536 .f32) (ix2 (0 : Fin 1) g)) r q :=
  congrFun ((dat3 (F := Ideal) V c).arrAt_eq_of_cover 6 (new3 V c) (fun t _ => flushed3_eq V c t) cover3) (ix2 r q)

end Cert.KernelIdeal.Hand

end
-- ==== Proof.KI.SpecEntries.lean ====
import proofs.«427383_j1159641169925_2_alg».proof.Proof.Spec

noncomputable section

namespace Cert.Spec

variable {C : ℕ} {src tgt : Fin 160000 → Fin 10000} {inc inc' h h' cb cb' : Fin 10000 → Fin 512 → EReal}
  {w w' : Fin 512 → Fin C → EReal} {y y' : Fin 10000 → Fin 2048 → EReal} {bm bm' : Fin 4 → Fin 512 → EReal}
  {wih wih' whh whh' : Fin 512 → Fin 1536 → EReal} {bih bih' bhh bhh' : Fin 1536 → EReal} {b b' : Fin 512 → EReal}

-- Each of the specification's functions, at arguments that agree entry by entry, gives the same value.
theorem nt_of_entries (hh : ∀ r k, h r k = h' r k) (hw : ∀ k q, w k q = w' k q) (r : Fin 10000) (q : Fin C) :
    nt h w r q = nt h' w' r q := by
  rw [funext₂ hh, funext₂ hw]

theorem cntb_of_entries (hb : ∀ t o, bm t o = bm' t o) (r : Fin 10000) (q : Fin 512) : cntb tgt bm r q = cntb tgt bm' r q := by
  rw [funext₂ hb]

theorem incK_of_entries (hy : ∀ r q, y r q = y' r q) (hc : ∀ r q, cb r q = cb' r q) (r : Fin 10000) (q : Fin 512) :
    incK src tgt y cb r q = incK src tgt y' cb' r q := by
  rw [funext₂ hy, funext₂ hc]

theorem gru_of_entries (h0 : ∀ r k, inc r k = inc' r k) (h1 : ∀ r k, h r k = h' r k) (h2 : ∀ k g, wih k g = wih' k g)
    (h3 : ∀ k g, whh k g = whh' k g) (h4 : ∀ g, bih g = bih' g) (h5 : ∀ g, bhh g = bhh' g) (r : Fin 10000) (q : Fin 512) :
    gru inc h wih whh bih bhh r q = gru inc' h' wih' whh' bih' bhh' r q := by
  rw [funext₂ h0, funext₂ h1, funext₂ h2, funext₂ h3, funext h4, funext h5]

theorem fc_of_entries {w w' : Fin 512 → Fin 512 → EReal} (hh : ∀ r k, h r k = h' r k) (hw : ∀ k o, w k o = w' k o)
    (hb : ∀ o, b o = b' o) (q : Fin 512) : fc h w b q = fc h' w' b' q := by
  rw [funext₂ hh, funext₂ hw, funext hb]

end Cert.Spec

end
-- ==== Proof.KI.ValueL0.lean ====
import proofs.«427383_j1159641169925_2_alg».proof.Proof.KI.ValueHost0
import proofs.«427383_j1159641169925_2_alg».proof.Proof.KI.HostGlueRun
import proofs.«427383_j1159641169925_2_alg».proof.Proof.KI.HostStepRun
import proofs.«427383_j1159641169925_2_alg».proof.Proof.KI.ArgKept
import proofs.«427383_j1159641169925_2_alg».proof.Proof.KI.GlueBias
import proofs.«427383_j1159641169925_2_alg».proof.Proof.KI.GlueInc
import proofs.«427383_j1159641169925_2_alg».proof.Proof.KI.PrepAt
import proofs.«427383_j1159641169925_2_alg».proof.Proof.KI.ValNT0
import proofs.«427383_j1159641169925_2_alg».proof.Proof.KI.ValGRU1
import proofs.«427383_j1159641169925_2_alg».proof.Proof.KI.ValNT2
import proofs.«427383_j1159641169925_2_alg».proof.Proof.KI.ValGRU3
import proofs.«427383_j1159641169925_2_alg».proof.Proof.SpecArgs
import proofs.«427383_j1159641169925_2_alg».proof.Proof.KI.SpecEntries

noncomputable section

namespace Cert.KernelIdeal.Hand

open Cert.KernelIdeal Cert.KernelIdeal.Gen
open Idealize.ShloMosaic Idealize.ShloMosaic.TcCoe Idealize.ShloMosaic.ValueIdx

section Step

variable (a1 : IVec S4x40000x2 32) (a2 : FVec Ideal S2x4x512x512 .f32) (a3 : FVec Ideal S2x4x512 .f32)
  (a4 a5 : FVec Ideal S2x1536x512 .f32) (a6 a7 : FVec Ideal S2x1536 .f32) (src tgt : Fin 160000 → Fin 10000)

-- The node transform's array read as a table, each edge's row of it, the rows added at the edges' targets, plus the bias.
theorem inc_of {y : FVec Ideal S10000x2048 .f32} {t : FVec Ideal S40000x512 .f32} {rows : FVec Ideal S160000x512 .f32}
    {flat tgtw : IVec S160000 32} {bias inc : FVec Ideal S10000x512 .f32} {bm : FVec Ideal S4x512 .f32}
    (ht : t = shapeCast S40000x512 y Facts₀.shapeCasts_S10000x2048_S40000x512) (hrows : rows = kTake t flat)
    (hflat : flat = kFlat a1) (hinc : inc = kScat tgtw rows bias) (htgt : tgtw = kTgtW a1) (hbias : bias = kBias a1 bm) :
    inc = kInc y a1 (kBias a1 bm) := by
  subst ht hrows hflat htgt hbias
  exact hinc

-- A node transform, the incoming sum of its result and a recurrent cell over the states `h` and layer `l`'s weights: the step of `h`.
theorem step_of (l : Fin 2) (hE : Cert.Spec.EdgesAre a1 src tgt) (h : Fin 10000 → Fin 512 → EReal)
    {x x' hold hold' inc out out' : FVec Ideal S10000x512 .f32} {y y' : FVec Ideal S10000x2048 .f32}
    {wc wc' : FVec Ideal S512x2048 .bf16} {wih wih' whh whh' : FVec Ideal S512x1536 .bf16}
    {bih bih' bhh bhh' : FVec Ideal S1x1536 .f32} {bm : FVec Ideal S4x512 .f32}
    (ey : y = y') (hy : ∀ r q, y' (ix2 r q) = Cert.Spec.nt (fun r k => x (ix2 r k)) (fun k q => wc (ix2 k q)) r q)
    (ex : x = x') (hx : ∀ r k, x' (ix2 r k) = h r k)
    (ewc : wc = wc') (hwc : ∀ k q, wc' (ix2 k q) = Cert.Spec.wcat (fun t o i => a2 (ix4 l t o i)) k q)
    (eout : out = out') (hout : ∀ r q, out' (ix2 r q) = Cert.Spec.gru (fun r k => inc (ix2 r k)) (fun r k => hold (ix2 r k))
      (fun k g => wih (ix2 k g)) (fun k g => whh (ix2 k g)) (fun g => bih (ix2 0 g)) (fun g => bhh (ix2 0 g)) r q)
    (hinc : inc = kInc y a1 (kBias a1 bm)) (hbm : ∀ t o, bm (ix2 t o) = a3 (ix3 l t o))
    (ehold : hold = hold') (hhold : ∀ r k, hold' (ix2 r k) = h r k)
    (ewih : wih = wih') (hwih : ∀ k g, wih' (ix2 k g) = a4 (ix3 l g k))
    (ewhh : whh = whh') (hwhh : ∀ k g, whh' (ix2 k g) = a5 (ix3 l g k))
    (ebih : bih = bih') (hbih : ∀ g, bih' (ix2 0 g) = a6 (ix2 l g))
    (ebhh : bhh = bhh') (hbhh : ∀ g, bhh' (ix2 0 g) = a7 (ix2 l g)) (r : Fin 10000) (q : Fin 512) :
    out (ix2 r q) = Cert.Spec.stepK src tgt (fun t o i => a2 (ix4 l t o i)) (fun t o => a3 (ix3 l t o))
      (fun k g => a4 (ix3 l g k)) (fun k g => a5 (ix3 l g k)) (fun g => a6 (ix2 l g)) (fun g => a7 (ix2 l g)) h r q := by
  subst ey ex ewc eout hinc ehold ewih ewhh ebih ebhh
  refine (hout r q).trans ?_
  show _ = Cert.Spec.gru _ _ _ _ _ _ r q
  refine Cert.Spec.gru_of_entries (fun r k => ?_) hhold hwih hwhh hbih hbhh r q
  refine (kInc_apply _ _ _ src tgt hE r k).trans (Cert.Spec.incK_of_entries (fun r q => ?_) (fun r q => ?_) r k)
  · exact (hy r q).trans (Cert.Spec.nt_of_entries hx hwc r q)
  · exact (kBias_apply _ _ src tgt hE r q).trans (Cert.Spec.cntb_of_entries hbm r q)

end Step

variable (m : (ℓ : Loc nD τ sig) → Buf (Elt Ideal) ℓ) (ρ : Dev nD → PrngReg)

-- The nodes' initial states, by node and feature.
abbrev x0 (c : Dev nD) : Fin 10000 → Fin 512 → EReal :=
  fun r k => ((m ((c : Thread nD τ).loc main_arg0)) : FVec Ideal S10000x512 .f32) (ix2 r k)

-- One step of the network with layer `l`'s slices of the launch contents of the weight arrays.
def sL (c : Dev nD) (src tgt : Fin 160000 → Fin 10000) (l : Fin 2) : (Fin 10000 → Fin 512 → EReal) → Fin 10000 → Fin 512 → EReal :=
  Cert.Spec.stepK src tgt
    (fun t o i => ((m ((c : Thread nD τ).loc main_arg2)) : FVec Ideal S2x4x512x512 .f32) (ix4 l t o i))
    (fun t o => ((m ((c : Thread nD τ).loc main_arg3)) : FVec Ideal S2x4x512 .f32) (ix3 l t o))
    (fun k g => ((m ((c : Thread nD τ).loc main_arg4)) : FVec Ideal S2x1536x512 .f32) (ix3 l g k))
    (fun k g => ((m ((c : Thread nD τ).loc main_arg5)) : FVec Ideal S2x1536x512 .f32) (ix3 l g k))
    (fun g => ((m ((c : Thread nD τ).loc main_arg6)) : FVec Ideal S2x1536 .f32) (ix2 l g))
    (fun g => ((m ((c : Thread nD τ).loc main_arg7)) : FVec Ideal S2x1536 .f32) (ix2 l g))

variable (c : Dev nD) (src tgt : Fin 160000 → Fin 10000) (hE : Cert.Spec.EdgesAre (m ((c : Thread nD τ).loc main_arg1)) src tgt)
include hE

-- The states after the first layer's first step.
theorem W6_h (r : Fin 10000) (q : Fin 512) :
    (W6 m ρ c (Proc.devRef .tc main_v57) : FVec Ideal S10000x512 .f32) (ix2 r q) = sL m c src tgt 0 (x0 m c) r q :=
  step_of _ _ _ _ _ _ _ src tgt 0 hE (x0 m c)
    (W2_arr m ρ c 2) (final0 (V1 m ρ) c) (kept m ρ c main_arg0 0 1 (by decide)) (fun _ _ => rfl) (W1_v32 m ρ c) (kWcat0_apply _)
    (W6_arr m ρ c 6) (final1 (V5 m ρ) c)
    (inc_of _ (hostOps1_v51 (W2 m ρ c)) (hostOps1_1_v52 (W3 m ρ c)) ((kept m ρ c main_v11 1 2 (by decide)).trans (W1_v11 m ρ c))
      (hostOps1_2_v56 (W4 m ρ c)) ((kept m ρ c main_v5 1 3 (by decide)).trans (W1_v5 m ρ c)) ((kept m ρ c main_v49 1 3 (by decide)).trans (W1_v49 m ρ c)))
    (kBm0_apply _) (kept m ρ c main_arg0 0 5 (by decide)) (fun _ _ => rfl)
    ((kept m ρ c main_v36 1 4 (by decide)).trans (W1_v36 m ρ c)) (kWihT0_apply _) ((kept m ρ c main_v40 1 4 (by decide)).trans (W1_v40 m ρ c)) (kWhhT0_apply _)
    ((kept m ρ c main_v43 1 4 (by decide)).trans (W1_v43 m ρ c)) (kBih0_apply _) ((kept m ρ c main_v46 1 4 (by decide)).trans (W1_v46 m ρ c)) (kBhh0_apply _) r q

-- The states after the first layer's second step.
theorem W11_h (r : Fin 10000) (q : Fin 512) :
    (W11 m ρ c (Proc.devRef .tc main_v65) : FVec Ideal S10000x512 .f32) (ix2 r q)
      = sL m c src tgt 0 (sL m c src tgt 0 (x0 m c)) r q :=
  step_of _ _ _ _ _ _ _ src tgt 0 hE _
    (W7_arr m ρ c 2) (final2 (V6 m ρ) c) rfl (W6_h m ρ c src tgt hE) ((kept m ρ c main_v32 1 5 (by decide)).trans (W1_v32 m ρ c)) (kWcat0_apply _)
    (W11_arr m ρ c 6) (final3 (V10 m ρ) c)
    (inc_of _ (hostOps3_v59 (W7 m ρ c)) (hostOps3_1_v60 (W8 m ρ c)) ((kept m ρ c main_v11 1 7 (by decide)).trans (W1_v11 m ρ c))
      (hostOps3_2_v64 (W9 m ρ c)) ((kept m ρ c main_v5 1 8 (by decide)).trans (W1_v5 m ρ c)) ((kept m ρ c main_v49 1 8 (by decide)).trans (W1_v49 m ρ c)))
    (kBm0_apply _) (kept m ρ c main_v57 6 4 (by decide)) (W6_h m ρ c src tgt hE)
    ((kept m ρ c main_v36 1 9 (by decide)).trans (W1_v36 m ρ c)) (kWihT0_apply _) ((kept m ρ c main_v40 1 9 (by decide)).trans (W1_v40 m ρ c)) (kWhhT0_apply _)
    ((kept m ρ c main_v43 1 9 (by decide)).trans (W1_v43 m ρ c)) (kBih0_apply _) ((kept m ρ c main_v46 1 9 (by decide)).trans (W1_v46 m ρ c)) (kBhh0_apply _) r q

end Cert.KernelIdeal.Hand

end
-- ==== Proof.KI.HostPrepRun.lean ====
import proofs.«427383_j1159641169925_2_alg».proof.Proof.Gen.KernelIdeal.Launch
import proofs.«427383_j1159641169925_2_alg».proof.Proof.KI.PrepOps
import Idealize.ShloMosaic.Lib.StableHlo.Run

set_option maxRecDepth 1648

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

variable (V : Valuation τ sig (Elt F))

theorem hostOps4_v70 :
    (StableHlo.after hostOps4 V (Proc.devRef .tc main_v70) : FVec F S512x2048 .bf16) = kWcat1 (V (Proc.devRef .tc main_arg2)) := by
  after_results
  rfl

theorem hostOps4_v74 :
    (StableHlo.after hostOps4 V (Proc.devRef .tc main_v74) : FVec F S512x1536 .bf16) = kWihT1 (V (Proc.devRef .tc main_arg4)) := by
  after_results
  rfl

theorem hostOps4_v78 :
    (StableHlo.after hostOps4 V (Proc.devRef .tc main_v78) : FVec F S512x1536 .bf16) = kWhhT1 (V (Proc.devRef .tc main_arg5)) := by
  after_results
  rfl

theorem hostOps4_v81 :
    (StableHlo.after hostOps4 V (Proc.devRef .tc main_v81) : FVec F S1x1536 .f32) = kBih1 (V (Proc.devRef .tc main_arg6)) := by
  after_results
  rfl

theorem hostOps4_v84 :
    (StableHlo.after hostOps4 V (Proc.devRef .tc main_v84) : FVec F S1x1536 .f32) = kBhh1 (V (Proc.devRef .tc main_arg7)) := by
  after_results
  rfl

theorem hostOps4_v86 :
    (StableHlo.after hostOps4 V (Proc.devRef .tc main_v86) : FVec F S4x512 .f32) = kBm1 (V (Proc.devRef .tc main_arg3)) := by
  after_results
  rfl

theorem hostOps8_v105 :
    (StableHlo.after hostOps8 V (Proc.devRef .tc main_v105) : FVec F S512x512 .bf16) = kFcWT (V (Proc.devRef .tc main_arg8)) := by
  after_results
  rfl

theorem hostOps8_v106 :
    (StableHlo.after hostOps8 V (Proc.devRef .tc main_v106) : FVec F S1x512 .f32) = kFcb (V (Proc.devRef .tc main_arg9)) := by
  after_results
  rfl

theorem hostOps9_v108 :
    (StableHlo.after hostOps9 V (Proc.devRef .tc main_v108) : FVec F S512 .f32) = kOut (V (Proc.devRef .tc main_v107)) := by
  after_results
  rfl

end Cert.KernelIdeal.Hand

end
-- ==== Proof.KI.ValueHost4.lean ====
import proofs.«427383_j1159641169925_2_alg».proof.Proof.KI.ArgKept
import proofs.«427383_j1159641169925_2_alg».proof.Proof.KI.HostPrepRun

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (ρ : Dev nD → PrngReg) (c : Dev nD)

-- A layer's prepared weights: the layout chain of its argument array's launch contents, which no earlier item changes.
theorem W12_v70 :
    (W12 m ρ c (Proc.devRef .tc main_v70) : FVec F S512x2048 .bf16) = kWcat1 (m ((c : Thread nD τ).loc main_arg2)) :=
  (hostOps4_v70 (W11 m ρ c)).trans (congrArg kWcat1 (kept m ρ c main_arg2 0 11 (by decide)))
theorem W12_v74 :
    (W12 m ρ c (Proc.devRef .tc main_v74) : FVec F S512x1536 .bf16) = kWihT1 (m ((c : Thread nD τ).loc main_arg4)) :=
  (hostOps4_v74 (W11 m ρ c)).trans (congrArg kWihT1 (kept m ρ c main_arg4 0 11 (by decide)))
theorem W12_v78 :
    (W12 m ρ c (Proc.devRef .tc main_v78) : FVec F S512x1536 .bf16) = kWhhT1 (m ((c : Thread nD τ).loc main_arg5)) :=
  (hostOps4_v78 (W11 m ρ c)).trans (congrArg kWhhT1 (kept m ρ c main_arg5 0 11 (by decide)))
theorem W12_v81 :
    (W12 m ρ c (Proc.devRef .tc main_v81) : FVec F S1x1536 .f32) = kBih1 (m ((c : Thread nD τ).loc main_arg6)) :=
  (hostOps4_v81 (W11 m ρ c)).trans (congrArg kBih1 (kept m ρ c main_arg6 0 11 (by decide)))
theorem W12_v84 :
    (W12 m ρ c (Proc.devRef .tc main_v84) : FVec F S1x1536 .f32) = kBhh1 (m ((c : Thread nD τ).loc main_arg7)) :=
  (hostOps4_v84 (W11 m ρ c)).trans (congrArg kBhh1 (kept m ρ c main_arg7 0 11 (by decide)))
theorem W23_v105 :
    (W23 m ρ c (Proc.devRef .tc main_v105) : FVec F S512x512 .bf16) = kFcWT (m ((c : Thread nD τ).loc main_arg8)) :=
  (hostOps8_v105 (W22 m ρ c)).trans (congrArg kFcWT (kept m ρ c main_arg8 0 22 (by decide)))
theorem W23_v106 :
    (W23 m ρ c (Proc.devRef .tc main_v106) : FVec F S1x512 .f32) = kFcb (m ((c : Thread nD τ).loc main_arg9)) :=
  (hostOps8_v106 (W22 m ρ c)).trans (congrArg kFcb (kept m ρ c main_arg9 0 22 (by decide)))

end Cert.KernelIdeal.Hand

end
-- ==== Proof.KI.ValNT4.lean ====
import proofs.«427383_j1159641169925_2_alg».proof.Proof.KI.RegNT4
import proofs.«427383_j1159641169925_2_alg».proof.Proof.KI.NTProduct
import proofs.«427383_j1159641169925_2_alg».proof.Proof.Spec

noncomputable section

open scoped BigOperators

namespace Cert.KernelIdeal.Hand

open Cert.KernelIdeal Cert.KernelIdeal.Gen
open Idealize.ShloMosaic Idealize.ShloMosaic.TcCoe Idealize.ShloMosaic.ValueIdx

-- entry (p, q) of what the body leaves: the casts are identities at the ideal values, the rest is the product into zero
theorem pay4_apply (x0 : Vec Ideal S1000x512 .f32) (x1 : Vec Ideal S512x2048 .bf16) (p : Fin 1000) (q : Fin 2048) :
    k4_pay1 (F := Ideal) x0 x1 (ix2 p q) = ∑ k : Fin 512, x0 (ix2 p k) * x1 (ix2 k q) := by
  unfold k4_pay1; simp only [shapeCast_self]; exact matmul_nt_apply _ _ p q

variable (V : (c : Dev nD) → (b : Ref sig .tc) → Buf (Elt Ideal) ((c : Thread nD τ).loc b))

-- the product of the two input arrays: every point's output block is a block of rows of it
def tile4 (c : Dev nD) : S10000x2048.Idx → Elt Ideal .f32 := fun i =>
  Cert.Spec.nt (fun r k => (V c (Pipeline.arrRef spec4 0) : FVec Ideal S10000x512 .f32) (ix2 r k))
    (fun k q => (V c (Pipeline.arrRef spec4 1) : FVec Ideal S512x2048 .bf16) (ix2 k q)) (i 0) (i 1)

theorem idx_facts4 : ∀ t : Fin cfg4.N, win4_0.index t = ![t.val, 0] ∧ win4_1.index t = ![0, 0] ∧ win4_2.index t = ![t.val, 0] :=
  (by decide +kernel : ∀ t : Fin grid4.N, _)

theorem flushed_eq4 (c : Dev nD) (t : Fin cfg4.N) :
    (dat4 V c).flushed 2 t = ((cfg4.win 2).blk t).view.read (Elt Ideal) (tile4 V c) := by
  obtain ⟨e0, e1, e2⟩ := idx_facts4 t
  funext j
  obtain ⟨p, q, rfl⟩ : ∃ (p : Fin 1000) (q : Fin 2048), j = ix2 p q := ⟨j 0, j 1, eq_ix2 j⟩
  show k4_pay1 (iblk4 V c 0 t) (iblk4 V c 1 t) (ix2 p q) = tile4 V c (((cfg4.win 2).blk t).view.emb (ix2 p q))
  rw [pay4_apply]
  unfold tile4 Cert.Spec.nt iblk4
  refine Finset.sum_congr rfl fun k _ => ?_
  congr 1
  · refine congrArg (V c (Pipeline.arrRef spec4 0) : FVec Ideal S10000x512 .f32) (Shape.idx_ext₂ ?_ ?_)
    · show win4_0.index t 0 * 1000 + 1 * p.val = win4_2.index t 0 * 1000 + 1 * p.val; rw [e0, e2]
    · show win4_0.index t 1 * 512 + 1 * k.val = k.val; rw [e0]; exact (Nat.zero_add _).trans (Nat.one_mul _)
  · refine congrArg (V c (Pipeline.arrRef spec4 1) : FVec Ideal S512x2048 .bf16) (Shape.idx_ext₂ ?_ ?_)
    · show win4_1.index t 0 * 512 + 1 * k.val = k.val; rw [e1]; exact (Nat.zero_add _).trans (Nat.one_mul _)
    · show win4_1.index t 1 * 2048 + 1 * q.val = win4_2.index t 1 * 2048 + 1 * q.val; rw [e1, e2]; rfl

-- row r of the output array lies in the block of point r / 1000
theorem covered4 (i : S10000x2048.Idx) : ∃ t : Fin cfg4.N, (cfg4.win 2).flush t = true ∧ i ∈ ((cfg4.win 2).blk t).view.set := by
  have h0 := idx2_lt0 i
  have h1 := idx2_lt1 i
  obtain ⟨t, ht⟩ : ∃ t : Fin cfg4.N, t.val = (i 0).val / 1000 := ⟨⟨_, by have : cfg4.N = 10 := N_4; omega⟩, rfl⟩
  refine ⟨t, flush4_2 t, ?_⟩
  rw [show ((cfg4.win 2).blk t).view.set = (win4_2.rect t).set from View.set_slice_whole _ _, Rect.mem_set_unit, (idx_facts4 t).2.2]
  intro a
  match a with
  | ⟨0, _⟩ => show t.val * 1000 ≤ (i 0).val ∧ (i 0).val < t.val * 1000 + 1000; omega
  | ⟨1, _⟩ => show 0 * 2048 ≤ (i 1).val ∧ (i 1).val < 0 * 2048 + 2048; omega

theorem final4 (c : Dev nD) (r : Fin 10000) (q : Fin 2048) :
    (dat4 (F := Ideal) V c).arrAt 2 cfg4.N (ix2 r q)
      = Cert.Spec.nt (fun r k => (V c (Pipeline.arrRef spec4 0) : FVec Ideal S10000x512 .f32) (ix2 r k))
          (fun k q => (V c (Pipeline.arrRef spec4 1) : FVec Ideal S512x2048 .bf16) (ix2 k q)) r q :=
  congrFun ((dat4 V c).arrAt_eq_of_cover 2 (tile4 V c) (fun t _ => flushed_eq4 V c t) covered4) (ix2 r q)

end Cert.KernelIdeal.Hand
-- ==== Proof.KI.PayGRU5.lean ====
import proofs.«427383_j1159641169925_2_alg».proof.Proof.Gen.KernelIdeal.Skeleton
import proofs.«427383_j1159641169925_2_alg».proof.Proof.Spec
import proofs.«427383_j1159641169925_2_alg».proof.Proof.KI.PayGRU1

noncomputable section

namespace Cert.KernelIdeal.Hand

open Cert.KernelIdeal Cert.KernelIdeal.Gen
open Idealize.ShloMosaic Idealize.ShloMosaic.ValueIdx

-- The same payload as the first cell's, with one more cast to its own shape on the states.
theorem pay5_apply (v0 v3 : Vec Ideal S1000x512 .f32) (v5 v7 : Vec Ideal S512x1536 .bf16) (v10 v15 : Vec Ideal S1x1536 .f32)
    (p : Fin 1000) (q : Fin 512) :
    k5_pay1 (F := Ideal) v0 v3 v5 v7 v10 v15 (ix2 p q)
      = Cert.Spec.gru (fun _ k => v0 (ix2 p k)) (fun _ k => v3 (ix2 p k)) (fun k g => v5 (ix2 k g)) (fun k g => v7 (ix2 k g))
          (fun g => v10 (ix2 (0 : Fin 1) g)) (fun g => v15 (ix2 (0 : Fin 1) g)) (0 : Fin 10000) q := by
  unfold k5_pay1
  rw [shapeCast_self (s := S1000x512) v3]
  exact pay1_apply v0 v3 v5 v7 v10 v15 p q

end Cert.KernelIdeal.Hand

end
-- ==== Proof.KI.ValGRU5.lean ====
import proofs.«427383_j1159641169925_2_alg».proof.Proof.KI.RegGRU5
import proofs.«427383_j1159641169925_2_alg».proof.Proof.KI.PayGRU5
import proofs.«427383_j1159641169925_2_alg».proof.Proof.KI.GRURow
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

def new5 (c : Dev nD) : FVec Ideal S10000x512 .f32 :=
  gruArr (V c (Pipeline.arrRef spec5 0)) (V c (Pipeline.arrRef spec5 1)) (V c (Pipeline.arrRef spec5 2))
    (V c (Pipeline.arrRef spec5 3)) (V c (Pipeline.arrRef spec5 4)) (V c (Pipeline.arrRef spec5 5))

theorem idx_facts5 : ∀ t : Fin cfg5.N,
    (∀ a : Fin 2, win5_2.index t a = 0 ∧ win5_3.index t a = 0 ∧ win5_4.index t a = 0 ∧ win5_5.index t a = 0
      ∧ win5_0.index t a = win5_6.index t a ∧ win5_1.index t a = win5_6.index t a)
    ∧ win5_6.index t (0 : Fin 2) = t.val ∧ win5_6.index t (1 : Fin 2) = 0 :=
  (by decide +kernel : ∀ t : Fin grid5.N, _)

-- A point writes back its rows of `new5`: the body's cell over the blocks' rows, which are the arrays' rows.
theorem flushed5_eq (c : Dev nD) (t : Fin cfg5.N) :
    (dat5 (F := Ideal) V c).flushed 6 t = ((cfg5.win 6).blk t).view.read (Elt Ideal) (new5 V c) := by
  show (cfg5.win 6).cut (grid5.coords t) ((dat5 (F := Ideal) V c).after 6 t) = _
  rw [after5_6]
  unfold out5_6
  rw [View.canon_unit_zero gruZeroOff]
  simp only [View.ld_unit_zero (S := S1000x512) gruZeroOff, View.ld_unit_zero (S := S512x1536) gruZeroOff, View.ld_unit_zero (S := S1x1536) gruZeroOff]
  funext j
  obtain ⟨p, q, rfl⟩ : ∃ (p : Fin 1000) (q : Fin 512), j = ix2 p q := ⟨j 0, j 1, eq_ix2 j⟩
  rw [View.read_apply]
  show k5_pay1 (F := Ideal) (iblk5 V c 0 t) (iblk5 V c 1 t) (iblk5 V c 2 t) (iblk5 V c 3 t) (iblk5 V c 4 t) (iblk5 V c 5 t) (ix2 p q)
    = new5 V c (((cfg5.win 6).blk t).view.emb (ix2 p q))
  refine (pay5_apply _ _ _ _ _ _ p q).trans ?_
  exact gruBlk_congr (A0 := V c (Pipeline.arrRef spec5 0)) (A1 := V c (Pipeline.arrRef spec5 1)) (A2 := V c (Pipeline.arrRef spec5 2)) (A3 := V c (Pipeline.arrRef spec5 3)) (A4 := V c (Pipeline.arrRef spec5 4)) (A5 := V c (Pipeline.arrRef spec5 5))
    (e0 := ((cfg5.win 0).blk t).view.emb) (e1 := ((cfg5.win 1).blk t).view.emb) (e2 := ((cfg5.win 2).blk t).view.emb) (e3 := ((cfg5.win 3).blk t).view.emb) (e4 := ((cfg5.win 4).blk t).view.emb) (e5 := ((cfg5.win 5).blk t).view.emb) (e6 := ((cfg5.win 6).blk t).view.emb)
    (win5_0.rect_emb_val t) (win5_1.rect_emb_val t) (win5_2.rect_emb_val t) (win5_3.rect_emb_val t) (win5_4.rect_emb_val t) (win5_5.rect_emb_val t) (win5_6.rect_emb_val t)
    (idx_facts5 t).1 (idx_facts5 t).2.2 p q

theorem cover5 (i : S10000x512.Idx) :
    ∃ t : Fin cfg5.N, (cfg5.win 6).flush t = true ∧ i ∈ ((cfg5.win 6).blk t).view.set := by
  obtain ⟨t, y, rfl⟩ := gruCover (N := cfg5.N) N_5 (e := fun t => ((cfg5.win 6).blk t).view.emb) (n := win5_6.size) ⟨rfl, rfl⟩
    (fun t => win5_6.rect_emb_val t) (fun t => (idx_facts5 t).2) i
  exact ⟨t, flush5_6 t, ((cfg5.win 6).blk t).view.emb_mem_set y⟩

theorem final5 (c : Dev nD) (r : Fin 10000) (q : Fin 512) :
    (dat5 (F := Ideal) V c).arrAt 6 cfg5.N (ix2 r q)
      = Cert.Spec.gru (fun r k => (V c (Pipeline.arrRef spec5 0) : FVec Ideal S10000x512 .f32) (ix2 r k))
          (fun r k => (V c (Pipeline.arrRef spec5 1) : FVec Ideal S10000x512 .f32) (ix2 r k))
          (fun k g => (V c (Pipeline.arrRef spec5 2) : FVec Ideal S512x1536 .bf16) (ix2 k g))
          (fun k g => (V c (Pipeline.arrRef spec5 3) : FVec Ideal S512x1536 .bf16) (ix2 k g))
          (fun g => (V c (Pipeline.arrRef spec5 4) : FVec Ideal S1x1536 .f32) (ix2 (0 : Fin 1) g))
          (fun g => (V c (Pipeline.arrRef spec5 5) : FVec Ideal S1x1536 .f32) (ix2 (0 : Fin 1) g)) r q :=
  congrFun ((dat5 (F := Ideal) V c).arrAt_eq_of_cover 6 (new5 V c) (fun t _ => flushed5_eq V c t) cover5) (ix2 r q)

end Cert.KernelIdeal.Hand

end
-- ==== Proof.KI.ValNT6.lean ====
import proofs.«427383_j1159641169925_2_alg».proof.Proof.KI.RegNT6
import proofs.«427383_j1159641169925_2_alg».proof.Proof.KI.NTProduct
import proofs.«427383_j1159641169925_2_alg».proof.Proof.Spec

noncomputable section

open scoped BigOperators

namespace Cert.KernelIdeal.Hand

open Cert.KernelIdeal Cert.KernelIdeal.Gen
open Idealize.ShloMosaic Idealize.ShloMosaic.TcCoe Idealize.ShloMosaic.ValueIdx

-- entry (p, q) of what the body leaves: the casts are identities at the ideal values, the rest is the product into zero
theorem pay6_apply (x0 : Vec Ideal S1000x512 .f32) (x1 : Vec Ideal S512x2048 .bf16) (p : Fin 1000) (q : Fin 2048) :
    k6_pay1 (F := Ideal) x0 x1 (ix2 p q) = ∑ k : Fin 512, x0 (ix2 p k) * x1 (ix2 k q) := by
  unfold k6_pay1; simp only [shapeCast_self]; exact matmul_nt_apply _ _ p q

variable (V : (c : Dev nD) → (b : Ref sig .tc) → Buf (Elt Ideal) ((c : Thread nD τ).loc b))

-- the product of the two input arrays: every point's output block is a block of rows of it
def tile6 (c : Dev nD) : S10000x2048.Idx → Elt Ideal .f32 := fun i =>
  Cert.Spec.nt (fun r k => (V c (Pipeline.arrRef spec6 0) : FVec Ideal S10000x512 .f32) (ix2 r k))
    (fun k q => (V c (Pipeline.arrRef spec6 1) : FVec Ideal S512x2048 .bf16) (ix2 k q)) (i 0) (i 1)

theorem idx_facts6 : ∀ t : Fin cfg6.N, win6_0.index t = ![t.val, 0] ∧ win6_1.index t = ![0, 0] ∧ win6_2.index t = ![t.val, 0] :=
  (by decide +kernel : ∀ t : Fin grid6.N, _)

theorem flushed_eq6 (c : Dev nD) (t : Fin cfg6.N) :
    (dat6 V c).flushed 2 t = ((cfg6.win 2).blk t).view.read (Elt Ideal) (tile6 V c) := by
  obtain ⟨e0, e1, e2⟩ := idx_facts6 t
  funext j
  obtain ⟨p, q, rfl⟩ : ∃ (p : Fin 1000) (q : Fin 2048), j = ix2 p q := ⟨j 0, j 1, eq_ix2 j⟩
  show k6_pay1 (iblk6 V c 0 t) (iblk6 V c 1 t) (ix2 p q) = tile6 V c (((cfg6.win 2).blk t).view.emb (ix2 p q))
  rw [pay6_apply]
  unfold tile6 Cert.Spec.nt iblk6
  refine Finset.sum_congr rfl fun k _ => ?_
  congr 1
  · refine congrArg (V c (Pipeline.arrRef spec6 0) : FVec Ideal S10000x512 .f32) (Shape.idx_ext₂ ?_ ?_)
    · show win6_0.index t 0 * 1000 + 1 * p.val = win6_2.index t 0 * 1000 + 1 * p.val; rw [e0, e2]
    · show win6_0.index t 1 * 512 + 1 * k.val = k.val; rw [e0]; exact (Nat.zero_add _).trans (Nat.one_mul _)
  · refine congrArg (V c (Pipeline.arrRef spec6 1) : FVec Ideal S512x2048 .bf16) (Shape.idx_ext₂ ?_ ?_)
    · show win6_1.index t 0 * 512 + 1 * k.val = k.val; rw [e1]; exact (Nat.zero_add _).trans (Nat.one_mul _)
    · show win6_1.index t 1 * 2048 + 1 * q.val = win6_2.index t 1 * 2048 + 1 * q.val; rw [e1, e2]; rfl

-- row r of the output array lies in the block of point r / 1000
theorem covered6 (i : S10000x2048.Idx) : ∃ t : Fin cfg6.N, (cfg6.win 2).flush t = true ∧ i ∈ ((cfg6.win 2).blk t).view.set := by
  have h0 := idx2_lt0 i
  have h1 := idx2_lt1 i
  obtain ⟨t, ht⟩ : ∃ t : Fin cfg6.N, t.val = (i 0).val / 1000 := ⟨⟨_, by have : cfg6.N = 10 := N_6; omega⟩, rfl⟩
  refine ⟨t, flush6_2 t, ?_⟩
  rw [show ((cfg6.win 2).blk t).view.set = (win6_2.rect t).set from View.set_slice_whole _ _, Rect.mem_set_unit, (idx_facts6 t).2.2]
  intro a
  match a with
  | ⟨0, _⟩ => show t.val * 1000 ≤ (i 0).val ∧ (i 0).val < t.val * 1000 + 1000; omega
  | ⟨1, _⟩ => show 0 * 2048 ≤ (i 1).val ∧ (i 1).val < 0 * 2048 + 2048; omega

theorem final6 (c : Dev nD) (r : Fin 10000) (q : Fin 2048) :
    (dat6 (F := Ideal) V c).arrAt 2 cfg6.N (ix2 r q)
      = Cert.Spec.nt (fun r k => (V c (Pipeline.arrRef spec6 0) : FVec Ideal S10000x512 .f32) (ix2 r k))
          (fun k q => (V c (Pipeline.arrRef spec6 1) : FVec Ideal S512x2048 .bf16) (ix2 k q)) r q :=
  congrFun ((dat6 V c).arrAt_eq_of_cover 2 (tile6 V c) (fun t _ => flushed_eq6 V c t) covered6) (ix2 r q)

end Cert.KernelIdeal.Hand
-- ==== Proof.KI.PayGRU7.lean ====
import proofs.«427383_j1159641169925_2_alg».proof.Proof.Gen.KernelIdeal.Skeleton
import proofs.«427383_j1159641169925_2_alg».proof.Proof.Spec
import proofs.«427383_j1159641169925_2_alg».proof.Proof.KI.PayGRU1

noncomputable section

namespace Cert.KernelIdeal.Hand

open Cert.KernelIdeal Cert.KernelIdeal.Gen
open Idealize.ShloMosaic Idealize.ShloMosaic.ValueIdx

-- The same payload as the first cell's, with one more cast to its own shape on the states.
theorem pay7_apply (v0 v3 : Vec Ideal S1000x512 .f32) (v5 v7 : Vec Ideal S512x1536 .bf16) (v10 v15 : Vec Ideal S1x1536 .f32)
    (p : Fin 1000) (q : Fin 512) :
    k7_pay1 (F := Ideal) v0 v3 v5 v7 v10 v15 (ix2 p q)
      = Cert.Spec.gru (fun _ k => v0 (ix2 p k)) (fun _ k => v3 (ix2 p k)) (fun k g => v5 (ix2 k g)) (fun k g => v7 (ix2 k g))
          (fun g => v10 (ix2 (0 : Fin 1) g)) (fun g => v15 (ix2 (0 : Fin 1) g)) (0 : Fin 10000) q := by
  unfold k7_pay1
  rw [shapeCast_self (s := S1000x512) v3]
  exact pay1_apply v0 v3 v5 v7 v10 v15 p q

end Cert.KernelIdeal.Hand

end
-- ==== Proof.KI.ValGRU7.lean ====
import proofs.«427383_j1159641169925_2_alg».proof.Proof.KI.RegGRU7
import proofs.«427383_j1159641169925_2_alg».proof.Proof.KI.PayGRU7
import proofs.«427383_j1159641169925_2_alg».proof.Proof.KI.GRURow
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

def new7 (c : Dev nD) : FVec Ideal S10000x512 .f32 :=
  gruArr (V c (Pipeline.arrRef spec7 0)) (V c (Pipeline.arrRef spec7 1)) (V c (Pipeline.arrRef spec7 2))
    (V c (Pipeline.arrRef spec7 3)) (V c (Pipeline.arrRef spec7 4)) (V c (Pipeline.arrRef spec7 5))

theorem idx_facts7 : ∀ t : Fin cfg7.N,
    (∀ a : Fin 2, win7_2.index t a = 0 ∧ win7_3.index t a = 0 ∧ win7_4.index t a = 0 ∧ win7_5.index t a = 0
      ∧ win7_0.index t a = win7_6.index t a ∧ win7_1.index t a = win7_6.index t a)
    ∧ win7_6.index t (0 : Fin 2) = t.val ∧ win7_6.index t (1 : Fin 2) = 0 :=
  (by decide +kernel : ∀ t : Fin grid7.N, _)

-- A point writes back its rows of `new7`: the body's cell over the blocks' rows, which are the arrays' rows.
theorem flushed7_eq (c : Dev nD) (t : Fin cfg7.N) :
    (dat7 (F := Ideal) V c).flushed 6 t = ((cfg7.win 6).blk t).view.read (Elt Ideal) (new7 V c) := by
  show (cfg7.win 6).cut (grid7.coords t) ((dat7 (F := Ideal) V c).after 6 t) = _
  rw [after7_6]
  unfold out7_6
  rw [View.canon_unit_zero gruZeroOff]
  simp only [View.ld_unit_zero (S := S1000x512) gruZeroOff, View.ld_unit_zero (S := S512x1536) gruZeroOff, View.ld_unit_zero (S := S1x1536) gruZeroOff]
  funext j
  obtain ⟨p, q, rfl⟩ : ∃ (p : Fin 1000) (q : Fin 512), j = ix2 p q := ⟨j 0, j 1, eq_ix2 j⟩
  rw [View.read_apply]
  show k7_pay1 (F := Ideal) (iblk7 V c 0 t) (iblk7 V c 1 t) (iblk7 V c 2 t) (iblk7 V c 3 t) (iblk7 V c 4 t) (iblk7 V c 5 t) (ix2 p q)
    = new7 V c (((cfg7.win 6).blk t).view.emb (ix2 p q))
  refine (pay7_apply _ _ _ _ _ _ p q).trans ?_
  exact gruBlk_congr (A0 := V c (Pipeline.arrRef spec7 0)) (A1 := V c (Pipeline.arrRef spec7 1)) (A2 := V c (Pipeline.arrRef spec7 2)) (A3 := V c (Pipeline.arrRef spec7 3)) (A4 := V c (Pipeline.arrRef spec7 4)) (A5 := V c (Pipeline.arrRef spec7 5))
    (e0 := ((cfg7.win 0).blk t).view.emb) (e1 := ((cfg7.win 1).blk t).view.emb) (e2 := ((cfg7.win 2).blk t).view.emb) (e3 := ((cfg7.win 3).blk t).view.emb) (e4 := ((cfg7.win 4).blk t).view.emb) (e5 := ((cfg7.win 5).blk t).view.emb) (e6 := ((cfg7.win 6).blk t).view.emb)
    (win7_0.rect_emb_val t) (win7_1.rect_emb_val t) (win7_2.rect_emb_val t) (win7_3.rect_emb_val t) (win7_4.rect_emb_val t) (win7_5.rect_emb_val t) (win7_6.rect_emb_val t)
    (idx_facts7 t).1 (idx_facts7 t).2.2 p q

theorem cover7 (i : S10000x512.Idx) :
    ∃ t : Fin cfg7.N, (cfg7.win 6).flush t = true ∧ i ∈ ((cfg7.win 6).blk t).view.set := by
  obtain ⟨t, y, rfl⟩ := gruCover (N := cfg7.N) N_7 (e := fun t => ((cfg7.win 6).blk t).view.emb) (n := win7_6.size) ⟨rfl, rfl⟩
    (fun t => win7_6.rect_emb_val t) (fun t => (idx_facts7 t).2) i
  exact ⟨t, flush7_6 t, ((cfg7.win 6).blk t).view.emb_mem_set y⟩

theorem final7 (c : Dev nD) (r : Fin 10000) (q : Fin 512) :
    (dat7 (F := Ideal) V c).arrAt 6 cfg7.N (ix2 r q)
      = Cert.Spec.gru (fun r k => (V c (Pipeline.arrRef spec7 0) : FVec Ideal S10000x512 .f32) (ix2 r k))
          (fun r k => (V c (Pipeline.arrRef spec7 1) : FVec Ideal S10000x512 .f32) (ix2 r k))
          (fun k g => (V c (Pipeline.arrRef spec7 2) : FVec Ideal S512x1536 .bf16) (ix2 k g))
          (fun k g => (V c (Pipeline.arrRef spec7 3) : FVec Ideal S512x1536 .bf16) (ix2 k g))
          (fun g => (V c (Pipeline.arrRef spec7 4) : FVec Ideal S1x1536 .f32) (ix2 (0 : Fin 1) g))
          (fun g => (V c (Pipeline.arrRef spec7 5) : FVec Ideal S1x1536 .f32) (ix2 (0 : Fin 1) g)) r q :=
  congrFun ((dat7 (F := Ideal) V c).arrAt_eq_of_cover 6 (new7 V c) (fun t _ => flushed7_eq V c t) cover7) (ix2 r q)

end Cert.KernelIdeal.Hand

end
-- ==== Proof.KI.ValueL1.lean ====
import proofs.«427383_j1159641169925_2_alg».proof.Proof.KI.ValueL0
import proofs.«427383_j1159641169925_2_alg».proof.Proof.KI.ValueHost4
import proofs.«427383_j1159641169925_2_alg».proof.Proof.KI.ValNT4
import proofs.«427383_j1159641169925_2_alg».proof.Proof.KI.ValGRU5
import proofs.«427383_j1159641169925_2_alg».proof.Proof.KI.ValNT6
import proofs.«427383_j1159641169925_2_alg».proof.Proof.KI.ValGRU7

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg) (c : Dev nD)

-- The second layer's bias: the edge counts the first stretch left against the layer's message-bias rows.
theorem W12_v87 :
    (W12 m ρ c (Proc.devRef .tc main_v87) : FVec Ideal S10000x512 .f32) = kBias (F := Ideal) (m ((c : Thread nD τ).loc main_arg1)) (kBm1 (F := Ideal) (m ((c : Thread nD τ).loc main_arg3))) := by
  refine (hostOps4_v87 (W11 m ρ c)).trans ?_
  rw [show W11 m ρ c (Proc.devRef .tc main_v27) = _ from (kept m ρ c main_v27 1 10 (by decide)).trans (W1_v27 m ρ c),
    show W11 m ρ c (Proc.devRef .tc main_arg3) = _ from kept m ρ c main_arg3 0 11 (by decide)]
  rfl

variable (src tgt : Fin 160000 → Fin 10000) (hE : Cert.Spec.EdgesAre (m ((c : Thread nD τ).loc main_arg1)) src tgt)
include hE

-- The states after the second layer's first step.
theorem W17_h (r : Fin 10000) (q : Fin 512) :
    (W17 m ρ c (Proc.devRef .tc main_v95) : FVec Ideal S10000x512 .f32) (ix2 r q)
      = sL m c src tgt 1 (sL m c src tgt 0 (sL m c src tgt 0 (x0 m c))) r q :=
  step_of _ _ _ _ _ _ _ src tgt 1 hE _
    (W13_arr m ρ c 2) (final4 (V12 m ρ) c) (kept m ρ c main_v65 11 1 (by decide)) (W11_h m ρ c src tgt hE) (W12_v70 m ρ c) (kWcat1_apply _)
    (W17_arr m ρ c 6) (final5 (V16 m ρ) c)
    (inc_of _ (hostOps5_v89 (W13 m ρ c)) (hostOps5_1_v90 (W14 m ρ c)) ((kept m ρ c main_v11 1 13 (by decide)).trans (W1_v11 m ρ c))
      (hostOps5_2_v94 (W15 m ρ c)) ((kept m ρ c main_v5 1 14 (by decide)).trans (W1_v5 m ρ c)) ((kept m ρ c main_v87 12 3 (by decide)).trans (W12_v87 m ρ c)))
    (kBm1_apply _) (kept m ρ c main_v65 11 5 (by decide)) (W11_h m ρ c src tgt hE)
    ((kept m ρ c main_v74 12 4 (by decide)).trans (W12_v74 m ρ c)) (kWihT1_apply _) ((kept m ρ c main_v78 12 4 (by decide)).trans (W12_v78 m ρ c)) (kWhhT1_apply _)
    ((kept m ρ c main_v81 12 4 (by decide)).trans (W12_v81 m ρ c)) (kBih1_apply _) ((kept m ρ c main_v84 12 4 (by decide)).trans (W12_v84 m ρ c)) (kBhh1_apply _) r q

-- The states after the second layer's second step: the network's four steps of the initial states.
theorem W22_h (r : Fin 10000) (q : Fin 512) :
    (W22 m ρ c (Proc.devRef .tc main_v103) : FVec Ideal S10000x512 .f32) (ix2 r q)
      = sL m c src tgt 1 (sL m c src tgt 1 (sL m c src tgt 0 (sL m c src tgt 0 (x0 m c)))) r q :=
  step_of _ _ _ _ _ _ _ src tgt 1 hE _
    (W18_arr m ρ c 2) (final6 (V17 m ρ) c) rfl (W17_h m ρ c src tgt hE) ((kept m ρ c main_v70 12 5 (by decide)).trans (W12_v70 m ρ c)) (kWcat1_apply _)
    (W22_arr m ρ c 6) (final7 (V21 m ρ) c)
    (inc_of _ (hostOps7_v97 (W18 m ρ c)) (hostOps7_1_v98 (W19 m ρ c)) ((kept m ρ c main_v11 1 18 (by decide)).trans (W1_v11 m ρ c))
      (hostOps7_2_v102 (W20 m ρ c)) ((kept m ρ c main_v5 1 19 (by decide)).trans (W1_v5 m ρ c)) ((kept m ρ c main_v87 12 8 (by decide)).trans (W12_v87 m ρ c)))
    (kBm1_apply _) (kept m ρ c main_v95 17 4 (by decide)) (W17_h m ρ c src tgt hE)
    ((kept m ρ c main_v74 12 9 (by decide)).trans (W12_v74 m ρ c)) (kWihT1_apply _) ((kept m ρ c main_v78 12 9 (by decide)).trans (W12_v78 m ρ c)) (kWhhT1_apply _)
    ((kept m ρ c main_v81 12 9 (by decide)).trans (W12_v81 m ρ c)) (kBih1_apply _) ((kept m ρ c main_v84 12 9 (by decide)).trans (W12_v84 m ρ c)) (kBhh1_apply _) r q

end Cert.KernelIdeal.Hand

end
-- ==== Proof.KI.PayFC8.lean ====
import proofs.«427383_j1159641169925_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

theorem lhs8_0 (i : S1000x512.Idx) (q : dot_S1000x512_S512x512_S1000x512_1_0_0_1_n_n.contr.Idx) : (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide),
    dif_pos (show (0 : Fin S1000x512.rank) ∈ dot_S1000x512_S512x512_S1000x512_1_0_0_1_n_n.lhsNonContracting by decide)]
  rfl

theorem rhs8_1 (i : S1000x512.Idx) (q : dot_S1000x512_S512x512_S1000x512_1_0_0_1_n_n.contr.Idx) : (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide),
    dif_pos (show (1 : Fin S512x512.rank) ∈ dot_S1000x512_S512x512_S1000x512_1_0_0_1_n_n.rhsNonContracting by decide)]
  rfl

/-- The product into the zero accumulator at (p, q) is the sum over the contraction index of row p against column q. -/
theorem matmul8_apply (a : FVec Ideal S1000x512 .bf16) (b : FVec Ideal S512x512 .bf16) (p : Fin 1000) (q : Fin 512) :
    matmul (F := Ideal) dot_S1000x512_S512x512_S1000x512_1_0_0_1_n_n none a b (constant (F := Ideal) S1000x512 .f32 0x00000000#32) (ix2 p q)
      = ∑ k : Fin 512, a (ix2 p k) * b (ix2 k q) := by
  simp only [matmul]
  rw [Ideal.matmul_constant_zero_apply, ← Equiv.sum_comp (contrEquiv1 dot_S1000x512_S512x512_S1000x512_1_0_0_1_n_n 512 rfl rfl).symm]
  refine Finset.sum_congr rfl fun k _ => ?_
  have hk := contrEquiv1_symm_val dot_S1000x512_S512x512_S1000x512_1_0_0_1_n_n 512 rfl rfl k
  have el : dot_S1000x512_S512x512_S1000x512_1_0_0_1_n_n.lhsIdx (ix2 p q) ((contrEquiv1 dot_S1000x512_S512x512_S1000x512_1_0_0_1_n_n 512 rfl rfl).symm k) = ix2 p k := funext fun x => Fin.ext (by
    match x with
    | ⟨0, _⟩ => exact lhs8_0 _ _
    | ⟨1, _⟩ => exact (dot_S1000x512_S512x512_S1000x512_1_0_0_1_n_n.lhsIdx_val_of_single rfl _ _).trans hk)
  have er : dot_S1000x512_S512x512_S1000x512_1_0_0_1_n_n.rhsIdx (ix2 p q) ((contrEquiv1 dot_S1000x512_S512x512_S1000x512_1_0_0_1_n_n 512 rfl rfl).symm k) = ix2 k q := funext fun x => Fin.ext (by
    match x with
    | ⟨0, _⟩ => exact (dot_S1000x512_S512x512_S1000x512_1_0_0_1_n_n.rhsIdx_val_of_single rfl _ _).trans hk
    | ⟨1, _⟩ => exact rhs8_1 _ _)
  rw [el, er]

theorem ninfWord8_eq_bot : Ideal.ofBits .f32 0xFF800000#32 = ⊥ := by simp [Ideal.ofBits, Ideal.ieee]

/-- The maximum down a block's rows, kept as one row, is at feature q the supremum of column q. -/
theorem colmax8_apply (y : FVec Ideal S1000x512 .f32) (q : Fin 512) :
    shapeCast S1x512 (multiReduction (F := Ideal) .maximumf [0] S512 y 0xFF800000#32 reduces_S1000x512_S512 (.inl rfl) rfl)
        shapeCasts_S512_S1x512 (ix2 0 q)
      = Finset.univ.sup fun p : Fin 1000 => y (ix2 p q) := by
  refine (shapeCast_a_1a_apply _ shapeCasts_S512_S1x512 0 q).trans ?_
  refine (Ideal.multiReduction_maximumf_single y 0xFF800000#32 reduces_S1000x512_S512 (.inl rfl) rfl (ix1 q)).trans ?_
  have e : (y ∘ reduces_S1000x512_S512.lift (ix1 q)) = fun p : Fin 1000 => y (ix2 p q) := funext fun p =>
    congrArg y (funext fun a => Fin.ext (by match a with | ⟨0, _⟩ => rfl | ⟨1, _⟩ => rfl))
  rw [e]
  show Finset.fold max (Ideal.ofBits .f32 0xFF800000#32) _ _ = _
  rw [ninfWord8_eq_bot]
  rfl

/-- The row the first point stores is the least element everywhere. -/
theorem pay8_1_apply (i : S1x512.Idx) : k8_pay1 (F := Ideal) i = ⊥ := by
  unfold k8_pay1; simp only [shapeCast_self]; exact ninfWord8_eq_bot

/-- A point's store at feature q: the larger of what it carried in and the block's column supremum of state · weight + bias. -/
theorem pay8_2_apply (v3 : FVec Ideal S1000x512 .f32) (v6 : FVec Ideal S512x512 .bf16) (v9 v15 : FVec Ideal S1x512 .f32) (q : Fin 512) :
    k8_pay2 (F := Ideal) v3 v6 v9 v15 (ix2 0 q)
      = max (v15 (ix2 0 q)) (Finset.univ.sup fun p : Fin 1000 => (∑ k : Fin 512, v3 (ix2 p k) * v6 (ix2 k q)) + v9 (ix2 0 q)) := by
  unfold k8_pay2
  dsimp only
  simp only [shapeCast_self]
  refine (maximumf_apply _ _ _).trans (congrArg (max (v15 (ix2 0 q))) ((colmax8_apply _ q).trans ?_))
  refine congrArg (Finset.sup Finset.univ) (funext fun p => ?_)
  rw [addf_apply, matmul8_apply, broadcastTo_1b_ab_apply]
  rfl

end Cert.KernelIdeal.Hand
-- ==== Proof.Math.SupRows.lean ====
import Mathlib.Data.Finset.Lattice.Fold
import Mathlib.Data.Fintype.Basic
import Mathlib.Order.Fin.Basic

namespace Cert.Spec

theorem sup_below_zero {α : Type*} [SemilatticeSup α] [OrderBot α] {N : ℕ} (f : Fin N → α) :
    (Finset.univ.filter fun r : Fin N => r.val < 0).sup f = ⊥ := by
  rw [Finset.filter_false_of_mem (fun r _ => Nat.not_lt_zero r.val), Finset.sup_empty]

-- An index below a + b is below a, or a + p with p below b.
theorem sup_below_add {α : Type*} [SemilatticeSup α] [OrderBot α] {N : ℕ} (f : Fin N → α) (a b : ℕ) (hab : a + b ≤ N) :
    (Finset.univ.filter fun r : Fin N => r.val < a + b).sup f
      = (Finset.univ.filter fun r : Fin N => r.val < a).sup f
        ⊔ Finset.univ.sup fun p : Fin b => f ⟨a + p.val, by have := p.isLt; omega⟩ := by
  refine eq_of_forall_ge_iff fun c => ?_
  simp only [Finset.sup_le_iff, sup_le_iff, Finset.mem_filter, Finset.mem_univ, true_and, forall_const]
  refine ⟨fun h => ⟨fun r hr => h r (by omega), fun p => h _ (by show a + p.val < a + b; omega)⟩, fun ⟨h1, h2⟩ r hr => ?_⟩
  by_cases h : r.val < a
  · exact h1 r h
  · have := h2 ⟨r.val - a, by omega⟩
    rwa [show (⟨a + (r.val - a), _⟩ : Fin N) = r from Fin.ext (by show a + (r.val - a) = r.val; omega)] at this

theorem sup_below_all {α : Type*} [SemilatticeSup α] [OrderBot α] {N : ℕ} (f : Fin N → α) (a : ℕ) (ha : N ≤ a) :
    (Finset.univ.filter fun r : Fin N => r.val < a).sup f = Finset.univ.sup f := by
  rw [Finset.filter_true_of_mem fun r _ => lt_of_lt_of_le r.isLt ha]

end Cert.Spec
-- ==== Proof.KI.ValFC8.lean ====
import proofs.«427383_j1159641169925_2_alg».proof.Proof.KI.RegFC8
import proofs.«427383_j1159641169925_2_alg».proof.Proof.KI.PayFC8
import proofs.«427383_j1159641169925_2_alg».proof.Proof.Math.SupRows
import proofs.«427383_j1159641169925_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

abbrev arr8_0 (c : Dev nD) : FVec Ideal S10000x512 .f32 := V c (Pipeline.arrRef spec8 0)
abbrev arr8_1 (c : Dev nD) : FVec Ideal S512x512 .bf16 := V c (Pipeline.arrRef spec8 1)
abbrev arr8_2 (c : Dev nD) : FVec Ideal S1x512 .f32 := V c (Pipeline.arrRef spec8 2)

theorem idx8_0 : ∀ t : Fin cfg8.N, win8_0.index t 0 = t.val ∧ win8_0.index t 1 = 0 :=
  (by decide +kernel : ∀ t : Fin grid8.N, win8_0.index t 0 = t.val ∧ win8_0.index t 1 = 0)
theorem idx8_1 : ∀ t : Fin cfg8.N, win8_1.index t 0 = 0 ∧ win8_1.index t 1 = 0 :=
  (by decide +kernel : ∀ t : Fin grid8.N, win8_1.index t 0 = 0 ∧ win8_1.index t 1 = 0)
theorem idx8_2 : ∀ t : Fin cfg8.N, win8_2.index t 0 = 0 ∧ win8_2.index t 1 = 0 :=
  (by decide +kernel : ∀ t : Fin grid8.N, win8_2.index t 0 = 0 ∧ win8_2.index t 1 = 0)

theorem iblk8_0_apply (c : Dev nD) (t : Fin cfg8.N) (p : Fin 1000) (k : Fin 512) (r : Fin 10000) (hr : r.val = t.val * 1000 + p.val) :
    (iblk8 V c 0 t : FVec Ideal S1000x512 .f32) (ix2 p k) = arr8_0 V c (ix2 r k) := by
  have hi := idx8_0 t
  unfold iblk8
  rw [View.read_apply]
  show V c (Pipeline.arrRef spec8 0) _ = V c (Pipeline.arrRef spec8 0) _
  congr 1
  funext a
  apply Fin.ext
  match a with
  | ⟨0, _⟩ => show win8_0.index t 0 * 1000 + 1 * p.val = r.val; rw [hi.1, hr]; omega
  | ⟨1, _⟩ => show win8_0.index t 1 * 512 + 1 * k.val = k.val; rw [hi.2]; omega

theorem iblk8_1_apply (c : Dev nD) (t : Fin cfg8.N) (k q : Fin 512) :
    (iblk8 V c 1 t : FVec Ideal S512x512 .bf16) (ix2 k q) = arr8_1 V c (ix2 k q) := by
  have hi := idx8_1 t
  unfold iblk8
  rw [View.read_apply]
  show V c (Pipeline.arrRef spec8 1) _ = V c (Pipeline.arrRef spec8 1) _
  congr 1
  funext a
  apply Fin.ext
  match a with
  | ⟨0, _⟩ => show win8_1.index t 0 * 512 + 1 * k.val = k.val; rw [hi.1]; omega
  | ⟨1, _⟩ => show win8_1.index t 1 * 512 + 1 * q.val = q.val; rw [hi.2]; omega

theorem iblk8_2_apply (c : Dev nD) (t : Fin cfg8.N) (u : Fin 1) (q : Fin 512) :
    (iblk8 V c 2 t : FVec Ideal S1x512 .f32) (ix2 u q) = arr8_2 V c (ix2 u q) := by
  have hi := idx8_2 t
  unfold iblk8
  rw [View.read_apply]
  show V c (Pipeline.arrRef spec8 2) _ = V c (Pipeline.arrRef spec8 2) _
  congr 1
  funext a
  apply Fin.ext
  match a with
  | ⟨0, _⟩ => show win8_2.index t 0 * 1 + 1 * u.val = u.val; rw [hi.1]; omega
  | ⟨1, _⟩ => show win8_2.index t 1 * 512 + 1 * q.val = q.val; rw [hi.2]; omega

abbrev row8 (c : Dev nD) (q : Fin 512) (r : Fin 10000) : EReal :=
  (∑ k : Fin 512, arr8_0 V c (ix2 r k) * arr8_1 V c (ix2 k q)) + arr8_2 V c (ix2 0 q)

/-- Point t's update of a row X: X joined with the supremum over the nodes 1000 t … 1000 t + 999. -/
theorem tile8_at (c : Dev nD) (t : Fin cfg8.N) (X : FVec Ideal S1x512 .f32) (q : Fin 512) :
    k8_pay2 (F := Ideal) (iblk8 V c 0 t) (iblk8 V c 1 t) (iblk8 V c 2 t) X (ix2 0 q)
      = max (X (ix2 0 q)) (Finset.univ.sup fun p : Fin 1000 => row8 V c q ⟨t.val * 1000 + p.val, by
          have hN : cfg8.N = 10 := N_8; have := t.isLt; have := p.isLt; omega⟩) := by
  refine (pay8_2_apply (iblk8 V c 0 t) (iblk8 V c 1 t) (iblk8 V c 2 t) X q).trans (congrArg (max (X (ix2 0 q))) ?_)
  refine congrArg (Finset.sup Finset.univ) (funext fun p => ?_)
  rw [iblk8_2_apply V c t 0 q]
  refine congrArg (· + arr8_2 V c (ix2 0 q)) (Finset.sum_congr rfl fun k _ => ?_)
  rw [iblk8_0_apply V c t p k ⟨t.val * 1000 + p.val, by
    have hN : cfg8.N = 10 := N_8; have := t.isLt; have := p.isLt; omega⟩ rfl, iblk8_1_apply V c t k q]

/-- The carried row before point n is, per feature, the supremum over the nodes below 1000 n. -/
theorem acc8_apply (c : Dev nD) : ∀ (n : ℕ) (hn : n ≤ cfg8.N) (q : Fin 512),
    acc8 (F := Ideal) V c n hn (ix2 0 q)
      = (Finset.univ.filter fun r : Fin 10000 => r.val < n * 1000).sup fun r => row8 V c q r
  | 0, _, q => by
    rw [show (0 : ℕ) * 1000 = 0 from rfl, Cert.Spec.sup_below_zero]; exact pay8_1_apply _
  | n + 1, hn, q => by
    have hN : cfg8.N = 10 := N_8
    refine (tile8_at V c ⟨n, hn⟩ _ q).trans ?_
    rw [acc8_apply c n (Nat.le_of_succ_le hn) q, show (n + 1) * 1000 = n * 1000 + 1000 from by omega,
      Cert.Spec.sup_below_add (row8 V c q) (n * 1000) 1000 (by omega)]

section Final
variable {c : Dev nD} (dat : Dat τ (Elt Ideal) Unit ℕ (UR sig nD τ) ℕ cfg8 c)

theorem final8_of (X : FVec Ideal S1x512 .f32) (hlast : dat.after 3 t8_9 = X) :
    dat.arrAt 3 cfg8.N = X := by
  refine dat.arrAt_eq_of_cover 3 X (fun t hf => ?_) (fun i => ⟨t8_9, (flush8_3 t8_9).mpr rfl, ?_⟩)
  · have hN : cfg8.N = 10 := N_8
    have h9 : t.val = 9 := by have := (flush8_3 t).mp hf; have := t.isLt; omega
    obtain rfl : t = t8_9 := Fin.ext h9
    show (cfg8.win 3).cut (grid8.coords t8_9) (dat.after 3 t8_9) = _
    rw [hlast]
    have hz' : (fun a => win8_3.index t8_9 a * main_v107.ty.shape.size a) = fun _ => 0 := funext fun a => by fin_cases a <;> decide
    exact (Memref.read_access_unit_zero (Elt Ideal) main_v107 hz' (fun a => by rw [congrFun hz' a]; simp) X).symm
  · show i ∈ ((View.whole main_v107).slice (win8_3.rect t8_9)).set
    rw [View.set_slice_whole, Rect.mem_set_unit]
    intro a
    have h0 : (i 0 : Nat) < 1 := (i 0).isLt
    have h1 : (i 1 : Nat) < 512 := (i 1).isLt
    match a with
    | ⟨0, _⟩ => show win8_3.index t8_9 0 * win8_3.size 0 ≤ (i 0 : Nat) ∧ (i 0 : Nat) < win8_3.index t8_9 0 * win8_3.size 0 + win8_3.xsize (grid8.coords t8_9) 0
                rw [show win8_3.index t8_9 0 * win8_3.size 0 = 0 from by decide +kernel, show win8_3.xsize (grid8.coords t8_9) 0 = 1 from by decide +kernel]; omega
    | ⟨1, _⟩ => show win8_3.index t8_9 1 * win8_3.size 1 ≤ (i 1 : Nat) ∧ (i 1 : Nat) < win8_3.index t8_9 1 * win8_3.size 1 + win8_3.xsize (grid8.coords t8_9) 1
                rw [show win8_3.index t8_9 1 * win8_3.size 1 = 0 from by decide +kernel, show win8_3.xsize (grid8.coords t8_9) 1 = 512 from by decide +kernel]; omega

end Final

theorem final8 (c : Dev nD) (q : Fin 512) :
    (dat8 (F := Ideal) V c).arrAt 3 cfg8.N (ix2 0 q)
      = Cert.Spec.fc (fun r k => arr8_0 V c (ix2 r k)) (fun k o => arr8_1 V c (ix2 k o)) (fun o => arr8_2 V c (ix2 0 o)) q := by
  refine (congrFun (final8_of (dat8 V c) _ (after8_3 V c t8_9)) (ix2 0 q)).trans ?_
  refine (acc8_apply V c _ _ q).trans ?_
  exact Cert.Spec.sup_below_all (row8 V c q) _ (by show 10000 ≤ (9 + 1) * 1000; omega)

end Cert.KernelIdeal.Hand
-- ==== Proof.KI.ValueOut.lean ====
import proofs.«427383_j1159641169925_2_alg».proof.Proof.KI.ValueL1
import proofs.«427383_j1159641169925_2_alg».proof.Proof.KI.ValFC8
import proofs.«427383_j1159641169925_2_alg».proof.Proof.KI.Run

noncomputable section

namespace Cert.KernelIdeal.Hand

open Cert.KernelIdeal Cert.KernelIdeal.Gen
open Idealize.ShloMosaic Idealize.ShloMosaic.TcCoe Idealize.ShloMosaic.ValueIdx

open Idealize.SL.Sem

-- The result buffer ends at the specification's network of the launch contents of the arguments, every argument as launched.
theorem kernel_run (m : (ℓ : Loc nD τ sig) → Buf (Elt Ideal) ℓ) (ρ : Dev nD → PrngReg)
    (src tgt : Dev nD → Fin 160000 → Fin 10000)
    (hE : ∀ c : Dev nD, Cert.Spec.EdgesAre (m ((c.tc : Thread nD τ).loc main_arg1)) (src c) (tgt c)) :
    θ_run defs (onTc (τ := τ) (main (F := Ideal))) ⟨m, fun _ => 0, ρ⟩ (fun r => ∀ c : Dev nD,
        r.2.mem ((c.tc : Thread nD τ).loc main_v108)
          = (fun i => Cert.Spec.netOf (Cert.Spec.stepK (src c) (tgt c))
              (m ((c.tc : Thread nD τ).loc main_arg0))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9)) (i 0))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)) :=
  (θ_run defs _ _).mono (fun r h c =>
    ⟨(h c _ (mem_uc main_v108 (by decide))).trans (funext fun i =>
        (congrArg (W25 m ρ c (Proc.devRef .tc main_v108) : FVec Ideal S512 .f32) (eq_ix1 i)).trans
          (by
            refine (congrFun (hostOps9_v108 (W24 m ρ c)) (ix1 (i 0))).trans ((kOut_apply _ (i 0)).trans ?_)
            have e : (W24 m ρ c (Proc.devRef .tc main_v107) : FVec Ideal S1x512 .f32) = (dat8 (F := Ideal) (V23 m ρ) c).arrAt 3 cfg8.N :=
              W24_arr m ρ c 3
            refine (congrFun e (ix2 0 (i 0))).trans ((final8 (V23 m ρ) c (i 0)).trans ?_)
            show _ = Cert.Spec.netOf _ _ _ _ _ _ _ _ _ _ (i 0)
            unfold Cert.Spec.netOf Cert.Spec.net
            refine Cert.Spec.fc_of_entries (fun r k => ?_) (fun k o => ?_) (fun o => ?_) (i 0)
            · exact (congrFun (kept m ρ c main_v103 22 1 (by decide)) (ix2 r k)).trans (W22_h m ρ c (src c) (tgt c) (hE c) r k)
            · exact (congrFun (W23_v105 m ρ c) (ix2 k o)).trans (kFcWT_apply _ k o)
            · exact (congrFun (W23_v106 m ρ c) (ix2 0 o)).trans (kFcb_apply _ o))),
      (h c _ (mem_uc main_arg0 (by decide))).trans (W25_main_arg0 m ρ c),
      (h c _ (mem_uc main_arg1 (by decide))).trans (W25_main_arg1 m ρ c),
      (h c _ (mem_uc main_arg2 (by decide))).trans (W25_main_arg2 m ρ c),
      (h c _ (mem_uc main_arg3 (by decide))).trans (W25_main_arg3 m ρ c),
      (h c _ (mem_uc main_arg4 (by decide))).trans (W25_main_arg4 m ρ c),
      (h c _ (mem_uc main_arg5 (by decide))).trans (W25_main_arg5 m ρ c),
      (h c _ (mem_uc main_arg6 (by decide))).trans (W25_main_arg6 m ρ c),
      (h c _ (mem_uc main_arg7 (by decide))).trans (W25_main_arg7 m ρ c),
      (h c _ (mem_uc main_arg8 (by decide))).trans (W25_main_arg8 m ρ c),
      (h c _ (mem_uc main_arg9 (by decide))).trans (W25_main_arg9 m ρ c)⟩)
    (run_all m ρ)

end Cert.KernelIdeal.Hand

end
-- ==== Proof.Ref.RefOps.lean ====
import proofs.«427383_j1159641169925_2_alg».proof.Proof.Gen.ReferenceIdeal.Run

noncomputable section

namespace Cert.ReferenceIdeal.Hand

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

def rEdgeSrc (a1 : IVec S4x40000x2 32) : IVec S4x40000 32 :=
  shapeCast _ (extractStridedSlice S4x40000x1 ![0, 0, 0] a1 slices_S4x40000x2_S4x40000x1_0_0_0) shapeCasts_S4x40000x1_S4x40000

def rSrc (a1 : IVec S4x40000x2 32) : IVec S4x40000x1 32 :=
  broadcastInDim S4x40000x1 ![0, 1] bcast_S4x40000_S4x40000x1_0_1 (select (cmpi .slt (rEdgeSrc a1) (broadcastInDim S4x40000 ![] bcast_S_S4x40000 (constantI S_ 32 0#32))) (addi (rEdgeSrc a1) (broadcastInDim S4x40000 ![] bcast_S_S4x40000 (constantI S_ 32 10000#32))) (rEdgeSrc a1))

def rTgt (a1 : IVec S4x40000x2 32) : IVec S160000x1 32 :=
  broadcastInDim S160000x1 ![0] bcast_S160000_S160000x1_0 (shapeCast _ (shapeCast _ (extractStridedSlice S4x40000x1 ![0, 0, 1] a1 slices_S4x40000x2_S4x40000x1_0_0_1) shapeCasts_S4x40000x1_S4x40000) shapeCasts_S4x40000_S160000)

theorem sWm (l : Fin 2) : S2x4x512x512.Slices ![l.val, 0, 0, 0] S1x4x512x512 := by fin_cases l <;> decide
theorem sBm (l : Fin 2) : S2x4x512.Slices ![l.val, 0, 0] S1x4x512 := by fin_cases l <;> decide
theorem sW (l : Fin 2) : S2x1536x512.Slices ![l.val, 0, 0] S1x1536x512 := by fin_cases l <;> decide
theorem sB (l : Fin 2) : S2x1536.Slices ![l.val, 0] S1x1536 := by fin_cases l <;> decide

-- Layer l of each weight argument, its unit axis dropped.
def rWm (l : Fin 2) (a2 : FVec F S2x4x512x512 .f32) : FVec F S4x512x512 .f32 :=
  shapeCast _ (extractStridedSlice S1x4x512x512 ![l.val, 0, 0, 0] a2 (sWm l)) shapeCasts_S1x4x512x512_S4x512x512
def rBm (l : Fin 2) (a3 : FVec F S2x4x512 .f32) : FVec F S4x512 .f32 :=
  shapeCast _ (extractStridedSlice S1x4x512 ![l.val, 0, 0] a3 (sBm l)) shapeCasts_S1x4x512_S4x512
def rW (l : Fin 2) (a : FVec F S2x1536x512 .f32) : FVec F S1536x512 .f32 :=
  shapeCast _ (extractStridedSlice S1x1536x512 ![l.val, 0, 0] a (sW l)) shapeCasts_S1x1536x512_S1536x512
def rB (l : Fin 2) (a : FVec F S2x1536 .f32) : FVec F S1536 .f32 :=
  shapeCast _ (extractStridedSlice S1x1536 ![l.val, 0] a (sB l)) shapeCasts_S1x1536_S1536

-- The per-edge messages: the gathered source states against the types' weights, plus the types' biases.
def rMsg (h : FVec F S10000x512 .f32) (a1 : IVec S4x40000x2 32) (Wm : FVec F S4x512x512 .f32) (bm : FVec F S4x512 .f32) : FVec F S4x40000x512 .f32 :=
  addf (Host.dotGeneral dot_S4x40000x512_S4x512x512_S4x40000x512_2_2_1_1_0_0 none (Host.gather gather_S10000x512_S4x40000x1_S4x40000x512_2_0_n_n_0_2_1512 h (rSrc a1)) Wm) (broadcastInDim S4x40000x512 ![0, 1, 2] bcast_S4x1x512_S4x40000x512_0_1_2 (broadcastInDim S4x1x512 ![0, 2] bcast_S4x512_S4x1x512_0_2 bm))

-- The incoming sum: every message added into its edge's target, from zero.
def rInc (h : FVec F S10000x512 .f32) (a1 : IVec S4x40000x2 32) (Wm : FVec F S4x512x512 .f32) (bm : FVec F S4x512 .f32) : FVec F S10000x512 .f32 :=
  Host.scatterAdd scatter_S10000x512_S160000x1_S160000x512_1_0_0_1 (broadcastInDim S10000x512 ![] bcast_S_S10000x512 (constant S_ .f32 0x00000000#32)) (rTgt a1) (shapeCast _ (rMsg h a1 Wm bm) shapeCasts_S4x40000x512_S160000x512)

-- x · Wᵀ + b: both of the cell's pre-activations.
def rLin (x : FVec F S10000x512 .f32) (W : FVec F S1536x512 .f32) (b : FVec F S1536 .f32) : FVec F S10000x1536 .f32 :=
  addf (Host.dotGeneral dot_S10000x512_S512x1536_S10000x1536_1_0_0_1_n_n none x (transpose S512x1536 [1, 0] W transposes_S1536x512_S512x1536_1_0)) (broadcastInDim S10000x1536 ![0, 1] bcast_S1x1536_S10000x1536_0_1 (broadcastInDim S1x1536 ![1] bcast_S1536_S1x1536_1 b))

def rOne : FVec F S10000x512 .f32 := broadcastInDim S10000x512 ![] bcast_S_S10000x512 (constant S_ .f32 0x3F800000#32)

-- A gate: the logistic function, as 1 / (1 + e^(-x)), of the two pre-activations' 512 columns from column c added.
def rGate (c : Nat) (hs : S10000x1536.Slices ![0, c] S10000x512) (gi gh : FVec F S10000x1536 .f32) : FVec F S10000x512 .f32 :=
  Host.divf rOne (addf rOne (Host.exp (Host.negf (addf (extractStridedSlice S10000x512 ![0, c] gi hs) (extractStridedSlice S10000x512 ![0, c] gh hs)))))

def rCell (gi gh : FVec F S10000x1536 .f32) (h : FVec F S10000x512 .f32) : FVec F S10000x512 .f32 :=
  addf (mulf (subf rOne (rGate 512 slices_S10000x1536_S10000x512_0_512 gi gh)) (Host.tanh (addf (extractStridedSlice S10000x512 ![0, 1024] gi slices_S10000x1536_S10000x512_0_1024) (mulf (rGate 0 slices_S10000x1536_S10000x512_0_0 gi gh) (extractStridedSlice S10000x512 ![0, 1024] gh slices_S10000x1536_S10000x512_0_1024))))) (mulf (rGate 512 slices_S10000x1536_S10000x512_0_512 gi gh) h)

-- One step with layer l's weights, over the arguments: the cell over the two pre-activations.
def rStepL (l : Fin 2) (V : Valuation τ sig (Elt F)) (h : FVec F S10000x512 .f32) : FVec F S10000x512 .f32 :=
  rCell (rLin (rInc h (V (Proc.devRef .tc main_arg1)) (rWm l (V (Proc.devRef .tc main_arg2))) (rBm l (V (Proc.devRef .tc main_arg3)))) (rW l (V (Proc.devRef .tc main_arg4))) (rB l (V (Proc.devRef .tc main_arg6)))) (rLin h (rW l (V (Proc.devRef .tc main_arg5))) (rB l (V (Proc.devRef .tc main_arg7)))) h

def rFinal (h : FVec F S10000x512 .f32) (fcW : FVec F S512x512 .f32) (fcb : FVec F S512 .f32) : FVec F S512 .f32 :=
  Host.reduce FloatOps.maximumf (addf (Host.dotGeneral dot_S10000x512_S512x512_S10000x512_1_0_0_1_n_n none h (transpose S512x512 [1, 0] fcW transposes_S512x512_S512x512_1_0)) (broadcastInDim S10000x512 ![0, 1] bcast_S1x512_S10000x512_0_1 (broadcastInDim S1x512 ![1] bcast_S512_S1x512_1 fcb))) (constant S_ .f32 0xFF800000#32) reducesTo_S10000x512_S512_d0 h_S_

theorem res_main_v69_eq (V : Valuation τ sig (Elt F)) : res_main_v69 V = rStepL 0 V (V (Proc.devRef .tc main_arg0)) := rfl
theorem res_main_v134_eq (V : Valuation τ sig (Elt F)) : res_main_v134 V = rStepL 0 V (res_main_v69 V) := rfl
theorem res_main_v199_eq (V : Valuation τ sig (Elt F)) : res_main_v199 V = rStepL 1 V (res_main_v134 V) := rfl

end Cert.ReferenceIdeal.Hand

end
-- ==== Proof.Ref.RefDots.lean ====
import proofs.«427383_j1159641169925_2_alg».proof.Proof.Ref.RefOps
import Idealize.ShloMosaic.Lib.ValueLayout
import Idealize.ShloMosaic.Lib.StackMember
import Idealize.ShloMosaic.Lib.KernelVsHost

noncomputable section

open scoped BigOperators

namespace Cert.ReferenceIdeal.Hand

open Cert.ReferenceIdeal Cert.ReferenceIdeal.Gen Idealize.ShloMosaic Idealize.ShloMosaic.ValueIdx

-- The per-type product contracts both operands' last axis: entry (t, e, o) is the sum over i of (t, e, i) times (t, o, i).
theorem msgMM_apply (a : FVec Ideal S4x40000x512 .f32) (b : FVec Ideal S4x512x512 .f32) (t : Fin 4) (e : Fin 40000) (o : Fin 512) :
    Host.dotGeneral (F := Ideal) dot_S4x40000x512_S4x512x512_S4x40000x512_2_2_1_1_0_0 none a b (ix3 t e o) = ∑ i : Fin 512, a (ix3 t e i) * b (ix3 t o i) := by
  obtain ⟨E, hE⟩ : ∃ E : dot_S4x40000x512_S4x512x512_S4x40000x512_2_2_1_1_0_0.contr.Idx ≃ Fin 512, ∀ k, ((E.symm k) ⟨0, by decide⟩ : ℕ) = k.val :=
    ⟨_, contrEquiv1_symm_val dot_S4x40000x512_S4x512x512_S4x40000x512_2_2_1_1_0_0 512 rfl rfl⟩
  show FloatOps.dotGeneral _ none _ a b (ix3 t e o) = _
  rw [Ideal.dotGeneral_apply, ← Equiv.sum_comp E.symm]
  refine Finset.sum_congr rfl fun k _ => congrArg₂ (fun x y => a x * b y) (funext fun ax => Fin.ext ?_) (funext fun ax => Fin.ext ?_)
  · match ax with
    | ⟨0, _⟩ | ⟨1, _⟩ => rfl
    | ⟨2, _⟩ => exact (DotDims.lhsIdx_val_of_single _ rfl _ _).trans (hE k)
  · match ax with
    | ⟨0, _⟩ | ⟨1, _⟩ => rfl
    | ⟨2, _⟩ => exact (DotDims.rhsIdx_val_of_single _ rfl _ _).trans (hE k)

-- A vector laid over the rows of a matrix, at (r, g): the vector at g.
theorem rowBias_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α) (r : Fin m) (g : Fin n) :
    broadcastInDim ⟨2, ![m, n]⟩ ![0, 1] h2 (broadcastInDim ⟨2, ![1, n]⟩ ![1] h1 b) (ix2 r g) = b (ix1 g) :=
  (broadcastInDim_oneRow_apply h2 _ r g).trans (broadcastInDim_apply _ _ _ _ (ix1 g) fun ax => by
    match ax with
    | ⟨0, _⟩ =>
      show g.val = if n = 1 then 0 else g.val
      split
      · have := g.isLt; omega
      · rfl)

theorem rLin_apply (x : FVec Ideal S10000x512 .f32) (W : FVec Ideal S1536x512 .f32) (b : FVec Ideal S1536 .f32) (r : Fin 10000) (g : Fin 1536) :
    rLin (F := Ideal) x W b (ix2 r g) = (∑ k : Fin 512, x (ix2 r k) * W (ix2 g k)) + b (ix1 g) :=
  congrArg₂ (· + ·) ((StackMember.dotGeneral_plain_apply none x _ r g).trans (Finset.sum_congr rfl fun k _ => by rw [transpose_ix2_apply]))
    (rowBias_apply _ _ b r g)

end Cert.ReferenceIdeal.Hand

end
-- ==== Proof.Ref.RefCellAt.lean ====
import proofs.«427383_j1159641169925_2_alg».proof.Proof.Ref.RefDots
import proofs.«427383_j1159641169925_2_alg».proof.Proof.Spec
import Idealize.ShloMosaic.Lib.IdealHost

noncomputable section

open scoped BigOperators

namespace Cert.ReferenceIdeal.Hand

open Cert.ReferenceIdeal Cert.ReferenceIdeal.Gen Idealize.ShloMosaic Idealize.ShloMosaic.ValueIdx

theorem rOne_apply (i : S10000x512.Idx) : rOne (F := Ideal) i = 1 :=
  (broadcastInDim_scalar_apply bcast_S_S10000x512 _ i).trans Ideal.ofBits_one_f32

theorem hostTanh_apply {s : Shape} {φ : FTy} (a : FVec Ideal s φ) (i : s.Idx) : Host.tanh a i = Ideal.tanh (a i) := rfl

theorem rGate_apply (c : Nat) (hs : S10000x1536.Slices ![0, c] S10000x512) (gi gh : FVec Ideal S10000x1536 .f32)
    (r : Fin 10000) (q : Fin 512) (g : Fin 1536) (hg : g.val = c + q.val) :
    rGate (F := Ideal) c hs gi gh (ix2 r q) = Ideal.logistic (gi (ix2 r g) + gh (ix2 r g)) := by
  simp only [rGate, hostDivf_apply, addf_apply, rOne_apply, Host.exp, Host.negf, slice2_axis1_apply c _ hs r q g hg]
  rfl

-- The maximum folded from the least float is the supremum over the nodes.
theorem rFinal_apply (h : FVec Ideal S10000x512 .f32) (fcW : FVec Ideal S512x512 .f32) (fcb : FVec Ideal S512 .f32) (q : Fin 512) :
    rFinal (F := Ideal) h fcW fcb (ix1 q)
      = Cert.Spec.fc (fun r k => h (ix2 r k)) (fun k o => fcW (ix2 o k)) (fun o => fcb (ix1 o)) q := by
  have hR : S10000x512.Reduces [0] S512 := by decide
  unfold rFinal Cert.Spec.fc
  refine (Host.reduce_eq_fold_single FloatOps.maximumf _ _ reducesTo_S10000x512_S512_d0 hR h_S_ (ix1 q)).trans ?_
  show Finset.fold max (Ideal.ofBits .f32 0xFF800000#32) _ _ = _
  rw [show Ideal.ofBits .f32 0xFF800000#32 = ⊥ by simp [Ideal.ofBits, Ideal.ieee]]
  refine congrArg (Finset.sup Finset.univ) (funext fun r => ?_)
  have e : hR.lift (ix1 q) r = ix2 r q := funext fun a => Fin.ext (by match a with | ⟨0, _⟩ | ⟨1, _⟩ => rfl)
  rw [Function.comp_apply, e]
  exact congrArg₂ (· + ·) ((StackMember.dotGeneral_plain_apply none h _ r q).trans (Finset.sum_congr rfl fun k _ => by rw [transpose_ix2_apply]))
    (rowBias_apply _ _ fcb r q)

end Cert.ReferenceIdeal.Hand

end
-- ==== Proof.Ref.RefEdgeAt.lean ====
import proofs.«427383_j1159641169925_2_alg».proof.Proof.Ref.RefOps
import Idealize.ShloMosaic.Lib.ValueLayout
import Idealize.ShloMosaic.Lib.Affine

noncomputable section

namespace Cert.ReferenceIdeal.Hand

open Cert.ReferenceIdeal Cert.ReferenceIdeal.Gen Idealize.ShloMosaic Idealize.ShloMosaic.ValueIdx

theorem rEdgeSrc_apply (a1 : IVec S4x40000x2 32) (t : Fin 4) (e : Fin 40000) : rEdgeSrc a1 (ix2 t e) = a1 (ix3 t e (0 : Fin 2)) := by
  unfold rEdgeSrc
  refine (shapeCast_apply _ _ (ix2 t e) (ix3 t e (0 : Fin 1)) ?_).trans (extractStridedSlice_apply _ _ _ _ _ fun ax => by
    match ax with
    | ⟨0, _⟩ | ⟨1, _⟩ => exact (Nat.zero_add _).symm
    | ⟨2, _⟩ => rfl)
  rw [Shape.rowMajor_val_three, Shape.rowMajor_val_two]
  show (t.val * 40000 + e.val) * 1 + 0 = t.val * 40000 + e.val
  omega

-- A source word that reads non-negative is the gather's start index itself.
theorem rSrc_apply (a1 : IVec S4x40000x2 32) (t : Fin 4) (e : Fin 40000) (h0 : 0 ≤ (a1 (ix3 t e (0 : Fin 2))).toInt) :
    rSrc a1 (ix3 t e (0 : Fin 1)) = a1 (ix3 t e (0 : Fin 2)) := by
  unfold rSrc
  refine (broadcastInDim_apply _ _ _ (ix3 t e (0 : Fin 1)) (ix2 t e) fun ax => by
    match ax with
    | ⟨0, _⟩ | ⟨1, _⟩ => rfl).trans ?_
  have hn : ¬ IntOp.cmpi .slt (a1 (ix3 t e (0 : Fin 2))) 0#32 = 1#1 := fun hc => by
    have := IntOp.cmpi_slt.1 hc
    have h0i : (0#32 : BitVec 32).toInt = 0 := by decide
    omega
  show Scalar.select (IntOp.cmpi .slt (rEdgeSrc a1 (ix2 t e)) 0#32) _ (rEdgeSrc a1 (ix2 t e)) = _
  rw [rEdgeSrc_apply, eq_zero_of_ne_one hn, select_zero]

theorem rTgt_apply (a1 : IVec S4x40000x2 32) (t : Fin 4) (e : Fin 40000) (j : Fin 160000) (hj : j.val = t.val * 40000 + e.val) :
    rTgt a1 (ix2 j (0 : Fin 1)) = a1 (ix3 t e (1 : Fin 2)) := by
  unfold rTgt
  refine (broadcastInDim_apply _ _ _ (ix2 j (0 : Fin 1)) (ix1 j) fun ax => by
    match ax with
    | ⟨0, _⟩ => rfl).trans ?_
  refine (shapeCast_apply _ _ (ix1 j) (ix2 t e) ?_).trans ?_
  · rw [Shape.rowMajor_val_two, Shape.rowMajor_val_one]
    exact hj.symm
  refine (shapeCast_apply _ _ (ix2 t e) (ix3 t e (0 : Fin 1)) ?_).trans (extractStridedSlice_apply _ _ _ _ _ fun ax => by
    match ax with
    | ⟨0, _⟩ | ⟨1, _⟩ => exact (Nat.zero_add _).symm
    | ⟨2, _⟩ => rfl)
  rw [Shape.rowMajor_val_three, Shape.rowMajor_val_two]
  show (t.val * 40000 + e.val) * 1 + 0 = t.val * 40000 + e.val
  omega

end Cert.ReferenceIdeal.Hand

end
-- ==== Proof.LibEdgeGather.lean ====
import proofs.«427383_j1159641169925_2_alg».proof.Proof.LibRows

noncomputable section

namespace Cert.LibEdgeGather

open Idealize.ShloMosaic Idealize.ShloMosaic.ValueIdx

theorem gather_rows3_apply {α : Type} {N C T E w : Nat} (d : GatherDims ⟨2, ![N, C]⟩ ⟨3, ![T, E, 1]⟩ ⟨3, ![T, E, C]⟩)
    (hoff : d.offsetDims = [2]) (hcoll : d.collapsedSliceDims = [0]) (hob : d.operandBatchingDims = [])
    (hsim : d.startIndexMap = [0]) (hivd : d.indexVectorDim = 2)
    (x : (⟨2, ![N, C]⟩ : Shape).Idx → α) (idx : IVec ⟨3, ![T, E, 1]⟩ w) (t : Fin T) (e : Fin E) (q : Fin C)
    (hN : 0 < N) :
    Host.gather d x idx (ix3 t e q)
      = x (ix2 (⟨min (idx (ix3 t e (0 : Fin 1))).toInt.toNat (N - 1), by omega⟩ : Fin N) q) := by
  refine Cert.LibRows.gather_row d hcoll hob hsim x idx _ _ q ?_ ?_ hN <;>
    obtain ⟨od, cd, ob, sb, sm, iv, ss, wf⟩ := d <;> dsimp only at hoff hcoll hob hsim hivd ⊢ <;>
    subst hoff hcoll hob hsim hivd
  · exact fun c => funext fun b => Fin.ext
      (match b with | ⟨0, _⟩ => rfl | ⟨1, _⟩ => rfl | ⟨2, _⟩ => Nat.lt_one_iff.mp c.isLt)
  · rfl

end Cert.LibEdgeGather

end
-- ==== Proof.Ref.RefMsgAt.lean ====
import proofs.«427383_j1159641169925_2_alg».proof.Proof.Ref.RefEdgeAt
import proofs.«427383_j1159641169925_2_alg».proof.Proof.Ref.RefDots
import proofs.«427383_j1159641169925_2_alg».proof.Proof.SpecArgs
import proofs.«427383_j1159641169925_2_alg».proof.Proof.LibRows
import proofs.«427383_j1159641169925_2_alg».proof.Proof.LibEdgeGather
import Idealize.ShloMosaic.Lib.IdealHost

noncomputable section

open scoped BigOperators

namespace Cert.ReferenceIdeal.Hand

open Cert.ReferenceIdeal Cert.ReferenceIdeal.Gen Idealize.ShloMosaic Idealize.ShloMosaic.ValueIdx

theorem msgBias_apply {α : Type} (bm : S4x512.Idx → α) (t : Fin 4) (e : Fin 40000) (o : Fin 512) :
    broadcastInDim S4x40000x512 ![0, 1, 2] bcast_S4x1x512_S4x40000x512_0_1_2 (broadcastInDim S4x1x512 ![0, 2] bcast_S4x512_S4x1x512_0_2 bm) (ix3 t e o) = bm (ix2 t o) :=
  (broadcastInDim_apply _ _ _ (ix3 t e o) (ix3 t (0 : Fin 1) o) fun ax => by
    match ax with
    | ⟨0, _⟩ | ⟨1, _⟩ | ⟨2, _⟩ => rfl).trans (broadcastInDim_apply _ _ _ _ (ix2 t o) fun ax => by
    match ax with
    | ⟨0, _⟩ | ⟨1, _⟩ => rfl)

variable (h : FVec Ideal S10000x512 .f32) (a1 : IVec S4x40000x2 32) (Wm : FVec Ideal S4x512x512 .f32) (bm : FVec Ideal S4x512 .f32)
  (src tgt : Fin 160000 → Fin 10000) (hE : Cert.Spec.EdgesAre a1 src tgt)
include hE

-- The source word is a node number, so neither the move of a negative word nor the clamp into the table changes it.
theorem msgGather_apply (t : Fin 4) (e : Fin 40000) (i : Fin 512) :
    Host.gather gather_S10000x512_S4x40000x1_S4x40000x512_2_0_n_n_0_2_1512 h (rSrc a1) (ix3 t e i)
      = h (ix2 (src ⟨t.val * 40000 + e.val, by have := t.isLt; have := e.isLt; omega⟩) i) := by
  refine (Cert.LibEdgeGather.gather_rows3_apply gather_S10000x512_S4x40000x1_S4x40000x512_2_0_n_n_0_2_1512 rfl rfl rfl rfl rfl h (rSrc a1) t e i (by decide)).trans (congrArg (fun n => h (ix2 n i)) (Fin.ext ?_))
  show min (rSrc a1 (ix3 t e (0 : Fin 1))).toInt.toNat (10000 - 1) = _
  have h0 := (hE t e).1
  rw [rSrc_apply a1 t e (by rw [h0]; exact Int.natCast_nonneg _), h0, Int.toNat_natCast]
  have := (src ⟨t.val * 40000 + e.val, by have := t.isLt; have := e.isLt; omega⟩).isLt
  omega

-- Over an edge array that holds the edge list, a node's entry is the sum over the edges whose target it is.
theorem rInc_apply (r : Fin 10000) (k : Fin 512) :
    rInc (F := Ideal) h a1 Wm bm (ix2 r k)
      = Cert.Spec.incR src tgt (fun r k => h (ix2 r k)) (fun t o i => Wm (ix3 t o i)) (fun t o => bm (ix2 t o)) r k := by
  have he : ∀ j : Fin 160000, j.val % 40000 < 40000 := fun j => Nat.mod_lt _ (by decide)
  have hje : ∀ j : Fin 160000, (⟨(Cert.Spec.ty j).val * 40000 + j.val % 40000,
      by have := (Cert.Spec.ty j).isLt; have := he j; omega⟩ : Fin 160000) = j := fun j =>
    Fin.ext (Nat.div_add_mod' j.val 40000)
  have hf : ∀ j : Fin 160000, ((rTgt a1 (ix2 j (0 : Fin 1))).toInt = (r.val : ℤ)) ↔ tgt j = r := fun j => by
    rw [rTgt_apply a1 (Cert.Spec.ty j) ⟨j.val % 40000, he j⟩ j (Nat.div_add_mod' j.val 40000).symm,
      (hE (Cert.Spec.ty j) ⟨j.val % 40000, he j⟩).2, hje j]
    exact ⟨fun hh => Fin.ext (by exact_mod_cast hh), fun hh => by rw [hh]⟩
  unfold rInc
  refine (Cert.LibRows.scatterAdd_rows_apply scatter_S10000x512_S160000x1_S160000x512_1_0_0_1 rfl rfl rfl rfl _ _ _ r k).trans ?_
  rw [broadcastInDim_scalar_apply, constant_apply, Ideal.ofBits_zero_f32, zero_add, Finset.filter_congr (fun j _ => hf j)]
  refine Finset.sum_congr rfl fun j _ => (shapeCast_apply _ _ (ix2 j k) (ix3 (Cert.Spec.ty j) (⟨j.val % 40000, he j⟩ : Fin 40000) k) ?_).trans ?_
  · rw [Shape.rowMajor_val_three, Shape.rowMajor_val_two]
    show (j.val / 40000 * 40000 + j.val % 40000) * 512 + k.val = j.val * 512 + k.val
    rw [Nat.div_add_mod' j.val 40000]
  · unfold rMsg
    rw [addf_apply, msgMM_apply, msgBias_apply]
    simp only [msgGather_apply h a1 src tgt hE, hje j]

end Cert.ReferenceIdeal.Hand

end
-- ==== Proof.Ref.RefSlices.lean ====
import proofs.«427383_j1159641169925_2_alg».proof.Proof.Ref.RefOps
import Idealize.ShloMosaic.Lib.ValueLayout

noncomputable section

namespace Cert.ReferenceIdeal.Hand

open Cert.ReferenceIdeal Cert.ReferenceIdeal.Gen Idealize.ShloMosaic Idealize.ShloMosaic.ValueIdx

variable {F : FTy → Type} [FloatOps F]

theorem rWm_apply (l : Fin 2) (a2 : FVec F S2x4x512x512 .f32) (t : Fin 4) (o i : Fin 512) :
    rWm l a2 (ix3 t o i) = a2 (ix4 l t o i) := by
  unfold rWm
  exact (shapeCast_1abc_abc_apply _ _ t o i).trans (extractStridedSlice_apply _ _ _ _ _ fun ax => by
    match ax with
    | ⟨0, _⟩ => rfl
    | ⟨1, _⟩ | ⟨2, _⟩ | ⟨3, _⟩ => exact (Nat.zero_add _).symm)

theorem rBm_apply (l : Fin 2) (a3 : FVec F S2x4x512 .f32) (t : Fin 4) (o : Fin 512) : rBm l a3 (ix2 t o) = a3 (ix3 l t o) := by
  unfold rBm
  exact (shapeCast_1ab_ab_apply _ _ t o).trans (extractStridedSlice_apply _ _ _ _ _ fun ax => by
    match ax with
    | ⟨0, _⟩ => rfl
    | ⟨1, _⟩ | ⟨2, _⟩ => exact (Nat.zero_add _).symm)

theorem rW_apply (l : Fin 2) (a : FVec F S2x1536x512 .f32) (g : Fin 1536) (k : Fin 512) : rW l a (ix2 g k) = a (ix3 l g k) := by
  unfold rW
  exact (shapeCast_1ab_ab_apply _ _ g k).trans (extractStridedSlice_apply _ _ _ _ _ fun ax => by
    match ax with
    | ⟨0, _⟩ => rfl
    | ⟨1, _⟩ | ⟨2, _⟩ => exact (Nat.zero_add _).symm)

theorem rB_apply (l : Fin 2) (a : FVec F S2x1536 .f32) (g : Fin 1536) : rB l a (ix1 g) = a (ix2 l g) := by
  unfold rB
  exact (shapeCast_1a_a_apply _ _ g).trans (extractStridedSlice_apply _ _ _ _ _ fun ax => by
    match ax with
    | ⟨0, _⟩ => rfl
    | ⟨1, _⟩ => exact (Nat.zero_add _).symm)

end Cert.ReferenceIdeal.Hand

end
-- ==== Proof.Ref.RefStepAt.lean ====
import proofs.«427383_j1159641169925_2_alg».proof.Proof.Ref.RefCellAt
import proofs.«427383_j1159641169925_2_alg».proof.Proof.Ref.RefMsgAt
import proofs.«427383_j1159641169925_2_alg».proof.Proof.Ref.RefSlices

noncomputable section

namespace Cert.ReferenceIdeal.Hand

open Cert.ReferenceIdeal Cert.ReferenceIdeal.Gen Cert.ReferenceIdeal.Value Idealize.ShloMosaic Idealize.ShloMosaic.TcCoe Idealize.SL.Sem Idealize.ShloMosaic.StableHlo Idealize.ShloMosaic.ValueIdx

-- Read at an element, the step is the specification's cell over the edge-side incoming sum and the layer's weights.
theorem rStepL_fun (l : Fin 2) (V : Valuation τ sig (Elt Ideal)) (h : FVec Ideal S10000x512 .f32) (src tgt : Fin 160000 → Fin 10000)
    (hE : Cert.Spec.EdgesAre (V (Proc.devRef .tc main_arg1)) src tgt) :
    (fun r k => rStepL l V h (ix2 r k))
      = Cert.Spec.stepR src tgt (fun t o i => (V (Proc.devRef .tc main_arg2)) (ix4 l t o i)) (fun t o => (V (Proc.devRef .tc main_arg3)) (ix3 l t o)) (fun k g => (V (Proc.devRef .tc main_arg4)) (ix3 l g k)) (fun k g => (V (Proc.devRef .tc main_arg5)) (ix3 l g k)) (fun g => (V (Proc.devRef .tc main_arg6)) (ix2 l g)) (fun g => (V (Proc.devRef .tc main_arg7)) (ix2 l g)) (fun r k => h (ix2 r k)) := by
  funext r q
  have hq := q.isLt
  simp only [rStepL, rCell, addf_apply, mulf_apply, subf_apply, rOne_apply, hostTanh_apply,
    rGate_apply 512 _ _ _ r q ⟨512 + q.val, by omega⟩ rfl, rGate_apply 0 _ _ _ r q ⟨q.val, by omega⟩ (Nat.zero_add _).symm,
    slice2_axis1_apply 1024 _ _ r q (⟨1024 + q.val, by omega⟩ : Fin 1536) rfl, rLin_apply, rInc_apply _ _ _ _ src tgt hE,
    rWm_apply, rBm_apply, rW_apply, rB_apply]
  rfl

end Cert.ReferenceIdeal.Hand

end
-- ==== Proof.Ref.RefRun.lean ====
import proofs.«427383_j1159641169925_2_alg».proof.Proof.Ref.RefStepAt

noncomputable section

namespace Cert.ReferenceIdeal.Hand

open Cert.ReferenceIdeal Cert.ReferenceIdeal.Gen Cert.ReferenceIdeal.Value Idealize.ShloMosaic Idealize.ShloMosaic.TcCoe Idealize.SL.Sem Idealize.ShloMosaic.StableHlo Idealize.ShloMosaic.ValueIdx

theorem ref_run (m : (ℓ : Loc nD τ sig) → Buf (Elt Ideal) ℓ) (ρ : Dev nD → PrngReg) (src tgt : Dev nD → Fin 160000 → Fin 10000)
    (hE : ∀ c : Dev nD, Cert.Spec.EdgesAre (m ((c.tc : Thread nD τ).loc main_arg1)) (src c) (tgt c)) :
    θ_run defs (onTc (τ := τ) (main (F := Ideal))) ⟨m, fun _ => 0, ρ⟩ (fun r => ∀ c : Dev nD,
      r.2.mem ((c.tc : Thread nD τ).loc main_v270) = (fun i => Cert.Spec.netOf (Cert.Spec.stepR (src c) (tgt c)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (funext fun i => by
      obtain ⟨q, rfl⟩ : ∃ q : Fin 512, i = ix1 q := ⟨i 0, eq_ix1 i⟩
      have e := (rStepL_fun · (launchContents m c) · (src c) (tgt c) (hE c))
      show rFinal (rStepL 1 (launchContents m c) (res_main_v199 (launchContents m c))) ((launchContents m c) (Proc.devRef .tc main_arg8)) ((launchContents m c) (Proc.devRef .tc main_arg9)) (ix1 q) = _
      rw [rFinal_apply, e, res_main_v199_eq, e, res_main_v134_eq, e, res_main_v69_eq, e]
      rfl), (h c).2⟩)
    (Cert.ReferenceIdeal.Value.run (F := Ideal) m ρ)

end Cert.ReferenceIdeal.Hand

end
-- ==== Proof.Assemble.lean ====
import proofs.«427383_j1159641169925_2_alg».proof.Defs
import proofs.«427383_j1159641169925_2_alg».proof.Proof.Math.Step
import proofs.«427383_j1159641169925_2_alg».proof.Proof.PreFacts
import proofs.«427383_j1159641169925_2_alg».proof.Proof.Edges
import proofs.«427383_j1159641169925_2_alg».proof.Proof.KI.ValueOut
import proofs.«427383_j1159641169925_2_alg».proof.Proof.Ref.RefRun

noncomputable section

open Idealize.ShloMosaic Idealize.ShloMosaic.TcCoe Idealize.SL.Sem

namespace Cert.Proof.Assemble

-- Both runs end at one network: the precondition makes the edge array an edge list, and the two arrangements of a step agree.
theorem algebraic_of [hKernelIdeal : Cert.KernelIdeal.Facts] [hReferenceIdeal : Cert.ReferenceIdeal.Facts]
    [hPre_finite_inputs : Cert.Pre_finite_inputs.Facts] : Cert.algebraic_KernelIdeal_ReferenceIdeal := by
  intro m g m' g' hpre hagree
  choose src tgt hE using fun c : Dev Cert.KernelIdeal.nD =>
    Cert.Spec.exists_edges _ (Cert.Proof.PreFacts.edges_in_range (hpre c))
  refine ⟨_, Cert.KernelIdeal.Hand.kernel_run m g src tgt hE,
    (θ_run Cert.ReferenceIdeal.defs _ _).mono (fun r h c => ⟨(h c).1.trans ?_, (h c).2⟩)
      (Cert.ReferenceIdeal.Hand.ref_run m' g' src tgt fun c => by rw [(hagree c).2.1]; exact hE c)⟩
  obtain ⟨e0, e1, e2, e3, e4, e5, e6, e7, e8, e9⟩ := hagree c
  rw [e0, e2, e3, e4, e5, e6, e7, e8, e9, Cert.Spec.stepK_eq_stepR]
  rfl

end Cert.Proof.Assemble

end
-- ==== Proof.lean ====
/- Four message-passing steps, a linear layer and a maximum over the nodes: the kernel transforms a node once per edge type, the reference once per edge, and the incoming sums agree by regrouping. -/
import proofs.«427383_j1159641169925_2_alg».proof.Defs
import proofs.«427383_j1159641169925_2_alg».proof.Proof.Gen.Kernel
import proofs.«427383_j1159641169925_2_alg».proof.Proof.Gen.KernelIdeal
import proofs.«427383_j1159641169925_2_alg».proof.Proof.Gen.ReferenceIdeal
import proofs.«427383_j1159641169925_2_alg».proof.Proof.Gen.Pre_finite_inputs
import proofs.«427383_j1159641169925_2_alg».proof.Proof.K.Run
import proofs.«427383_j1159641169925_2_alg».proof.Proof.KI.Run
import proofs.«427383_j1159641169925_2_alg».proof.Proof.Ref.RefFrame
import proofs.«427383_j1159641169925_2_alg».proof.Proof.Assemble

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    Cert.ReferenceIdeal.Hand.ref_frame,
    trivial,
    Cert.Proof.Assemble.algebraic_of⟩

end Cert.Proof

end
